-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v269) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8048 : Shape := ⟨2, ![256, 8048]⟩
abbrev S180000 : Shape := ⟨1, ![180000]⟩
abbrev S12000 : Shape := ⟨1, ![12000]⟩
abbrev S144000 : Shape := ⟨1, ![144000]⟩
abbrev S3000 : Shape := ⟨1, ![3000]⟩
abbrev S18000 : Shape := ⟨1, ![18000]⟩
abbrev S6 : Shape := ⟨1, ![6]⟩
abbrev S100x2048 : Shape := ⟨2, ![100, 2048]⟩
abbrev S100 : Shape := ⟨1, ![100]⟩
abbrev S50x100 : Shape := ⟨2, ![50, 100]⟩
abbrev S50 : Shape := ⟨1, ![50]⟩
abbrev S6x50 : Shape := ⟨2, ![6, 50]⟩
abbrev S6x12 : Shape := ⟨2, ![6, 12]⟩
abbrev S1x6 : Shape := ⟨2, ![1, 6]⟩
abbrev S1 : Shape := ⟨1, ![1]⟩
abbrev S1x1 : Shape := ⟨2, ![1, 1]⟩
abbrev S_ : Shape := ⟨0, ![]⟩

class Facts : Prop where
  bcast_S_S256x8048 : S_.BroadcastsInDim S256x8048 (![] : Fin 0 → Fin S256x8048.rank)
  reducesTo_S256x8048_S_d0_1 : S256x8048.ReducesTo [0, 1] S_
  h_S_ : 0 < S_.numel
  bcast_S_S180000 : S_.BroadcastsInDim S180000 (![] : Fin 0 → Fin S180000.rank)
  reducesTo_S180000_S_d0 : S180000.ReducesTo [0] S_
  bcast_S_S12000 : S_.BroadcastsInDim S12000 (![] : Fin 0 → Fin S12000.rank)
  reducesTo_S12000_S_d0 : S12000.ReducesTo [0] S_
  bcast_S_S144000 : S_.BroadcastsInDim S144000 (![] : Fin 0 → Fin S144000.rank)
  reducesTo_S144000_S_d0 : S144000.ReducesTo [0] S_
  bcast_S_S3000 : S_.BroadcastsInDim S3000 (![] : Fin 0 → Fin S3000.rank)
  reducesTo_S3000_S_d0 : S3000.ReducesTo [0] S_
  bcast_S_S18000 : S_.BroadcastsInDim S18000 (![] : Fin 0 → Fin S18000.rank)
  reducesTo_S18000_S_d0 : S18000.ReducesTo [0] S_
  bcast_S_S6 : S_.BroadcastsInDim S6 (![] : Fin 0 → Fin S6.rank)
  reducesTo_S6_S_d0 : S6.ReducesTo [0] S_
  bcast_S_S100x2048 : S_.BroadcastsInDim S100x2048 (![] : Fin 0 → Fin S100x2048.rank)
  reducesTo_S100x2048_S_d0_1 : S100x2048.ReducesTo [0, 1] S_
  bcast_S_S100 : S_.BroadcastsInDim S100 (![] : Fin 0 → Fin S100.rank)
  reducesTo_S100_S_d0 : S100.ReducesTo [0] S_
  bcast_S_S50x100 : S_.BroadcastsInDim S50x100 (![] : Fin 0 → Fin S50x100.rank)
  reducesTo_S50x100_S_d0_1 : S50x100.ReducesTo [0, 1] S_
  bcast_S_S50 : S_.BroadcastsInDim S50 (![] : Fin 0 → Fin S50.rank)
  reducesTo_S50_S_d0 : S50.ReducesTo [0] S_
  bcast_S_S6x50 : S_.BroadcastsInDim S6x50 (![] : Fin 0 → Fin S6x50.rank)
  reducesTo_S6x50_S_d0_1 : S6x50.ReducesTo [0, 1] S_
  bcast_S_S6x12 : S_.BroadcastsInDim S6x12 (![] : Fin 0 → Fin S6x12.rank)
  reducesTo_S6x12_S_d0_1 : S6x12.ReducesTo [0, 1] S_
  bcast_S_S1x6 : S_.BroadcastsInDim S1x6 (![] : Fin 0 → Fin S1x6.rank)
  reducesTo_S1x6_S_d0_1 : S1x6.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part12 {F : FTy → Type} [FloatOps F] (main_arg14 : IVec S18000 32) (main_v199 : IVec S_ 1) (main_v201 : IVec S18000 1) (main_c_83 : IVec S_ 1) : IVec S_ 1 :=
  let main_v202 : IVec S_ 1 := (fun x v => Host.reduce IntOp.andi x v reducesTo_S18000_S_d0 h_S_) main_v201 main_c_83
  let main_v203 : IVec S_ 1 := andi main_v199 main_v202
  let main_c_84 : IVec S_ 32 := constantI S_ 32 0#32
  let main_v204 : IVec S18000 32 := broadcastInDim S18000 ![] bcast_S_S18000 main_c_84
  let main_v205 : IVec S18000 1 := cmpi .sge main_arg14 main_v204
  let main_c_85 : IVec S_ 1 := constantI S_ 1 1#1
  let main_v206 : IVec S_ 1 := (fun x v => Host.reduce IntOp.andi x v reducesTo_S18000_S_d0 h_S_) main_v205 main_c_85
  let main_v207 : IVec S_ 1 := andi main_v203 main_v206
  let main_c_86 : IVec S_ 32 := constantI S_ 32 3000#32
  let main_v208 : IVec S18000 32 := broadcastInDim S18000 ![] bcast_S_S18000 main_c_86
  let main_v209 : IVec S18000 1 := cmpi .slt main_arg14 main_v208
  let main_c_87 : IVec S_ 1 := constantI S_ 1 1#1
  let main_v210 : IVec S_ 1 := (fun x v => Host.reduce IntOp.andi x v reducesTo_S18000_S_d0 h_S_) main_v209 main_c_87
  let main_v211 : IVec S_ 1 := andi main_v207 main_v210
  main_v211

def fn_part11 {F : FTy → Type} [FloatOps F] (main_arg8 : IVec S144000 32) (main_arg13 : IVec S18000 32) (main_arg14 : IVec S18000 32) (main_v183 : IVec S_ 1) (main_v185 : IVec S144000 1) (main_c_75 : IVec S_ 1) : IVec S_ 1 :=
  let main_v186 : IVec S_ 1 := (fun x v => Host.reduce IntOp.andi x v reducesTo_S144000_S_d0 h_S_) main_v185 main_c_75
  let main_v187 : IVec S_ 1 := andi main_v183 main_v186
  let main_c_76 : IVec S_ 32 := constantI S_ 32 0#32
  let main_v188 : IVec S144000 32 := broadcastInDim S144000 ![] bcast_S_S144000 main_c_76
  let main_v189 : IVec S144000 1 := cmpi .sge main_arg8 main_v188
  let main_c_77 : IVec S_ 1 := constantI S_ 1 1#1
  let main_v190 : IVec S_ 1 := (fun x v => Host.reduce IntOp.andi x v reducesTo_S144000_S_d0 h_S_) main_v189 main_c_77
  let main_v191 : IVec S_ 1 := andi main_v187 main_v190
  let main_c_78 : IVec S_ 32 := constantI S_ 32 12000#32
  let main_v192 : IVec S144000 32 := broadcastInDim S144000 ![] bcast_S_S144000 main_c_78
  let main_v193 : IVec S144000 1 := cmpi .slt main_arg8 main_v192
  let main_c_79 : IVec S_ 1 := constantI S_ 1 1#1
  let main_v194 : IVec S_ 1 := (fun x v => Host.reduce IntOp.andi x v reducesTo_S144000_S_d0 h_S_) main_v193 main_c_79
  let main_v195 : IVec S_ 1 := andi main_v191 main_v194
  let main_c_80 : IVec S_ 32 := constantI S_ 32 0#32
  let main_v196 : IVec S18000 32 := broadcastInDim S18000 ![] bcast_S_S18000 main_c_80
  let main_v197 : IVec S18000 1 := cmpi .sge main_arg13 main_v196
  let main_c_81 : IVec S_ 1 := constantI S_ 1 1#1
  let main_v198 : IVec S_ 1 := (fun x v => Host.reduce IntOp.andi x v reducesTo_S18000_S_d0 h_S_) main_v197 main_c_81
  let main_v199 : IVec S_ 1 := andi main_v195 main_v198
  let main_c_82 : IVec S_ 32 := constantI S_ 32 6#32
  let main_v200 : IVec S18000 32 := broadcastInDim S18000 ![] bcast_S_S18000 main_c_82
  let main_v201 : IVec S18000 1 := cmpi .slt main_arg13 main_v200
  let main_c_83 : IVec S_ 1 := constantI S_ 1 1#1
  fn_part12 (F := F) main_arg14 main_v199 main_v201 main_c_83

def fn_part10 {F : FTy → Type} [FloatOps F] (main_arg2 : IVec S180000 32) (main_arg7 : IVec S144000 32) (main_arg8 : IVec S144000 32) (main_arg13 : IVec S18000 32) (main_arg14 : IVec S18000 32) (main_v167 : IVec S_ 1) (main_v169 : IVec S180000 1) (main_c_67 : IVec S_ 1) : IVec S_ 1 :=
  let main_v170 : IVec S_ 1 := (fun x v => Host.reduce IntOp.andi x v reducesTo_S180000_S_d0 h_S_) main_v169 main_c_67
  let main_v171 : IVec S_ 1 := andi main_v167 main_v170
  let main_c_68 : IVec S_ 32 := constantI S_ 32 0#32
  let main_v172 : IVec S180000 32 := broadcastInDim S180000 ![] bcast_S_S180000 main_c_68
  let main_v173 : IVec S180000 1 := cmpi .sge main_arg2 main_v172
  let main_c_69 : IVec S_ 1 := constantI S_ 1 1#1
  let main_v174 : IVec S_ 1 := (fun x v => Host.reduce IntOp.andi x v reducesTo_S180000_S_d0 h_S_) main_v173 main_c_69
  let main_v175 : IVec S_ 1 := andi main_v171 main_v174
  let main_c_70 : IVec S_ 32 := constantI S_ 32 6000#32
  let main_v176 : IVec S180000 32 := broadcastInDim S180000 ![] bcast_S_S180000 main_c_70
  let main_v177 : IVec S180000 1 := cmpi .slt main_arg2 main_v176
  let main_c_71 : IVec S_ 1 := constantI S_ 1 1#1
  let main_v178 : IVec S_ 1 := (fun x v => Host.reduce IntOp.andi x v reducesTo_S180000_S_d0 h_S_) main_v177 main_c_71
  let main_v179 : IVec S_ 1 := andi main_v175 main_v178
  let main_c_72 : IVec S_ 32 := constantI S_ 32 0#32
  let main_v180 : IVec S144000 32 := broadcastInDim S144000 ![] bcast_S_S144000 main_c_72
  let main_v181 : IVec S144000 1 := cmpi .sge main_arg7 main_v180
  let main_c_73 : IVec S_ 1 := constantI S_ 1 1#1
  let main_v182 : IVec S_ 1 := (fun x v => Host.reduce IntOp.andi x v reducesTo_S144000_S_d0 h_S_) main_v181 main_c_73
  let main_v183 : IVec S_ 1 := andi main_v179 main_v182
  let main_c_74 : IVec S_ 32 := constantI S_ 32 3000#32
  let main_v184 : IVec S144000 32 := broadcastInDim S144000 ![] bcast_S_S144000 main_c_74
  let main_v185 : IVec S144000 1 := cmpi .slt main_arg7 main_v184
  let main_c_75 : IVec S_ 1 := constantI S_ 1 1#1
  fn_part11 (F := F) main_arg8 main_arg13 main_arg14 main_v183 main_v185 main_c_75

def fn_part9 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg37 : FVec F S1x1 .f32) (main_arg38 : FVec F S1 .f32) (main_v153 : IVec S_ 1) : IVec S_ 1 :=
  let main_v154 : FVec F S1x1 .f32 := Host.absf main_arg37
  let main_cst_60 : FVec F S_ .f32 := constant S_ .f32 0x7F800000#32
  let main_v155 : FVec F S1x1 .f32 := broadcastInDim S1x1 ![] bcast_S_S1x1 main_cst_60
  let main_v156 : IVec S1x1 1 := cmpf .olt main_v154 main_v155
  let main_c_61 : IVec S_ 1 := constantI S_ 1 1#1
  let main_v157 : IVec S_ 1 := (fun x v => Host.reduce IntOp.andi x v reducesTo_S1x1_S_d0_1 h_S_) main_v156 main_c_61
  let main_v158 : IVec S_ 1 := andi main_v153 main_v157
  let main_v159 : FVec F S1 .f32 := Host.absf main_arg38
  let main_cst_62 : FVec F S_ .f32 := constant S_ .f32 0x7F800000#32
  let main_v160 : FVec F S1 .f32 := broadcastInDim S1 ![] bcast_S_S1 main_cst_62
  let main_v161 : IVec S1 1 := cmpf .olt main_v159 main_v160
  let main_c_63 : IVec S_ 1 := constantI S_ 1 1#1
  let main_v162 : IVec S_ 1 := (fun x v => Host.reduce IntOp.andi x v reducesTo_S1_S_d0 h_S_) main_v161 main_c_63
  let main_v163 : IVec S_ 1 := andi main_v158 main_v162
  let main_c_64 : IVec S_ 32 := constantI S_ 32 0#32
  let main_v164 : IVec S180000 32 := broadcastInDim S180000 ![] bcast_S_S180000 main_c_64
  let main_v165 : IVec S180000 1 := cmpi .sge main_arg1 main_v164
  let main_c_65 : IVec S_ 1 := constantI S_ 1 1#1
  let main_v166 : IVec S_ 1 := (fun x v => Host.reduce IntOp.andi x v reducesTo_S180000_S_d0 h_S_) main_v165 main_c_65
  let main_v167 : IVec S_ 1 := andi main_v163 main_v166
  let main_c_66 : IVec S_ 32 := constantI S_ 32 12000#32
  let main_v168 : IVec S180000 32 := broadcastInDim S180000 ![] bcast_S_S180000 main_c_66
  let main_v169 : IVec S180000 1 := cmpi .slt main_arg1 main_v168
  let main_c_67 : IVec S_ 1 := constantI S_ 1 1#1
  fn_part10 (F := F) main_arg2 main_arg7 main_arg8 main_arg13 main_arg14 main_v167 main_v169 main_c_67

def fn_part8 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg34 : FVec F S6 .f32) (main_arg35 : FVec F S1x6 .f32) (main_arg36 : FVec F S1 .f32) (main_arg37 : FVec F S1x1 .f32) (main_arg38 : FVec F S1 .f32) (main_v133 : IVec S_ 1) (main_v136 : IVec S6 1) : IVec S_ 1 :=
  let main_c_53 : IVec S_ 1 := constantI S_ 1 1#1
  let main_v137 : IVec S_ 1 := (fun x v => Host.reduce IntOp.andi x v reducesTo_S6_S_d0 h_S_) main_v136 main_c_53
  let main_v138 : IVec S_ 1 := andi main_v133 main_v137
  let main_v139 : FVec F S6 .f32 := Host.absf main_arg34
  let main_cst_54 : FVec F S_ .f32 := constant S_ .f32 0x7F800000#32
  let main_v140 : FVec F S6 .f32 := broadcastInDim S6 ![] bcast_S_S6 main_cst_54
  let main_v141 : IVec S6 1 := cmpf .olt main_v139 main_v140
  let main_c_55 : IVec S_ 1 := constantI S_ 1 1#1
  let main_v142 : IVec S_ 1 := (fun x v => Host.reduce IntOp.andi x v reducesTo_S6_S_d0 h_S_) main_v141 main_c_55
  let main_v143 : IVec S_ 1 := andi main_v138 main_v142
  let main_v144 : FVec F S1x6 .f32 := Host.absf main_arg35
  let main_cst_56 : FVec F S_ .f32 := constant S_ .f32 0x7F800000#32
  let main_v145 : FVec F S1x6 .f32 := broadcastInDim S1x6 ![] bcast_S_S1x6 main_cst_56
  let main_v146 : IVec S1x6 1 := cmpf .olt main_v144 main_v145
  let main_c_57 : IVec S_ 1 := constantI S_ 1 1#1
  let main_v147 : IVec S_ 1 := (fun x v => Host.reduce IntOp.andi x v reducesTo_S1x6_S_d0_1 h_S_) main_v146 main_c_57
  let main_v148 : IVec S_ 1 := andi main_v143 main_v147
  let main_v149 : FVec F S1 .f32 := Host.absf main_arg36
  let main_cst_58 : FVec F S_ .f32 := constant S_ .f32 0x7F800000#32
  let main_v150 : FVec F S1 .f32 := broadcastInDim S1 ![] bcast_S_S1 main_cst_58
  let main_v151 : IVec S1 1 := cmpf .olt main_v149 main_v150
  let main_c_59 : IVec S_ 1 := constantI S_ 1 1#1
  let main_v152 : IVec S_ 1 := (fun x v => Host.reduce IntOp.andi x v reducesTo_S1_S_d0 h_S_) main_v151 main_c_59
  let main_v153 : IVec S_ 1 := andi main_v148 main_v152
  fn_part9 (F := F) main_arg1 main_arg2 main_arg7 main_arg8 main_arg13 main_arg14 main_arg37 main_arg38 main_v153

def fn_part7 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v118 : IVec S_ 1) (main_v119 : FVec F S6 .f32) : IVec S_ 1 :=
  let main_cst_46 : FVec F S_ .f32 := constant S_ .f32 0x7F800000#32
  let main_v120 : FVec F S6 .f32 := broadcastInDim S6 ![] bcast_S_S6 main_cst_46
  let main_v121 : IVec S6 1 := cmpf .olt main_v119 main_v120
  let main_c_47 : IVec S_ 1 := constantI S_ 1 1#1
  let main_v122 : IVec S_ 1 := (fun x v => Host.reduce IntOp.andi x v reducesTo_S6_S_d0 h_S_) main_v121 main_c_47
  let main_v123 : IVec S_ 1 := andi main_v118 main_v122
  let main_v124 : FVec F S6x12 .f32 := Host.absf main_arg31
  let main_cst_48 : FVec F S_ .f32 := constant S_ .f32 0x7F800000#32
  let main_v125 : FVec F S6x12 .f32 := broadcastInDim S6x12 ![] bcast_S_S6x12 main_cst_48
  let main_v126 : IVec S6x12 1 := cmpf .olt main_v124 main_v125
  let main_c_49 : IVec S_ 1 := constantI S_ 1 1#1
  let main_v127 : IVec S_ 1 := (fun x v => Host.reduce IntOp.andi x v reducesTo_S6x12_S_d0_1 h_S_) main_v126 main_c_49
  let main_v128 : IVec S_ 1 := andi main_v123 main_v127
  let main_v129 : FVec F S6 .f32 := Host.absf main_arg32
  let main_cst_50 : FVec F S_ .f32 := constant S_ .f32 0x7F800000#32
  let main_v130 : FVec F S6 .f32 := broadcastInDim S6 ![] bcast_S_S6 main_cst_50
  let main_v131 : IVec S6 1 := cmpf .olt main_v129 main_v130
  let main_c_51 : IVec S_ 1 := constantI S_ 1 1#1
  let main_v132 : IVec S_ 1 := (fun x v => Host.reduce IntOp.andi x v reducesTo_S6_S_d0 h_S_) main_v131 main_c_51
  let main_v133 : IVec S_ 1 := andi main_v128 main_v132
  let main_v134 : FVec F S6 .f32 := Host.absf main_arg33
  let main_cst_52 : FVec F S_ .f32 := constant S_ .f32 0x7F800000#32
  let main_v135 : FVec F S6 .f32 := broadcastInDim S6 ![] bcast_S_S6 main_cst_52
  let main_v136 : IVec S6 1 := cmpf .olt main_v134 main_v135
  fn_part8 (F := F) main_arg1 main_arg2 main_arg7 main_arg8 main_arg13 main_arg14 main_arg34 main_arg35 main_arg36 main_arg37 main_arg38 main_v133 main_v136

def fn_part6 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v98 : IVec S_ 1) (main_v101 : IVec S50 1) (main_c_39 : IVec S_ 1) : IVec S_ 1 :=
  let main_v102 : IVec S_ 1 := (fun x v => Host.reduce IntOp.andi x v reducesTo_S50_S_d0 h_S_) main_v101 main_c_39
  let main_v103 : IVec S_ 1 := andi main_v98 main_v102
  let main_v104 : FVec F S6x50 .f32 := Host.absf main_arg27
  let main_cst_40 : FVec F S_ .f32 := constant S_ .f32 0x7F800000#32
  let main_v105 : FVec F S6x50 .f32 := broadcastInDim S6x50 ![] bcast_S_S6x50 main_cst_40
  let main_v106 : IVec S6x50 1 := cmpf .olt main_v104 main_v105
  let main_c_41 : IVec S_ 1 := constantI S_ 1 1#1
  let main_v107 : IVec S_ 1 := (fun x v => Host.reduce IntOp.andi x v reducesTo_S6x50_S_d0_1 h_S_) main_v106 main_c_41
  let main_v108 : IVec S_ 1 := andi main_v103 main_v107
  let main_v109 : FVec F S6 .f32 := Host.absf main_arg28
  let main_cst_42 : FVec F S_ .f32 := constant S_ .f32 0x7F800000#32
  let main_v110 : FVec F S6 .f32 := broadcastInDim S6 ![] bcast_S_S6 main_cst_42
  let main_v111 : IVec S6 1 := cmpf .olt main_v109 main_v110
  let main_c_43 : IVec S_ 1 := constantI S_ 1 1#1
  let main_v112 : IVec S_ 1 := (fun x v => Host.reduce IntOp.andi x v reducesTo_S6_S_d0 h_S_) main_v111 main_c_43
  let main_v113 : IVec S_ 1 := andi main_v108 main_v112
  let main_v114 : FVec F S6 .f32 := Host.absf main_arg29
  let main_cst_44 : FVec F S_ .f32 := constant S_ .f32 0x7F800000#32
  let main_v115 : FVec F S6 .f32 := broadcastInDim S6 ![] bcast_S_S6 main_cst_44
  let main_v116 : IVec S6 1 := cmpf .olt main_v114 main_v115
  let main_c_45 : IVec S_ 1 := constantI S_ 1 1#1
  let main_v117 : IVec S_ 1 := (fun x v => Host.reduce IntOp.andi x v reducesTo_S6_S_d0 h_S_) main_v116 main_c_45
  let main_v118 : IVec S_ 1 := andi main_v113 main_v117
  let main_v119 : FVec F S6 .f32 := Host.absf main_arg30
  fn_part7 (F := F) main_arg1 main_arg2 main_arg7 main_arg8 main_arg13 main_arg14 main_arg31 main_arg32 main_arg33 main_arg34 main_arg35 main_arg36 main_arg37 main_arg38 main_v118 main_v119

def fn_part5 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg24 : FVec F S50 .f32) (main_arg25 : FVec F S50 .f32) (main_arg26 : FVec F S50 .f32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v83 : IVec S_ 1) (main_v84 : FVec F S50x100 .f32) (main_cst_32 : FVec F S_ .f32) : IVec S_ 1 :=
  let main_v85 : FVec F S50x100 .f32 := broadcastInDim S50x100 ![] bcast_S_S50x100 main_cst_32
  let main_v86 : IVec S50x100 1 := cmpf .olt main_v84 main_v85
  let main_c_33 : IVec S_ 1 := constantI S_ 1 1#1
  let main_v87 : IVec S_ 1 := (fun x v => Host.reduce IntOp.andi x v reducesTo_S50x100_S_d0_1 h_S_) main_v86 main_c_33
  let main_v88 : IVec S_ 1 := andi main_v83 main_v87
  let main_v89 : FVec F S50 .f32 := Host.absf main_arg24
  let main_cst_34 : FVec F S_ .f32 := constant S_ .f32 0x7F800000#32
  let main_v90 : FVec F S50 .f32 := broadcastInDim S50 ![] bcast_S_S50 main_cst_34
  let main_v91 : IVec S50 1 := cmpf .olt main_v89 main_v90
  let main_c_35 : IVec S_ 1 := constantI S_ 1 1#1
  let main_v92 : IVec S_ 1 := (fun x v => Host.reduce IntOp.andi x v reducesTo_S50_S_d0 h_S_) main_v91 main_c_35
  let main_v93 : IVec S_ 1 := andi main_v88 main_v92
  let main_v94 : FVec F S50 .f32 := Host.absf main_arg25
  let main_cst_36 : FVec F S_ .f32 := constant S_ .f32 0x7F800000#32
  let main_v95 : FVec F S50 .f32 := broadcastInDim S50 ![] bcast_S_S50 main_cst_36
  let main_v96 : IVec S50 1 := cmpf .olt main_v94 main_v95
  let main_c_37 : IVec S_ 1 := constantI S_ 1 1#1
  let main_v97 : IVec S_ 1 := (fun x v => Host.reduce IntOp.andi x v reducesTo_S50_S_d0 h_S_) main_v96 main_c_37
  let main_v98 : IVec S_ 1 := andi main_v93 main_v97
  let main_v99 : FVec F S50 .f32 := Host.absf main_arg26
  let main_cst_38 : FVec F S_ .f32 := constant S_ .f32 0x7F800000#32
  let main_v100 : FVec F S50 .f32 := broadcastInDim S50 ![] bcast_S_S50 main_cst_38
  let main_v101 : IVec S50 1 := cmpf .olt main_v99 main_v100
  let main_c_39 : IVec S_ 1 := constantI S_ 1 1#1
  fn_part6 (F := F) main_arg1 main_arg2 main_arg7 main_arg8 main_arg13 main_arg14 main_arg27 main_arg28 main_arg29 main_arg30 main_arg31 main_arg32 main_arg33 main_arg34 main_arg35 main_arg36 main_arg37 main_arg38 main_v98 main_v101 main_c_39

def fn_part4 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg20 : FVec F S100 .f32) (main_arg21 : FVec F S100 .f32) (main_arg22 : FVec F S100 .f32) (main_arg23 : FVec F S50x100 .f32) (main_arg24 : FVec F S50 .f32) (main_arg25 : FVec F S50 .f32) (main_arg26 : FVec F S50 .f32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v63 : IVec S_ 1) (main_v67 : IVec S_ 1) : IVec S_ 1 :=
  let main_v68 : IVec S_ 1 := andi main_v63 main_v67
  let main_v69 : FVec F S100 .f32 := Host.absf main_arg20
  let main_cst_26 : FVec F S_ .f32 := constant S_ .f32 0x7F800000#32
  let main_v70 : FVec F S100 .f32 := broadcastInDim S100 ![] bcast_S_S100 main_cst_26
  let main_v71 : IVec S100 1 := cmpf .olt main_v69 main_v70
  let main_c_27 : IVec S_ 1 := constantI S_ 1 1#1
  let main_v72 : IVec S_ 1 := (fun x v => Host.reduce IntOp.andi x v reducesTo_S100_S_d0 h_S_) main_v71 main_c_27
  let main_v73 : IVec S_ 1 := andi main_v68 main_v72
  let main_v74 : FVec F S100 .f32 := Host.absf main_arg21
  let main_cst_28 : FVec F S_ .f32 := constant S_ .f32 0x7F800000#32
  let main_v75 : FVec F S100 .f32 := broadcastInDim S100 ![] bcast_S_S100 main_cst_28
  let main_v76 : IVec S100 1 := cmpf .olt main_v74 main_v75
  let main_c_29 : IVec S_ 1 := constantI S_ 1 1#1
  let main_v77 : IVec S_ 1 := (fun x v => Host.reduce IntOp.andi x v reducesTo_S100_S_d0 h_S_) main_v76 main_c_29
  let main_v78 : IVec S_ 1 := andi main_v73 main_v77
  let main_v79 : FVec F S100 .f32 := Host.absf main_arg22
  let main_cst_30 : FVec F S_ .f32 := constant S_ .f32 0x7F800000#32
  let main_v80 : FVec F S100 .f32 := broadcastInDim S100 ![] bcast_S_S100 main_cst_30
  let main_v81 : IVec S100 1 := cmpf .olt main_v79 main_v80
  let main_c_31 : IVec S_ 1 := constantI S_ 1 1#1
  let main_v82 : IVec S_ 1 := (fun x v => Host.reduce IntOp.andi x v reducesTo_S100_S_d0 h_S_) main_v81 main_c_31
  let main_v83 : IVec S_ 1 := andi main_v78 main_v82
  let main_v84 : FVec F S50x100 .f32 := Host.absf main_arg23
  let main_cst_32 : FVec F S_ .f32 := constant S_ .f32 0x7F800000#32
  fn_part5 (F := F) main_arg1 main_arg2 main_arg7 main_arg8 main_arg13 main_arg14 main_arg24 main_arg25 main_arg26 main_arg27 main_arg28 main_arg29 main_arg30 main_arg31 main_arg32 main_arg33 main_arg34 main_arg35 main_arg36 main_arg37 main_arg38 main_v83 main_v84 main_cst_32

def fn_part3 {F : FTy → Type} [FloatOps F] (main_arg1 : IVec S180000 32) (main_arg2 : IVec S180000 32) (main_arg7 : IVec S144000 32) (main_arg8 : IVec S144000 32) (main_arg13 : IVec S18000 32) (main_arg14 : IVec S18000 32) (main_arg17 : FVec F S6 .f32) (main_arg18 : FVec F S6 .f32) (main_arg19 : FVec F S100x2048 .f32) (main_arg20 : FVec F S100 .f32) (main_arg21 : FVec F S100 .f32) (main_arg22 : FVec F S100 .f32) (main_arg23 : FVec F S50x100 .f32) (main_arg24 : FVec F S50 .f32) (main_arg25 : FVec F S50 .f32) (main_arg26 : FVec F S50 .f32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S6 .f32 := Host.absf main_arg17
  let main_cst_20 : FVec F S_ .f32 := constant S_ .f32 0x7F800000#32
  let main_v55 : FVec F S6 .f32 := broadcastInDim S6 ![] bcast_S_S6 main_cst_20
  let main_v56 : IVec S6 1 := cmpf .olt main_v54 main_v55
  let main_c_21 : IVec S_ 1 := constantI S_ 1 1#1
  let main_v57 : IVec S_ 1 := (fun x v => Host.reduce IntOp.andi x v reducesTo_S6_S_d0 h_S_) main_v56 main_c_21
  let main_v58 : IVec S_ 1 := andi main_v53 main_v57
  let main_v59 : FVec F S6 .f32 := Host.absf main_arg18
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  let main_v64 : FVec F S100x2048 .f32 := Host.absf main_arg19
  let main_cst_24 : FVec F S_ .f32 := constant S_ .f32 0x7F800000#32
  let main_v65 : FVec F S100x2048 .f32 := broadcastInDim S100x2048 ![] bcast_S_S100x2048 main_cst_24
  let main_v66 : IVec S100x2048 1 := cmpf .olt main_v64 main_v65
  let main_c_25 : IVec S_ 1 := constantI S_ 1 1#1
  let main_v67 : IVec S_ 1 := (fun x v => Host.reduce IntOp.andi x v reducesTo_S100x2048_S_d0_1 h_S_) main_v66 main_c_25
  fn_part4 (F := F) main_arg1 main_arg2 main_arg7 main_arg8 main_arg13 main_arg14 main_arg20 main_arg21 main_arg22 main_arg23 main_arg24 main_arg25 main_arg26 main_arg27 main_arg28 main_arg29 main_arg30 main_arg31 main_arg32 main_arg33 main_arg34 main_arg35 main_arg36 main_arg37 main_arg38 main_v63 main_v67

def fn_part2 {F : FTy → Type} [FloatOps F] (main_arg1 : IVec S180000 32) (main_arg2 : IVec S180000 32) (main_arg7 : IVec S144000 32) (main_arg8 : IVec S144000 32) (main_arg11 : FVec F S3000 .f32) (main_arg12 : FVec F S3000 .f32) (main_arg13 : IVec S18000 32) (main_arg14 : IVec S18000 32) (main_arg15 : FVec F S18000 .f32) (main_arg16 : FVec F S6 .f32) (main_arg17 : FVec F S6 .f32) (main_arg18 : FVec F S6 .f32) (main_arg19 : FVec F S100x2048 .f32) (main_arg20 : FVec F S100 .f32) (main_arg21 : FVec F S100 .f32) (main_arg22 : FVec F S100 .f32) (main_arg23 : FVec F S50x100 .f32) (main_arg24 : FVec F S50 .f32) (main_arg25 : FVec F S50 .f32) (main_arg26 : FVec F S50 .f32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v33 : IVec S_ 1) : IVec S_ 1 :=
  let main_v34 : FVec F S3000 .f32 := Host.absf main_arg11
  let main_cst_12 : FVec F S_ .f32 := constant S_ .f32 0x7F800000#32
  let main_v35 : FVec F S3000 .f32 := broadcastInDim S3000 ![] bcast_S_S3000 main_cst_12
  let main_v36 : IVec S3000 1 := cmpf .olt main_v34 main_v35
  let main_c_13 : IVec S_ 1 := constantI S_ 1 1#1
  let main_v37 : IVec S_ 1 := (fun x v => Host.reduce IntOp.andi x v reducesTo_S3000_S_d0 h_S_) main_v36 main_c_13
  let main_v38 : IVec S_ 1 := andi main_v33 main_v37
  let main_v39 : FVec F S3000 .f32 := Host.absf main_arg12
  let main_cst_14 : FVec F S_ .f32 := constant S_ .f32 0x7F800000#32
  let main_v40 : FVec F S3000 .f32 := broadcastInDim S3000 ![] bcast_S_S3000 main_cst_14
  let main_v41 : IVec S3000 1 := cmpf .olt main_v39 main_v40
  let main_c_15 : IVec S_ 1 := constantI S_ 1 1#1
  let main_v42 : IVec S_ 1 := (fun x v => Host.reduce IntOp.andi x v reducesTo_S3000_S_d0 h_S_) main_v41 main_c_15
  let main_v43 : IVec S_ 1 := andi main_v38 main_v42
  let main_v44 : FVec F S18000 .f32 := Host.absf main_arg15
  let main_cst_16 : FVec F S_ .f32 := constant S_ .f32 0x7F800000#32
  let main_v45 : FVec F S18000 .f32 := broadcastInDim S18000 ![] bcast_S_S18000 main_cst_16
  let main_v46 : IVec S18000 1 := cmpf .olt main_v44 main_v45
  let main_c_17 : IVec S_ 1 := constantI S_ 1 1#1
  let main_v47 : IVec S_ 1 := (fun x v => Host.reduce IntOp.andi x v reducesTo_S18000_S_d0 h_S_) main_v46 main_c_17
  let main_v48 : IVec S_ 1 := andi main_v43 main_v47
  let main_v49 : FVec F S6 .f32 := Host.absf main_arg16
  let main_cst_18 : FVec F S_ .f32 := constant S_ .f32 0x7F800000#32
  let main_v50 : FVec F S6 .f32 := broadcastInDim S6 ![] bcast_S_S6 main_cst_18
  fn_part3 (F := F) main_arg1 main_arg2 main_arg7 main_arg8 main_arg13 main_arg14 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v48 main_v49 main_v50

def fn_part1 {F : FTy → Type} [FloatOps F] (main_arg1 : IVec S180000 32) (main_arg2 : IVec S180000 32) (main_arg6 : FVec F S12000 .f32) (main_arg7 : IVec S144000 32) (main_arg8 : IVec S144000 32) (main_arg9 : FVec F S144000 .f32) (main_arg10 : FVec F S3000 .f32) (main_arg11 : FVec F S3000 .f32) (main_arg12 : FVec F S3000 .f32) (main_arg13 : IVec S18000 32) (main_arg14 : IVec S18000 32) (main_arg15 : FVec F S18000 .f32) (main_arg16 : FVec F S6 .f32) (main_arg17 : FVec F S6 .f32) (main_arg18 : FVec F S6 .f32) (main_arg19 : FVec F S100x2048 .f32) (main_arg20 : FVec F S100 .f32) (main_arg21 : FVec F S100 .f32) (main_arg22 : FVec F S100 .f32) (main_arg23 : FVec F S50x100 .f32) (main_arg24 : FVec F S50 .f32) (main_arg25 : FVec F S50 .f32) (main_arg26 : FVec F S50 .f32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) (main_v13 : IVec S_ 1) (main_v16 : IVec S12000 1) : IVec S_ 1 :=
  let main_c_5 : IVec S_ 1 := constantI S_ 1 1#1
  let main_v17 : IVec S_ 1 := (fun x v => Host.reduce IntOp.andi x v reducesTo_S12000_S_d0 h_S_) main_v16 main_c_5
  let main_v18 : IVec S_ 1 := andi main_v13 main_v17
  let main_v19 : FVec F S12000 .f32 := Host.absf main_arg6
  let main_cst_6 : FVec F S_ .f32 := constant S_ .f32 0x7F800000#32
  let main_v20 : FVec F S12000 .f32 := broadcastInDim S12000 ![] bcast_S_S12000 main_cst_6
  let main_v21 : IVec S12000 1 := cmpf .olt main_v19 main_v20
  let main_c_7 : IVec S_ 1 := constantI S_ 1 1#1
  let main_v22 : IVec S_ 1 := (fun x v => Host.reduce IntOp.andi x v reducesTo_S12000_S_d0 h_S_) main_v21 main_c_7
  let main_v23 : IVec S_ 1 := andi main_v18 main_v22
  let main_v24 : FVec F S144000 .f32 := Host.absf main_arg9
  let main_cst_8 : FVec F S_ .f32 := constant S_ .f32 0x7F800000#32
  let main_v25 : FVec F S144000 .f32 := broadcastInDim S144000 ![] bcast_S_S144000 main_cst_8
  let main_v26 : IVec S144000 1 := cmpf .olt main_v24 main_v25
  let main_c_9 : IVec S_ 1 := constantI S_ 1 1#1
  let main_v27 : IVec S_ 1 := (fun x v => Host.reduce IntOp.andi x v reducesTo_S144000_S_d0 h_S_) main_v26 main_c_9
  let main_v28 : IVec S_ 1 := andi main_v23 main_v27
  let main_v29 : FVec F S3000 .f32 := Host.absf main_arg10
  let main_cst_10 : FVec F S_ .f32 := constant S_ .f32 0x7F800000#32
  let main_v30 : FVec F S3000 .f32 := broadcastInDim S3000 ![] bcast_S_S3000 main_cst_10
  let main_v31 : IVec S3000 1 := cmpf .olt main_v29 main_v30
  let main_c_11 : IVec S_ 1 := constantI S_ 1 1#1
  let main_v32 : IVec S_ 1 := (fun x v => Host.reduce IntOp.andi x v reducesTo_S3000_S_d0 h_S_) main_v31 main_c_11
  let main_v33 : IVec S_ 1 := andi main_v28 main_v32
  fn_part2 (F := F) main_arg1 main_arg2 main_arg7 main_arg8 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v33

def fn {F : FTy → Type} [FloatOps F] (main_arg0 : FVec F S256x8048 .f32) (main_arg1 : IVec S180000 32) (main_arg2 : IVec S180000 32) (main_arg3 : FVec F S180000 .f32) (main_arg4 : FVec F S12000 .f32) (main_arg5 : FVec F S12000 .f32) (main_arg6 : FVec F S12000 .f32) (main_arg7 : IVec S144000 32) (main_arg8 : IVec S144000 32) (main_arg9 : FVec F S144000 .f32) (main_arg10 : FVec F S3000 .f32) (main_arg11 : FVec F S3000 .f32) (main_arg12 : FVec F S3000 .f32) (main_arg13 : IVec S18000 32) (main_arg14 : IVec S18000 32) (main_arg15 : FVec F S18000 .f32) (main_arg16 : FVec F S6 .f32) (main_arg17 : FVec F S6 .f32) (main_arg18 : FVec F S6 .f32) (main_arg19 : FVec F S100x2048 .f32) (main_arg20 : FVec F S100 .f32) (main_arg21 : FVec F S100 .f32) (main_arg22 : FVec F S100 .f32) (main_arg23 : FVec F S50x100 .f32) (main_arg24 : FVec F S50 .f32) (main_arg25 : FVec F S50 .f32) (main_arg26 : FVec F S50 .f32) (main_arg27 : FVec F S6x50 .f32) (main_arg28 : FVec F S6 .f32) (main_arg29 : FVec F S6 .f32) (main_arg30 : FVec F S6 .f32) (main_arg31 : FVec F S6x12 .f32) (main_arg32 : FVec F S6 .f32) (main_arg33 : FVec F S6 .f32) (main_arg34 : FVec F S6 .f32) (main_arg35 : FVec F S1x6 .f32) (main_arg36 : FVec F S1 .f32) (main_arg37 : FVec F S1x1 .f32) (main_arg38 : FVec F S1 .f32) : IVec S_ 1 :=
  let main_v0 : FVec F S256x8048 .f32 := Host.absf main_arg0
  let main_cst : FVec F S_ .f32 := constant S_ .f32 0x7F800000#32
  let main_v1 : FVec F S256x8048 .f32 := broadcastInDim S256x8048 ![] bcast_S_S256x8048 main_cst
  let main_v2 : IVec S256x8048 1 := cmpf .olt main_v0 main_v1
  let main_c : IVec S_ 1 := constantI S_ 1 1#1
  let main_v3 : IVec S_ 1 := (fun x v => Host.reduce IntOp.andi x v reducesTo_S256x8048_S_d0_1 h_S_) main_v2 main_c
  let main_v4 : FVec F S180000 .f32 := Host.absf main_arg3
  let main_cst_0 : FVec F S_ .f32 := constant S_ .f32 0x7F800000#32
  let main_v5 : FVec F S180000 .f32 := broadcastInDim S180000 ![] bcast_S_S180000 main_cst_0
  let main_v6 : IVec S180000 1 := cmpf .olt main_v4 main_v5
  let main_c_1 : IVec S_ 1 := constantI S_ 1 1#1
  let main_v7 : IVec S_ 1 := (fun x v => Host.reduce IntOp.andi x v reducesTo_S180000_S_d0 h_S_) main_v6 main_c_1
  let main_v8 : IVec S_ 1 := andi main_v3 main_v7
  let main_v9 : FVec F S12000 .f32 := Host.absf main_arg4
  let main_cst_2 : FVec F S_ .f32 := constant S_ .f32 0x7F800000#32
  let main_v10 : FVec F S12000 .f32 := broadcastInDim S12000 ![] bcast_S_S12000 main_cst_2
  let main_v11 : IVec S12000 1 := cmpf .olt main_v9 main_v10
  let main_c_3 : IVec S_ 1 := constantI S_ 1 1#1
  let main_v12 : IVec S_ 1 := (fun x v => Host.reduce IntOp.andi x v reducesTo_S12000_S_d0 h_S_) main_v11 main_c_3
  let main_v13 : IVec S_ 1 := andi main_v8 main_v12
  let main_v14 : FVec F S12000 .f32 := Host.absf main_arg5
  let main_cst_4 : FVec F S_ .f32 := constant S_ .f32 0x7F800000#32
  let main_v15 : FVec F S12000 .f32 := broadcastInDim S12000 ![] bcast_S_S12000 main_cst_4
  let main_v16 : IVec S12000 1 := cmpf .olt main_v14 main_v15
  fn_part1 (F := F) main_arg1 main_arg2 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v13 main_v16
-- ==== Kernel.lean ====
abbrev S256x8048 : Shape := ⟨2, ![256, 8048]⟩
abbrev S180000 : Shape := ⟨1, ![180000]⟩
abbrev S12000 : Shape := ⟨1, ![12000]⟩
abbrev S144000 : Shape := ⟨1, ![144000]⟩
abbrev S3000 : Shape := ⟨1, ![3000]⟩
abbrev S18000 : Shape := ⟨1, ![18000]⟩
abbrev S6 : Shape := ⟨1, ![6]⟩
abbrev S100x2048 : Shape := ⟨2, ![100, 2048]⟩
abbrev S100 : Shape := ⟨1, ![100]⟩
abbrev S50x100 : Shape := ⟨2, ![50, 100]⟩
abbrev S50 : Shape := ⟨1, ![50]⟩
abbrev S6x50 : Shape := ⟨2, ![6, 50]⟩
abbrev S6x12 : Shape := ⟨2, ![6, 12]⟩
abbrev S1x6 : Shape := ⟨2, ![1, 6]⟩
abbrev S1 : Shape := ⟨1, ![1]⟩
abbrev S1x1 : Shape := ⟨2, ![1, 1]⟩
abbrev S256x6000 : Shape := ⟨2, ![256, 6000]⟩
abbrev S256x2048 : Shape := ⟨2, ![256, 2048]⟩
abbrev S_ : Shape := ⟨0, ![]⟩
abbrev S6000x12000 : Shape := ⟨2, ![6000, 12000]⟩
abbrev S180000x1 : Shape := ⟨2, ![180000, 1]⟩
abbrev S180000x2 : Shape := ⟨2, ![180000, 2]⟩
abbrev S1x12000 : Shape := ⟨2, ![1, 12000]⟩
abbrev S256x12000 : Shape := ⟨2, ![256, 12000]⟩
abbrev S6000x1024 : Shape := ⟨2, ![6000, 1024]⟩
abbrev S1x1024 : Shape := ⟨2, ![1, 1024]⟩
abbrev S256x1024 : Shape := ⟨2, ![256, 1024]⟩
abbrev S1024 : Shape := ⟨1, ![1024]⟩
abbrev S12000x3000 : Shape := ⟨2, ![12000, 3000]⟩
abbrev S144000x1 : Shape := ⟨2, ![144000, 1]⟩
abbrev S144000x2 : Shape := ⟨2, ![144000, 2]⟩
abbrev S1x3000 : Shape := ⟨2, ![1, 3000]⟩
abbrev S256x3000 : Shape := ⟨2, ![256, 3000]⟩
abbrev S12000x384 : Shape := ⟨2, ![12000, 384]⟩
abbrev S1x384 : Shape := ⟨2, ![1, 384]⟩
abbrev S256x384 : Shape := ⟨2, ![256, 384]⟩
abbrev S384 : Shape := ⟨1, ![384]⟩
abbrev S3000x6 : Shape := ⟨2, ![3000, 6]⟩
abbrev S18000x1 : Shape := ⟨2, ![18000, 1]⟩
abbrev S18000x2 : Shape := ⟨2, ![18000, 2]⟩
abbrev S256x6 : Shape := ⟨2, ![256, 6]⟩
abbrev S2048x100 : Shape := ⟨2, ![2048, 100]⟩
abbrev S256x100 : Shape := ⟨2, ![256, 100]⟩
abbrev S1x100 : Shape := ⟨2, ![1, 100]⟩
abbrev S100x50 : Shape := ⟨2, ![100, 50]⟩
abbrev S256x50 : Shape := ⟨2, ![256, 50]⟩
abbrev S1x50 : Shape := ⟨2, ![1, 50]⟩
abbrev S50x6 : Shape := ⟨2, ![50, 6]⟩
abbrev S256x12 : Shape := ⟨2, ![256, 12]⟩
abbrev S12x6 : Shape := ⟨2, ![12, 6]⟩
abbrev S6x1 : Shape := ⟨2, ![6, 1]⟩
abbrev S256x1 : Shape := ⟨2, ![256, 1]⟩

abbrev nBuf : Space → Nat
  | .hbm => 275
  | .vmem => 28
  | .smem => 0
  | _ => 0

abbrev hbmTy0_0 (i : Nat) : BufTy := match i % 128 with
  | 0 => ⟨S256x8048, .f32⟩
  | 1 => ⟨S180000, .i32⟩
  | 2 => ⟨S180000, .i32⟩
  | 3 => ⟨S180000, .f32⟩
  | 4 => ⟨S12000, .f32⟩
  | 5 => ⟨S12000, .f32⟩
  | 6 => ⟨S12000, .f32⟩
  | 7 => ⟨S144000, .i32⟩
  | 8 => ⟨S144000, .i32⟩
  | 9 => ⟨S144000, .f32⟩
  | 10 => ⟨S3000, .f32⟩
  | 11 => ⟨S3000, .f32⟩
  | 12 => ⟨S3000, .f32⟩
  | 13 => ⟨S18000, .i32⟩
  | 14 => ⟨S18000, .i32⟩
  | 15 => ⟨S18000, .f32⟩
  | 16 => ⟨S6, .f32⟩
  | 17 => ⟨S6, .f32⟩
  | 18 => ⟨S6, .f32⟩
  | 19 => ⟨S100x2048, .f32⟩
  | 20 => ⟨S100, .f32⟩
  | 21 => ⟨S100, .f32⟩
  | 22 => ⟨S100, .f32⟩
  | 23 => ⟨S50x100, .f32⟩
  | 24 => ⟨S50, .f32⟩
  | 25 => ⟨S50, .f32⟩
  | 26 => ⟨S50, .f32⟩
  | 27 => ⟨S6x50, .f32⟩
  | 28 => ⟨S6, .f32⟩
  | 29 => ⟨S6, .f32⟩
  | 30 => ⟨S6, .f32⟩
  | 31 => ⟨S6x12, .f32⟩
  | 32 => ⟨S6, .f32⟩
  | 33 => ⟨S6, .f32⟩
  | 34 => ⟨S6, .f32⟩
  | 35 => ⟨S1x6, .f32⟩
  | 36 => ⟨S1, .f32⟩
  | 37 => ⟨S1x1, .f32⟩
  | 38 => ⟨S1, .f32⟩
  | 39 => ⟨S256x6000, .f32⟩
  | 40 => ⟨S256x2048, .f32⟩
  | 41 => ⟨S_, .f32⟩
  | 42 => ⟨S6000x12000, .f32⟩
  | 43 => ⟨S_, .i32⟩
  | 44 => ⟨S180000, .i32⟩
  | 45 => ⟨S180000, .i1⟩
  | 46 => ⟨S_, .i32⟩
  | 47 => ⟨S180000, .i32⟩
  | 48 => ⟨S180000, .i32⟩
  | 49 => ⟨S180000, .i32⟩
  | 50 => ⟨S_, .i32⟩
  | 51 => ⟨S180000, .i32⟩
  | 52 => ⟨S180000, .i1⟩
  | 53 => ⟨S_, .i32⟩
  | 54 => ⟨S180000, .i32⟩
  | 55 => ⟨S180000, .i32⟩
  | 56 => ⟨S180000, .i32⟩
  | 57 => ⟨S180000x1, .i32⟩
  | 58 => ⟨S180000x1, .i32⟩
  | 59 => ⟨S180000x2, .i32⟩
  | 60 => ⟨S6000x12000, .f32⟩
  | 61 => ⟨S1x12000, .f32⟩
  | 62 => ⟨S1x12000, .f32⟩
  | 63 => ⟨S1x12000, .f32⟩
  | 64 => ⟨S256x6000, .bf16⟩
  | 65 => ⟨S6000x12000, .bf16⟩
  | 66 => ⟨S256x12000, .f32⟩
  | 67 => ⟨S_, .f32⟩
  | 68 => ⟨S12000x3000, .f32⟩
  | 69 => ⟨S_, .i32⟩
  | 70 => ⟨S144000, .i32⟩
  | 71 => ⟨S144000, .i1⟩
  | 72 => ⟨S_, .i32⟩
  | 73 => ⟨S144000, .i32⟩
  | 74 => ⟨S144000, .i32⟩
  | 75 => ⟨S144000, .i32⟩
  | 76 => ⟨S_, .i32⟩
  | 77 => ⟨S144000, .i32⟩
  | 78 => ⟨S144000, .i1⟩
  | 79 => ⟨S_, .i32⟩
  | 80 => ⟨S144000, .i32⟩
  | 81 => ⟨S144000, .i32⟩
  | 82 => ⟨S144000, .i32⟩
  | 83 => ⟨S144000x1, .i32⟩
  | 84 => ⟨S144000x1, .i32⟩
  | 85 => ⟨S144000x2, .i32⟩
  | 86 => ⟨S12000x3000, .f32⟩
  | 87 => ⟨S1x3000, .f32⟩
  | 88 => ⟨S1x3000, .f32⟩
  | 89 => ⟨S1x3000, .f32⟩
  | 90 => ⟨S256x12000, .bf16⟩
  | 91 => ⟨S12000x3000, .bf16⟩
  | 92 => ⟨S256x3000, .f32⟩
  | 93 => ⟨S_, .f32⟩
  | 94 => ⟨S3000x6, .f32⟩
  | 95 => ⟨S_, .i32⟩
  | 96 => ⟨S18000, .i32⟩
  | 97 => ⟨S18000, .i1⟩
  | 98 => ⟨S_, .i32⟩
  | 99 => ⟨S18000, .i32⟩
  | 100 => ⟨S18000, .i32⟩
  | 101 => ⟨S18000, .i32⟩
  | 102 => ⟨S_, .i32⟩
  | 103 => ⟨S18000, .i32⟩
  | 104 => ⟨S18000, .i1⟩
  | 105 => ⟨S_, .i32⟩
  | 106 => ⟨S18000, .i32⟩
  | 107 => ⟨S18000, .i32⟩
  | 108 => ⟨S18000, .i32⟩
  | 109 => ⟨S18000x1, .i32⟩
  | 110 => ⟨S18000x1, .i32⟩
  | 111 => ⟨S18000x2, .i32⟩
  | 112 => ⟨S3000x6, .f32⟩
  | 113 => ⟨S1x6, .f32⟩
  | 114 => ⟨S1x6, .f32⟩
  | 115 => ⟨S1x6, .f32⟩
  | 116 => ⟨S256x3000, .bf16⟩
  | 117 => ⟨S3000x6, .bf16⟩
  | 118 => ⟨S256x6, .f32⟩
  | 119 => ⟨S2048x100, .f32⟩
  | 120 => ⟨S256x100, .f32⟩
  | 121 => ⟨S1x100, .f32⟩
  | 122 => ⟨S256x100, .f32⟩
  | 123 => ⟨S256x100, .f32⟩
  | 124 => ⟨S256x100, .f32⟩
  | 125 => ⟨S_, .f32⟩
  | 126 => ⟨S100, .f32⟩
  | 127 => ⟨S_, .f32⟩
  | _ => ⟨S256x8048, .f32⟩

abbrev hbmTy0_1 (i : Nat) : BufTy := match i % 128 with
  | 0 => ⟨S100, .f32⟩
  | 1 => ⟨S100, .f32⟩
  | 2 => ⟨S1x100, .f32⟩
  | 3 => ⟨S256x100, .f32⟩
  | 4 => ⟨S256x100, .f32⟩
  | 5 => ⟨S256x100, .f32⟩
  | 6 => ⟨S_, .f32⟩
  | 7 => ⟨S100, .f32⟩
  | 8 => ⟨S_, .f32⟩
  | 9 => ⟨S100, .f32⟩
  | 10 => ⟨S100, .f32⟩
  | 11 => ⟨S1x100, .f32⟩
  | 12 => ⟨S256x100, .f32⟩
  | 13 => ⟨S256x100, .f32⟩
  | 14 => ⟨S1x100, .f32⟩
  | 15 => ⟨S256x100, .f32⟩
  | 16 => ⟨S256x100, .f32⟩
  | 17 => ⟨S_, .f32⟩
  | 18 => ⟨S100, .f32⟩
  | 19 => ⟨S100, .f32⟩
  | 20 => ⟨S100, .f32⟩
  | 21 => ⟨S1x100, .f32⟩
  | 22 => ⟨S256x100, .f32⟩
  | 23 => ⟨S256x100, .f32⟩
  | 24 => ⟨S1x100, .f32⟩
  | 25 => ⟨S256x100, .f32⟩
  | 26 => ⟨S256x100, .f32⟩
  | 27 => ⟨S100x50, .f32⟩
  | 28 => ⟨S256x50, .f32⟩
  | 29 => ⟨S1x50, .f32⟩
  | 30 => ⟨S256x50, .f32⟩
  | 31 => ⟨S256x50, .f32⟩
  | 32 => ⟨S256x50, .f32⟩
  | 33 => ⟨S_, .f32⟩
  | 34 => ⟨S50, .f32⟩
  | 35 => ⟨S_, .f32⟩
  | 36 => ⟨S50, .f32⟩
  | 37 => ⟨S50, .f32⟩
  | 38 => ⟨S1x50, .f32⟩
  | 39 => ⟨S256x50, .f32⟩
  | 40 => ⟨S256x50, .f32⟩
  | 41 => ⟨S256x50, .f32⟩
  | 42 => ⟨S_, .f32⟩
  | 43 => ⟨S50, .f32⟩
  | 44 => ⟨S_, .f32⟩
  | 45 => ⟨S50, .f32⟩
  | 46 => ⟨S50, .f32⟩
  | 47 => ⟨S1x50, .f32⟩
  | 48 => ⟨S256x50, .f32⟩
  | 49 => ⟨S256x50, .f32⟩
  | 50 => ⟨S1x50, .f32⟩
  | 51 => ⟨S256x50, .f32⟩
  | 52 => ⟨S256x50, .f32⟩
  | 53 => ⟨S_, .f32⟩
  | 54 => ⟨S50, .f32⟩
  | 55 => ⟨S50, .f32⟩
  | 56 => ⟨S50, .f32⟩
  | 57 => ⟨S1x50, .f32⟩
  | 58 => ⟨S256x50, .f32⟩
  | 59 => ⟨S256x50, .f32⟩
  | 60 => ⟨S1x50, .f32⟩
  | 61 => ⟨S256x50, .f32⟩
  | 62 => ⟨S256x50, .f32⟩
  | 63 => ⟨S50x6, .f32⟩
  | 64 => ⟨S256x6, .f32⟩
  | 65 => ⟨S1x6, .f32⟩
  | 66 => ⟨S256x6, .f32⟩
  | 67 => ⟨S256x6, .f32⟩
  | 68 => ⟨S256x6, .f32⟩
  | 69 => ⟨S_, .f32⟩
  | 70 => ⟨S6, .f32⟩
  | 71 => ⟨S_, .f32⟩
  | 72 => ⟨S6, .f32⟩
  | 73 => ⟨S6, .f32⟩
  | 74 => ⟨S1x6, .f32⟩
  | 75 => ⟨S256x6, .f32⟩
  | 76 => ⟨S256x6, .f32⟩
  | 77 => ⟨S256x6, .f32⟩
  | 78 => ⟨S_, .f32⟩
  | 79 => ⟨S6, .f32⟩
  | 80 => ⟨S_, .f32⟩
  | 81 => ⟨S6, .f32⟩
  | 82 => ⟨S6, .f32⟩
  | 83 => ⟨S1x6, .f32⟩
  | 84 => ⟨S256x6, .f32⟩
  | 85 => ⟨S256x6, .f32⟩
  | 86 => ⟨S1x6, .f32⟩
  | 87 => ⟨S256x6, .f32⟩
  | 88 => ⟨S256x6, .f32⟩
  | 89 => ⟨S_, .f32⟩
  | 90 => ⟨S6, .f32⟩
  | 91 => ⟨S6, .f32⟩
  | 92 => ⟨S6, .f32⟩
  | 93 => ⟨S1x6, .f32⟩
  | 94 => ⟨S256x6, .f32⟩
  | 95 => ⟨S256x6, .f32⟩
  | 96 => ⟨S1x6, .f32⟩
  | 97 => ⟨S256x6, .f32⟩
  | 98 => ⟨S256x6, .f32⟩
  | 99 => ⟨S256x12, .f32⟩
  | 100 => ⟨S12x6, .f32⟩
  | 101 => ⟨S256x6, .f32⟩
  | 102 => ⟨S1x6, .f32⟩
  | 103 => ⟨S256x6, .f32⟩
  | 104 => ⟨S256x6, .f32⟩
  | 105 => ⟨S256x6, .f32⟩
  | 106 => ⟨S_, .f32⟩
  | 107 => ⟨S6, .f32⟩
  | 108 => ⟨S_, .f32⟩
  | 109 => ⟨S6, .f32⟩
  | 110 => ⟨S6, .f32⟩
  | 111 => ⟨S1x6, .f32⟩
  | 112 => ⟨S256x6, .f32⟩
  | 113 => ⟨S256x6, .f32⟩
  | 114 => ⟨S256x6, .f32⟩
  | 115 => ⟨S_, .f32⟩
  | 116 => ⟨S6, .f32⟩
  | 117 => ⟨S_, .f32⟩
  | 118 => ⟨S6, .f32⟩
  | 119 => ⟨S6, .f32⟩
  | 120 => ⟨S1x6, .f32⟩
  | 121 => ⟨S256x6, .f32⟩
  | 122 => ⟨S256x6, .f32⟩
  | 123 => ⟨S1x6, .f32⟩
  | 124 => ⟨S256x6, .f32⟩
  | 125 => ⟨S256x6, .f32⟩
  | 126 => ⟨S_, .f32⟩
  | 127 => ⟨S6, .f32⟩
  | _ => ⟨S256x8048, .f32⟩

abbrev hbmTy0_2 (i : Nat) : BufTy := match i % 128 with
  | 0 => ⟨S6, .f32⟩
  | 1 => ⟨S6, .f32⟩
  | 2 => ⟨S1x6, .f32⟩
  | 3 => ⟨S256x6, .f32⟩
  | 4 => ⟨S256x6, .f32⟩
  | 5 => ⟨S1x6, .f32⟩
  | 6 => ⟨S256x6, .f32⟩
  | 7 => ⟨S256x6, .f32⟩
  | 8 => ⟨S6x1, .f32⟩
  | 9 => ⟨S256x1, .f32⟩
  | 10 => ⟨S1x1, .f32⟩
  | 11 => ⟨S256x1, .f32⟩
  | 12 => ⟨S256x1, .f32⟩
  | 13 => ⟨S256x1, .f32⟩
  | 14 => ⟨S1x1, .f32⟩
  | 15 => ⟨S256x1, .f32⟩
  | 16 => ⟨S1x1, .f32⟩
  | 17 => ⟨S256x1, .f32⟩
  | 18 => ⟨S256x1, .f32⟩
  | _ => ⟨S256x8048, .f32⟩

abbrev hbmTy (i : Nat) : BufTy := match i / 128 with
  | 0 => hbmTy0_0 i
  | 1 => hbmTy0_1 i
  | 2 => hbmTy0_2 i
  | _ => ⟨S256x8048, .f32⟩

abbrev bufTy : (tb : Table) → Fin (tcTables nBuf tb) → BufTy
  | .hbm, ⟨i, _⟩ => hbmTy i
  | .local _ .vmem, ⟨0, _⟩ => ⟨S256x6000, .bf16⟩
  | .local _ .vmem, ⟨1, _⟩ => ⟨S6000x1024, .bf16⟩
  | .local _ .vmem, ⟨2, _⟩ => ⟨S6000x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x12000, .bf16⟩
  | .local _ .vmem, ⟨12, _⟩ => ⟨S12000x384, .bf16⟩
  | .local _ .vmem, ⟨13, _⟩ => ⟨S12000x384, .bf16⟩
  | .local _ .vmem, ⟨14, _⟩ => ⟨S1x384, .f32⟩
  | .local _ .vmem, ⟨15, _⟩ => ⟨S1x384, .f32⟩
  | .local _ .vmem, ⟨16, _⟩ => ⟨S1x384, .f32⟩
  | .local _ .vmem, ⟨17, _⟩ => ⟨S1x384, .f32⟩
  | .local _ .vmem, ⟨18, _⟩ => ⟨S1x384, .f32⟩
  | .local _ .vmem, ⟨19, _⟩ => ⟨S1x384, .f32⟩
  | .local _ .vmem, ⟨20, _⟩ => ⟨S256x384, .f32⟩
  | .local _ .vmem, ⟨21, _⟩ => ⟨S256x384, .f32⟩
  | .local _ .vmem, ⟨22, _⟩ => ⟨S256x3000, .bf16⟩
  | .local _ .vmem, ⟨23, _⟩ => ⟨S3000x6, .bf16⟩
  | .local _ .vmem, ⟨24, _⟩ => ⟨S1x6, .f32⟩
  | .local _ .vmem, ⟨25, _⟩ => ⟨S1x6, .f32⟩
  | .local _ .vmem, ⟨26, _⟩ => ⟨S1x6, .f32⟩
  | .local _ .vmem, ⟨27, _⟩ => ⟨S256x6, .f32⟩
  | _, _ => ⟨S256x8048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_cst : Ref sig .tc := ⟨.hbm, 41, rfl⟩
abbrev main_v2 : Ref sig .tc := ⟨.hbm, 42, rfl⟩
abbrev main_c : Ref sig .tc := ⟨.hbm, 43, rfl⟩
abbrev main_v3 : Ref sig .tc := ⟨.hbm, 44, rfl⟩
abbrev main_v4 : Ref sig .tc := ⟨.hbm, 45, rfl⟩
abbrev main_c_0 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_c_1 : Ref sig .tc := ⟨.hbm, 50, rfl⟩
abbrev main_v8 : Ref sig .tc := ⟨.hbm, 51, rfl⟩
abbrev main_v9 : Ref sig .tc := ⟨.hbm, 52, rfl⟩
abbrev main_c_2 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_3 : Ref sig .tc := ⟨.hbm, 67, rfl⟩
abbrev main_v23 : Ref sig .tc := ⟨.hbm, 68, rfl⟩
abbrev main_c_4 : Ref sig .tc := ⟨.hbm, 69, rfl⟩
abbrev main_v24 : Ref sig .tc := ⟨.hbm, 70, rfl⟩
abbrev main_v25 : Ref sig .tc := ⟨.hbm, 71, rfl⟩
abbrev main_c_5 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_c_6 : Ref sig .tc := ⟨.hbm, 76, rfl⟩
abbrev main_v29 : Ref sig .tc := ⟨.hbm, 77, rfl⟩
abbrev main_v30 : Ref sig .tc := ⟨.hbm, 78, rfl⟩
abbrev main_c_7 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_8 : Ref sig .tc := ⟨.hbm, 93, rfl⟩
abbrev main_v44 : Ref sig .tc := ⟨.hbm, 94, rfl⟩
abbrev main_c_9 : Ref sig .tc := ⟨.hbm, 95, rfl⟩
abbrev main_v45 : Ref sig .tc := ⟨.hbm, 96, rfl⟩
abbrev main_v46 : Ref sig .tc := ⟨.hbm, 97, rfl⟩
abbrev main_c_10 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_c_11 : Ref sig .tc := ⟨.hbm, 102, rfl⟩
abbrev main_v50 : Ref sig .tc := ⟨.hbm, 103, rfl⟩
abbrev main_v51 : Ref sig .tc := ⟨.hbm, 104, rfl⟩
abbrev main_c_12 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_13 : Ref sig .tc := ⟨.hbm, 125, rfl⟩
abbrev main_v71 : Ref sig .tc := ⟨.hbm, 126, rfl⟩
abbrev main_cst_14 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_15 : Ref sig .tc := ⟨.hbm, 134, rfl⟩
abbrev main_v78 : Ref sig .tc := ⟨.hbm, 135, rfl⟩
abbrev main_cst_16 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_17 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_18 : Ref sig .tc := ⟨.hbm, 161, rfl⟩
abbrev main_v102 : Ref sig .tc := ⟨.hbm, 162, rfl⟩
abbrev main_cst_19 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_20 : Ref sig .tc := ⟨.hbm, 170, rfl⟩
abbrev main_v109 : Ref sig .tc := ⟨.hbm, 171, rfl⟩
abbrev main_cst_21 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_22 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_cst_23 : Ref sig .tc := ⟨.hbm, 197, rfl⟩
abbrev main_v133 : Ref sig .tc := ⟨.hbm, 198, rfl⟩
abbrev main_cst_24 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_cst_25 : Ref sig .tc := ⟨.hbm, 206, rfl⟩
abbrev main_v140 : Ref sig .tc := ⟨.hbm, 207, rfl⟩
abbrev main_cst_26 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_cst_27 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_v164 : Ref sig .tc := ⟨.hbm, 233, rfl⟩
abbrev main_cst_28 : Ref sig .tc := ⟨.hbm, 234, rfl⟩
abbrev main_v165 : Ref sig .tc := ⟨.hbm, 235, rfl⟩
abbrev main_cst_29 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_cst_30 : Ref sig .tc := ⟨.hbm, 243, rfl⟩
abbrev main_v172 : Ref sig .tc := ⟨.hbm, 244, rfl⟩
abbrev main_cst_31 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_cst_32 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_v186 : Ref sig .tc := ⟨.hbm, 260, rfl⟩
abbrev main_v187 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x6000 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6000x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S256x12000 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S12000x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x384 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S256x3000 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S3000x6 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x6 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S1x6 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S1x6 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S256x6 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

class Facts₀ : Prop where
  slices_S256x8048_S256x6000_0_0 : S256x8048.Slices ![0, 0] S256x6000
  slices_S256x8048_S256x2048_0_6000 : S256x8048.Slices ![0, 6000] S256x2048
  bcast_S_S6000x12000 : S_.BroadcastsInDim S6000x12000 (![] : Fin 0 → Fin S6000x12000.rank)
  bcast_S_S180000 : S_.BroadcastsInDim S180000 (![] : Fin 0 → Fin S180000.rank)
  bcast_S180000_S180000x1_0 : S180000.BroadcastsInDim S180000x1 (![0] : Fin 1 → Fin S180000x1.rank)
  concatenates_S180000x1_S180000x1_S180000x2_d1 : Shape.Concatenates [S180000x1, S180000x1] S180000x2 1
  shapeCasts_S12000_S1x12000 : S12000.ShapeCasts S1x12000
  bitsLt_bf16_f32 : FTy.bits .bf16 < FTy.bits .f32
  inb_S256x6000_S256x6000_0_0 : ∀ a, (![0, 0] : Fin 2 → Nat) a + S256x6000.size a ≤ S256x6000.size a
  h_S256x6000 : 0 < S256x6000.numel
  shapeCasts_S256x6000_S256x6000 : S256x6000.ShapeCasts S256x6000
  inb_S6000x1024_S6000x1024_0_0 : ∀ a, (![0, 0] : Fin 2 → Nat) a + S6000x1024.size a ≤ S6000x1024.size a
  h_S6000x1024 : 0 < S6000x1024.numel
  shapeCasts_S6000x1024_S6000x1024 : S6000x1024.ShapeCasts S6000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  reduces_S256x1024_S1024 : S256x1024.Reduces [0] S1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  bcast_S_S12000x3000 : S_.BroadcastsInDim S12000x3000 (![] : Fin 0 → Fin S12000x3000.rank)
  bcast_S_S144000 : S_.BroadcastsInDim S144000 (![] : Fin 0 → Fin S144000.rank)
  bcast_S144000_S144000x1_0 : S144000.BroadcastsInDim S144000x1 (![0] : Fin 1 → Fin S144000x1.rank)
  concatenates_S144000x1_S144000x1_S144000x2_d1 : Shape.Concatenates [S144000x1, S144000x1] S144000x2 1
  shapeCasts_S3000_S1x3000 : S3000.ShapeCasts S1x3000
  inb_S256x12000_S256x12000_0_0 : ∀ a, (![0, 0] : Fin 2 → Nat) a + S256x12000.size a ≤ S256x12000.size a
  h_S256x12000 : 0 < S256x12000.numel
  shapeCasts_S256x12000_S256x12000 : S256x12000.ShapeCasts S256x12000
  inb_S12000x384_S12000x384_0_0 : ∀ a, (![0, 0] : Fin 2 → Nat) a + S12000x384.size a ≤ S12000x384.size a
  h_S12000x384 : 0 < S12000x384.numel
  shapeCasts_S12000x384_S12000x384 : S12000x384.ShapeCasts S12000x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  reduces_S256x384_S384 : S256x384.Reduces [0] S384
  shapeCasts_S384_S1x384 : S384.ShapeCasts S1x384
  inb_S256x384_S256x384_0_0 : ∀ a, (![0, 0] : Fin 2 → Nat) a + S256x384.size a ≤ S256x384.size a
  h_S256x384 : 0 < S256x384.numel
  bcast_S_S3000x6 : S_.BroadcastsInDim S3000x6 (![] : Fin 0 → Fin S3000x6.rank)
  bcast_S_S18000 : S_.BroadcastsInDim S18000 (![] : Fin 0 → Fin S18000.rank)
  bcast_S18000_S18000x1_0 : S18000.BroadcastsInDim S18000x1 (![0] : Fin 1 → Fin S18000x1.rank)
  concatenates_S18000x1_S18000x1_S18000x2_d1 : Shape.Concatenates [S18000x1, S18000x1] S18000x2 1
  shapeCasts_S6_S1x6 : S6.ShapeCasts S1x6
  inb_S256x3000_S256x3000_0_0 : ∀ a, (![0, 0] : Fin 2 → Nat) a + S256x3000.size a ≤ S256x3000.size a
  h_S256x3000 : 0 < S256x3000.numel
  shapeCasts_S256x3000_S256x3000 : S256x3000.ShapeCasts S256x3000
  inb_S3000x6_S3000x6_0_0 : ∀ a, (![0, 0] : Fin 2 → Nat) a + S3000x6.size a ≤ S3000x6.size a
  h_S3000x6 : 0 < S3000x6.numel
  shapeCasts_S3000x6_S3000x6 : S3000x6.ShapeCasts S3000x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S256x6 : S1x6.Broadcasts S256x6
  reduces_S256x6_S6 : S256x6.Reduces [0] S6
  inb_S256x6_S256x6_0_0 : ∀ a, (![0, 0] : Fin 2 → Nat) a + S256x6.size a ≤ S256x6.size a
  h_S256x6 : 0 < S256x6.numel
  transposes_S100x2048_S2048x100_1_0 : S100x2048.Transposes [1, 0] S2048x100
  bcast_S100_S1x100_1 : S100.BroadcastsInDim S1x100 (![1] : Fin 1 → Fin S1x100.rank)
  bcast_S1x100_S256x100_0_1 : S1x100.BroadcastsInDim S256x100 (![0, 1] : Fin 2 → Fin S256x100.rank)
  reducesTo_S256x100_S100_d0 : S256x100.ReducesTo [0] S100
  h_S_ : 0 < S_.numel
  bcast_S_S100 : S_.BroadcastsInDim S100 (![] : Fin 0 → Fin S100.rank)
  transposes_S50x100_S100x50_1_0 : S50x100.Transposes [1, 0] S100x50
  bcast_S50_S1x50_1 : S50.BroadcastsInDim S1x50 (![1] : Fin 1 → Fin S1x50.rank)
  bcast_S1x50_S256x50_0_1 : S1x50.BroadcastsInDim S256x50 (![0, 1] : Fin 2 → Fin S256x50.rank)
  reducesTo_S256x50_S50_d0 : S256x50.ReducesTo [0] S50
  bcast_S_S50 : S_.BroadcastsInDim S50 (![] : Fin 0 → Fin S50.rank)
  transposes_S6x50_S50x6_1_0 : S6x50.Transposes [1, 0] S50x6
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  reducesTo_S256x6_S6_d0 : S256x6.ReducesTo [0] S6
  bcast_S_S6 : S_.BroadcastsInDim S6 (![] : Fin 0 → Fin S6.rank)
  concatenates_S256x6_S256x6_S256x12_d1 : Shape.Concatenates [S256x6, S256x6] S256x12 1
  transposes_S6x12_S12x6_1_0 : S6x12.Transposes [1, 0] S12x6
  transposes_S1x6_S6x1_1_0 : S1x6.Transposes [1, 0] S6x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  transposes_S1x1_S1x1_1_0 : S1x1.Transposes [1, 0] S1x1
  scatter_S6000x12000_S180000x2_S180000_n_01_01_1_wf : ScatterDims.WF S6000x12000 S180000x2 S180000 [] [0, 1] [0, 1] 1
  dot_S256x6000_S6000x1024_S256x1024_1_0_0_1_n_n_wf : DotDims.WF S256x6000 S6000x1024 S256x1024 [1] [0] [0] [1] [] []
  scatter_S12000x3000_S144000x2_S144000_n_01_01_1_wf : ScatterDims.WF S12000x3000 S144000x2 S144000 [] [0, 1] [0, 1] 1
  dot_S256x12000_S12000x384_S256x384_1_0_0_1_n_n_wf : DotDims.WF S256x12000 S12000x384 S256x384 [1] [0] [0] [1] [] []
  scatter_S3000x6_S18000x2_S18000_n_01_01_1_wf : ScatterDims.WF S3000x6 S18000x2 S18000 [] [0, 1] [0, 1] 1
  dot_S256x3000_S3000x6_S256x6_1_0_0_1_n_n_wf : DotDims.WF S256x3000 S3000x6 S256x6 [1] [0] [0] [1] [] []
  dot_S256x2048_S2048x100_S256x100_1_0_0_1_n_n_wf : DotDims.WF S256x2048 S2048x100 S256x100 [1] [0] [0] [1] [] []
  dot_S256x100_S100x50_S256x50_1_0_0_1_n_n_wf : DotDims.WF S256x100 S100x50 S256x50 [1] [0] [0] [1] [] []
  dot_S256x50_S50x6_S256x6_1_0_0_1_n_n_wf : DotDims.WF S256x50 S50x6 S256x6 [1] [0] [0] [1] [] []
  dot_S256x12_S12x6_S256x6_1_0_0_1_n_n_wf : DotDims.WF S256x12 S12x6 S256x6 [1] [0] [0] [1] [] []
  dot_S256x6_S6x1_S256x1_1_0_0_1_n_n_wf : DotDims.WF S256x6 S6x1 S256x1 [1] [0] [0] [1] [] []
  dot_S256x1_S1x1_S256x1_1_0_0_1_n_n_wf : DotDims.WF S256x1 S1x1 S256x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x6000.size a ≤ S256x6000.size a
  hwx0_0 : ∀ i : grid0.Coords, EltTy.bits .bf16 = 32 ∨ (Rect.block (s := S256x6000) S256x6000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S6000x1024.size a < S6000x12000.size a
  hwx0_1 : ∀ i : grid0.Coords, EltTy.bits .bf16 = 32 ∨ (Rect.unit (s := S6000x12000) (fun a => cc0_transform_1 i a * S6000x1024.size a) (fun a => (Pipeline.Clip.of (cc0_transform_1 i a) (S6000x1024.size a) (S6000x12000.size a)).extent (S6000x1024.size a)) fun a => Pipeline.Clip.inb (Pipeline.Clip.ok_of (hstart0_1 i a))).WholeWords (EltTy.packing .bf16)
  hwxs0_1 : ∀ i : grid0.Coords, EltTy.bits .bf16 = 32 ∨ (Rect.unit (s := S6000x1024) (fun _ => 0) (fun a => (Pipeline.Clip.of (cc0_transform_1 i a) (S6000x1024.size a) (S6000x12000.size a)).extent (S6000x1024.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x12000.size a
  hwx0_2 : ∀ i : grid0.Coords, EltTy.bits .f32 = 32 ∨ (Rect.unit (s := S1x12000) (fun a => cc0_transform_2 i a * S1x1024.size a) (fun a => (Pipeline.Clip.of (cc0_transform_2 i a) (S1x1024.size a) (S1x12000.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x12000.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x1024.size a < S1x12000.size a
  hwx0_3 : ∀ i : grid0.Coords, EltTy.bits .f32 = 32 ∨ (Rect.unit (s := S1x12000) (fun a => cc0_transform_3 i a * S1x1024.size a) (fun a => (Pipeline.Clip.of (cc0_transform_3 i a) (S1x1024.size a) (S1x12000.size a)).extent (S1x1024.size a)) fun a => Pipeline.Clip.inb (Pipeline.Clip.ok_of (hstart0_3 i a))).WholeWords (EltTy.packing .f32)
  hwxs0_3 : ∀ i : grid0.Coords, EltTy.bits .f32 = 32 ∨ (Rect.unit (s := S1x1024) (fun _ => 0) (fun a => (Pipeline.Clip.of (cc0_transform_3 i a) (S1x1024.size a) (S1x12000.size a)).extent (S1x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x1024.size a < S1x12000.size a
  hwx0_4 : ∀ i : grid0.Coords, EltTy.bits .f32 = 32 ∨ (Rect.unit (s := S1x12000) (fun a => cc0_transform_4 i a * S1x1024.size a) (fun a => (Pipeline.Clip.of (cc0_transform_4 i a) (S1x1024.size a) (S1x12000.size a)).extent (S1x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x1024) (fun _ => 0) (fun a => (Pipeline.Clip.of (cc0_transform_4 i a) (S1x1024.size a) (S1x12000.size a)).extent (S1x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x1024.size a < S256x12000.size a
  hwx0_5 : ∀ i : grid0.Coords, EltTy.bits .f32 = 32 ∨ (Rect.unit (s := S256x12000) (fun a => cc0_transform_5 i a * S256x1024.size a) (fun a => (Pipeline.Clip.of (cc0_transform_5 i a) (S256x1024.size a) (S256x12000.size a)).extent (S256x1024.size a)) fun a => Pipeline.Clip.inb (Pipeline.Clip.ok_of (hstart0_5 i a))).WholeWords (EltTy.packing .f32)
  hwxs0_5 : ∀ i : grid0.Coords, EltTy.bits .f32 = 32 ∨ (Rect.unit (s := S256x1024) (fun _ => 0) (fun a => (Pipeline.Clip.of (cc0_transform_5 i a) (S256x1024.size a) (S256x12000.size a)).extent (S256x1024.size a)) fun a => (Nat.zero_add _).trans_le (Pipeline.Clip.extent_le (Pipeline.Clip.ok_of (hstart0_5 i a)))).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x12000.size a ≤ S256x12000.size a
  hwx1_0 : ∀ i : grid1.Coords, EltTy.bits .bf16 = 32 ∨ (Rect.block (s := S256x12000) S256x12000.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S12000x384.size a < S12000x3000.size a
  hwx1_1 : ∀ i : grid1.Coords, EltTy.bits .bf16 = 32 ∨ (Rect.unit (s := S12000x3000) (fun a => cc1_transform_1 i a * S12000x384.size a) (fun a => (Pipeline.Clip.of (cc1_transform_1 i a) (S12000x384.size a) (S12000x3000.size a)).extent (S12000x384.size a)) fun a => Pipeline.Clip.inb (Pipeline.Clip.ok_of (hstart1_1 i a))).WholeWords (EltTy.packing .bf16)
  hwxs1_1 : ∀ i : grid1.Coords, EltTy.bits .bf16 = 32 ∨ (Rect.unit (s := S12000x384) (fun _ => 0) (fun a => (Pipeline.Clip.of (cc1_transform_1 i a) (S12000x384.size a) (S12000x3000.size a)).extent (S12000x384.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x384.size a < S1x3000.size a
  hwx1_2 : ∀ i : grid1.Coords, EltTy.bits .f32 = 32 ∨ (Rect.unit (s := S1x3000) (fun a => cc1_transform_2 i a * S1x384.size a) (fun a => (Pipeline.Clip.of (cc1_transform_2 i a) (S1x384.size a) (S1x3000.size a)).extent (S1x384.size a)) fun a => Pipeline.Clip.inb (Pipeline.Clip.ok_of (hstart1_2 i a))).WholeWords (EltTy.packing .f32)
  hwxs1_2 : ∀ i : grid1.Coords, EltTy.bits .f32 = 32 ∨ (Rect.unit (s := S1x384) (fun _ => 0) (fun a => (Pipeline.Clip.of (cc1_transform_2 i a) (S1x384.size a) (S1x3000.size a)).extent (S1x384.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1x384.size a < S1x3000.size a
  hwx1_3 : ∀ i : grid1.Coords, EltTy.bits .f32 = 32 ∨ (Rect.unit (s := S1x3000) (fun a => cc1_transform_3 i a * S1x384.size a) (fun a => (Pipeline.Clip.of (cc1_transform_3 i a) (S1x384.size a) (S1x3000.size a)).extent (S1x384.size a)) fun a => Pipeline.Clip.inb (Pipeline.Clip.ok_of (hstart1_3 i a))).WholeWords (EltTy.packing .f32)
  hwxs1_3 : ∀ i : grid1.Coords, EltTy.bits .f32 = 32 ∨ (Rect.unit (s := S1x384) (fun _ => 0) (fun a => (Pipeline.Clip.of (cc1_transform_3 i a) (S1x384.size a) (S1x3000.size a)).extent (S1x384.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1x384.size a < S1x3000.size a
  hwx1_4 : ∀ i : grid1.Coords, EltTy.bits .f32 = 32 ∨ (Rect.unit (s := S1x3000) (fun a => cc1_transform_4 i a * S1x384.size a) (fun a => (Pipeline.Clip.of (cc1_transform_4 i a) (S1x384.size a) (S1x3000.size a)).extent (S1x384.size a)) fun a => Pipeline.Clip.inb (Pipeline.Clip.ok_of (hstart1_4 i a))).WholeWords (EltTy.packing .f32)
  hwxs1_4 : ∀ i : grid1.Coords, EltTy.bits .f32 = 32 ∨ (Rect.unit (s := S1x384) (fun _ => 0) (fun a => (Pipeline.Clip.of (cc1_transform_4 i a) (S1x384.size a) (S1x3000.size a)).extent (S1x384.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S256x384.size a < S256x3000.size a
  hwx1_5 : ∀ i : grid1.Coords, EltTy.bits .f32 = 32 ∨ (Rect.unit (s := S256x3000) (fun a => cc1_transform_5 i a * S256x384.size a) (fun a => (Pipeline.Clip.of (cc1_transform_5 i a) (S256x384.size a) (S256x3000.size a)).extent (S256x384.size a)) fun a => Pipeline.Clip.inb (Pipeline.Clip.ok_of (hstart1_5 i a))).WholeWords (EltTy.packing .f32)
  hwxs1_5 : ∀ i : grid1.Coords, EltTy.bits .f32 = 32 ∨ (Rect.unit (s := S256x384) (fun _ => 0) (fun a => (Pipeline.Clip.of (cc1_transform_5 i a) (S256x384.size a) (S256x3000.size a)).extent (S256x384.size a)) fun a => (Nat.zero_add _).trans_le (Pipeline.Clip.extent_le (Pipeline.Clip.ok_of (hstart1_5 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x3000.size a ≤ S256x3000.size a
  hwx2_0 : ∀ i : grid2.Coords, EltTy.bits .bf16 = 32 ∨ (Rect.block (s := S256x3000) S256x3000.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S3000x6.size a ≤ S3000x6.size a
  hwx2_1 : ∀ i : grid2.Coords, EltTy.bits .bf16 = 32 ∨ (Rect.block (s := S3000x6) S3000x6.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x6.size a ≤ S1x6.size a
  hwx2_2 : ∀ i : grid2.Coords, EltTy.bits .f32 = 32 ∨ (Rect.block (s := S1x6) S1x6.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S1x6.size a ≤ S1x6.size a
  hwx2_3 : ∀ i : grid2.Coords, EltTy.bits .f32 = 32 ∨ (Rect.block (s := S1x6) S1x6.size (cc2_transform_3 i) (hinb2_3 i)).WholeWords (EltTy.packing .f32)
  hstage2_4 : ∀ j, (stage2_4 j).IsWhole
  nbuf2_4 : grid2.bufCount reads2_4 false = 1
  hreads2_4 : ∀ i i' : grid2.Coords, (∀ a, reads2_4 a = true → i a = i' a) → cc2_transform_4 i = cc2_transform_4 i'
  hinb2_4 : ∀ (i : grid2.Coords) a, (cc2_transform_4 i a + 1) * S1x6.size a ≤ S1x6.size a
  hwx2_4 : ∀ i : grid2.Coords, EltTy.bits .f32 = 32 ∨ (Rect.block (s := S1x6) S1x6.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S256x6.size a ≤ S256x6.size a
  hwx2_5 : ∀ i : grid2.Coords, EltTy.bits .f32 = 32 ∨ (Rect.block (s := S256x6) S256x6.size (cc2_transform_5 i) (hinb2_5 i)).WholeWords (EltTy.packing .f32)

variable [Facts₀]

def scatter_S6000x12000_S180000x2_S180000_n_01_01_1 : ScatterDims S6000x12000 S180000x2 S180000 where
  updateWindowDims := []
  insertedWindowDims := [0, 1]
  scatterDimsToOperandDims := [0, 1]
  indexVectorDim := 1
  wf := scatter_S6000x12000_S180000x2_S180000_n_01_01_1_wf
def dot_S256x6000_S6000x1024_S256x1024_1_0_0_1_n_n : DotDims S256x6000 S6000x1024 S256x1024 where
  lhsContracting := [1]
  rhsContracting := [0]
  lhsNonContracting := [0]
  rhsNonContracting := [1]
  lhsBatch := []
  rhsBatch := []
  wf := dot_S256x6000_S6000x1024_S256x1024_1_0_0_1_n_n_wf
def scatter_S12000x3000_S144000x2_S144000_n_01_01_1 : ScatterDims S12000x3000 S144000x2 S144000 where
  updateWindowDims := []
  insertedWindowDims := [0, 1]
  scatterDimsToOperandDims := [0, 1]
  indexVectorDim := 1
  wf := scatter_S12000x3000_S144000x2_S144000_n_01_01_1_wf
def dot_S256x12000_S12000x384_S256x384_1_0_0_1_n_n : DotDims S256x12000 S12000x384 S256x384 where
  lhsContracting := [1]
  rhsContracting := [0]
  lhsNonContracting := [0]
  rhsNonContracting := [1]
  lhsBatch := []
  rhsBatch := []
  wf := dot_S256x12000_S12000x384_S256x384_1_0_0_1_n_n_wf
def scatter_S3000x6_S18000x2_S18000_n_01_01_1 : ScatterDims S3000x6 S18000x2 S18000 where
  updateWindowDims := []
  insertedWindowDims := [0, 1]
  scatterDimsToOperandDims := [0, 1]
  indexVectorDim := 1
  wf := scatter_S3000x6_S18000x2_S18000_n_01_01_1_wf
def dot_S256x3000_S3000x6_S256x6_1_0_0_1_n_n : DotDims S256x3000 S3000x6 S256x6 where
  lhsContracting := [1]
  rhsContracting := [0]
  lhsNonContracting := [0]
  rhsNonContracting := [1]
  lhsBatch := []
  rhsBatch := []
  wf := dot_S256x3000_S3000x6_S256x6_1_0_0_1_n_n_wf
def dot_S256x2048_S2048x100_S256x100_1_0_0_1_n_n : DotDims S256x2048 S2048x100 S256x100 where
  lhsContracting := [1]
  rhsContracting := [0]
  lhsNonContracting := [0]
  rhsNonContracting := [1]
  lhsBatch := []
  rhsBatch := []
  wf := dot_S256x2048_S2048x100_S256x100_1_0_0_1_n_n_wf
def dot_S256x100_S100x50_S256x50_1_0_0_1_n_n : DotDims S256x100 S100x50 S256x50 where
  lhsContracting := [1]
  rhsContracting := [0]
  lhsNonContracting := [0]
  rhsNonContracting := [1]
  lhsBatch := []
  rhsBatch := []
  wf := dot_S256x100_S100x50_S256x50_1_0_0_1_n_n_wf
def dot_S256x50_S50x6_S256x6_1_0_0_1_n_n : DotDims S256x50 S50x6 S256x6 where
  lhsContracting := [1]
  rhsContracting := [0]
  lhsNonContracting := [0]
  rhsNonContracting := [1]
  lhsBatch := []
  rhsBatch := []
  wf := dot_S256x50_S50x6_S256x6_1_0_0_1_n_n_wf
def dot_S256x12_S12x6_S256x6_1_0_0_1_n_n : DotDims S256x12 S12x6 S256x6 where
  lhsContracting := [1]
  rhsContracting := [0]
  lhsNonContracting := [0]
  rhsNonContracting := [1]
  lhsBatch := []
  rhsBatch := []
  wf := dot_S256x12_S12x6_S256x6_1_0_0_1_n_n_wf
def dot_S256x6_S6x1_S256x1_1_0_0_1_n_n : DotDims S256x6 S6x1 S256x1 where
  lhsContracting := [1]
  rhsContracting := [0]
  lhsNonContracting := [0]
  rhsNonContracting := [1]
  lhsBatch := []
  rhsBatch := []
  wf := dot_S256x6_S6x1_S256x1_1_0_0_1_n_n_wf
def dot_S256x1_S1x1_S256x1_1_0_0_1_n_n : DotDims S256x1 S1x1 S256x1 where
  lhsContracting := [1]
  rhsContracting := [0]
  lhsNonContracting := [0]
  rhsNonContracting := [1]
  lhsBatch := []
  rhsBatch := []
  wf := dot_S256x1_S1x1_S256x1_1_0_0_1_n_n_wf

abbrev win0_0 : Pipeline.Window sig grid0 :=
  Pipeline.Window.ofSpec (Memref.whole main_v20) S256x6000.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v21) S6000x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v17) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v18) S1x1024.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v19) S1x1024.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v22) S256x1024.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S256x12000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v42) S12000x384.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v38) S1x384.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v39) S1x384.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v40) S1x384.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v43) S256x384.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S256x3000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v63) S3000x6.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x6.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x6.size cc2_transform_3 reads2_3 false false 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x6.size cc2_transform_4 reads2_4 false false 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S256x6.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S256x8048 : Shape := ⟨2, ![256, 8048]⟩
abbrev S180000 : Shape := ⟨1, ![180000]⟩
abbrev S12000 : Shape := ⟨1, ![12000]⟩
abbrev S144000 : Shape := ⟨1, ![144000]⟩
abbrev S3000 : Shape := ⟨1, ![3000]⟩
abbrev S18000 : Shape := ⟨1, ![18000]⟩
abbrev S6 : Shape := ⟨1, ![6]⟩
abbrev S100x2048 : Shape := ⟨2, ![100, 2048]⟩
abbrev S100 : Shape := ⟨1, ![100]⟩
abbrev S50x100 : Shape := ⟨2, ![50, 100]⟩
abbrev S50 : Shape := ⟨1, ![50]⟩
abbrev S6x50 : Shape := ⟨2, ![6, 50]⟩
abbrev S6x12 : Shape := ⟨2, ![6, 12]⟩
abbrev S1x6 : Shape := ⟨2, ![1, 6]⟩
abbrev S1 : Shape := ⟨1, ![1]⟩
abbrev S1x1 : Shape := ⟨2, ![1, 1]⟩
abbrev S256x6000 : Shape := ⟨2, ![256, 6000]⟩
abbrev S256x2048 : Shape := ⟨2, ![256, 2048]⟩
abbrev S_ : Shape := ⟨0, ![]⟩
abbrev S180000x1 : Shape := ⟨2, ![180000, 1]⟩
abbrev S256x180000 : Shape := ⟨2, ![256, 180000]⟩
abbrev S1x180000 : Shape := ⟨2, ![1, 180000]⟩
abbrev S180000x256 : Shape := ⟨2, ![180000, 256]⟩
abbrev S12000x256 : Shape := ⟨2, ![12000, 256]⟩
abbrev S256x12000 : Shape := ⟨2, ![256, 12000]⟩
abbrev S1x12000 : Shape := ⟨2, ![1, 12000]⟩
abbrev S144000x1 : Shape := ⟨2, ![144000, 1]⟩
abbrev S256x144000 : Shape := ⟨2, ![256, 144000]⟩
abbrev S1x144000 : Shape := ⟨2, ![1, 144000]⟩
abbrev S144000x256 : Shape := ⟨2, ![144000, 256]⟩
abbrev S3000x256 : Shape := ⟨2, ![3000, 256]⟩
abbrev S256x3000 : Shape := ⟨2, ![256, 3000]⟩
abbrev S1x3000 : Shape := ⟨2, ![1, 3000]⟩
abbrev S18000x1 : Shape := ⟨2, ![18000, 1]⟩
abbrev S256x18000 : Shape := ⟨2, ![256, 18000]⟩
abbrev S1x18000 : Shape := ⟨2, ![1, 18000]⟩
abbrev S18000x256 : Shape := ⟨2, ![18000, 256]⟩
abbrev S6x256 : Shape := ⟨2, ![6, 256]⟩
abbrev S256x6 : Shape := ⟨2, ![256, 6]⟩
abbrev S2048x100 : Shape := ⟨2, ![2048, 100]⟩
abbrev S256x100 : Shape := ⟨2, ![256, 100]⟩
abbrev S1x100 : Shape := ⟨2, ![1, 100]⟩
abbrev S100x50 : Shape := ⟨2, ![100, 50]⟩
abbrev S256x50 : Shape := ⟨2, ![256, 50]⟩
abbrev S1x50 : Shape := ⟨2, ![1, 50]⟩
abbrev S50x6 : Shape := ⟨2, ![50, 6]⟩
abbrev S256x12 : Shape := ⟨2, ![256, 12]⟩
abbrev S12x6 : Shape := ⟨2, ![12, 6]⟩
abbrev S6x1 : Shape := ⟨2, ![6, 1]⟩
abbrev S256x1 : Shape := ⟨2, ![256, 1]⟩

abbrev nBuf : Space → Nat
  | .hbm => 353
  | .vmem => 0
  | .smem => 0
  | _ => 0

abbrev hbmTy0_0 (i : Nat) : BufTy := match i % 128 with
  | 0 => ⟨S256x8048, .f32⟩
  | 1 => ⟨S180000, .i32⟩
  | 2 => ⟨S180000, .i32⟩
  | 3 => ⟨S180000, .f32⟩
  | 4 => ⟨S12000, .f32⟩
  | 5 => ⟨S12000, .f32⟩
  | 6 => ⟨S12000, .f32⟩
  | 7 => ⟨S144000, .i32⟩
  | 8 => ⟨S144000, .i32⟩
  | 9 => ⟨S144000, .f32⟩
  | 10 => ⟨S3000, .f32⟩
  | 11 => ⟨S3000, .f32⟩
  | 12 => ⟨S3000, .f32⟩
  | 13 => ⟨S18000, .i32⟩
  | 14 => ⟨S18000, .i32⟩
  | 15 => ⟨S18000, .f32⟩
  | 16 => ⟨S6, .f32⟩
  | 17 => ⟨S6, .f32⟩
  | 18 => ⟨S6, .f32⟩
  | 19 => ⟨S100x2048, .f32⟩
  | 20 => ⟨S100, .f32⟩
  | 21 => ⟨S100, .f32⟩
  | 22 => ⟨S100, .f32⟩
  | 23 => ⟨S50x100, .f32⟩
  | 24 => ⟨S50, .f32⟩
  | 25 => ⟨S50, .f32⟩
  | 26 => ⟨S50, .f32⟩
  | 27 => ⟨S6x50, .f32⟩
  | 28 => ⟨S6, .f32⟩
  | 29 => ⟨S6, .f32⟩
  | 30 => ⟨S6, .f32⟩
  | 31 => ⟨S6x12, .f32⟩
  | 32 => ⟨S6, .f32⟩
  | 33 => ⟨S6, .f32⟩
  | 34 => ⟨S6, .f32⟩
  | 35 => ⟨S1x6, .f32⟩
  | 36 => ⟨S1, .f32⟩
  | 37 => ⟨S1x1, .f32⟩
  | 38 => ⟨S1, .f32⟩
  | 39 => ⟨S256x6000, .f32⟩
  | 40 => ⟨S256x2048, .f32⟩
  | 41 => ⟨S_, .i32⟩
  | 42 => ⟨S180000, .i32⟩
  | 43 => ⟨S180000, .i1⟩
  | 44 => ⟨S_, .i32⟩
  | 45 => ⟨S180000, .i32⟩
  | 46 => ⟨S180000, .i32⟩
  | 47 => ⟨S180000, .i32⟩
  | 48 => ⟨S180000x1, .i32⟩
  | 49 => ⟨S256x180000, .f32⟩
  | 50 => ⟨S1x180000, .f32⟩
  | 51 => ⟨S256x180000, .f32⟩
  | 52 => ⟨S256x180000, .f32⟩
  | 53 => ⟨S180000x256, .f32⟩
  | 54 => ⟨S_, .f32⟩
  | 55 => ⟨S12000x256, .f32⟩
  | 56 => ⟨S180000x1, .i32⟩
  | 57 => ⟨S12000x256, .f32⟩
  | 58 => ⟨S256x12000, .f32⟩
  | 59 => ⟨S1x12000, .f32⟩
  | 60 => ⟨S256x12000, .f32⟩
  | 61 => ⟨S256x12000, .f32⟩
  | 62 => ⟨S256x12000, .f32⟩
  | 63 => ⟨S_, .f32⟩
  | 64 => ⟨S12000, .f32⟩
  | 65 => ⟨S_, .f32⟩
  | 66 => ⟨S12000, .f32⟩
  | 67 => ⟨S12000, .f32⟩
  | 68 => ⟨S1x12000, .f32⟩
  | 69 => ⟨S256x12000, .f32⟩
  | 70 => ⟨S256x12000, .f32⟩
  | 71 => ⟨S256x12000, .f32⟩
  | 72 => ⟨S_, .f32⟩
  | 73 => ⟨S12000, .f32⟩
  | 74 => ⟨S_, .f32⟩
  | 75 => ⟨S12000, .f32⟩
  | 76 => ⟨S12000, .f32⟩
  | 77 => ⟨S1x12000, .f32⟩
  | 78 => ⟨S256x12000, .f32⟩
  | 79 => ⟨S256x12000, .f32⟩
  | 80 => ⟨S1x12000, .f32⟩
  | 81 => ⟨S256x12000, .f32⟩
  | 82 => ⟨S256x12000, .f32⟩
  | 83 => ⟨S_, .f32⟩
  | 84 => ⟨S12000, .f32⟩
  | 85 => ⟨S12000, .f32⟩
  | 86 => ⟨S12000, .f32⟩
  | 87 => ⟨S1x12000, .f32⟩
  | 88 => ⟨S256x12000, .f32⟩
  | 89 => ⟨S256x12000, .f32⟩
  | 90 => ⟨S1x12000, .f32⟩
  | 91 => ⟨S256x12000, .f32⟩
  | 92 => ⟨S256x12000, .f32⟩
  | 93 => ⟨S_, .i32⟩
  | 94 => ⟨S144000, .i32⟩
  | 95 => ⟨S144000, .i1⟩
  | 96 => ⟨S_, .i32⟩
  | 97 => ⟨S144000, .i32⟩
  | 98 => ⟨S144000, .i32⟩
  | 99 => ⟨S144000, .i32⟩
  | 100 => ⟨S144000x1, .i32⟩
  | 101 => ⟨S256x144000, .f32⟩
  | 102 => ⟨S1x144000, .f32⟩
  | 103 => ⟨S256x144000, .f32⟩
  | 104 => ⟨S256x144000, .f32⟩
  | 105 => ⟨S144000x256, .f32⟩
  | 106 => ⟨S_, .f32⟩
  | 107 => ⟨S3000x256, .f32⟩
  | 108 => ⟨S144000x1, .i32⟩
  | 109 => ⟨S3000x256, .f32⟩
  | 110 => ⟨S256x3000, .f32⟩
  | 111 => ⟨S1x3000, .f32⟩
  | 112 => ⟨S256x3000, .f32⟩
  | 113 => ⟨S256x3000, .f32⟩
  | 114 => ⟨S256x3000, .f32⟩
  | 115 => ⟨S_, .f32⟩
  | 116 => ⟨S3000, .f32⟩
  | 117 => ⟨S_, .f32⟩
  | 118 => ⟨S3000, .f32⟩
  | 119 => ⟨S3000, .f32⟩
  | 120 => ⟨S1x3000, .f32⟩
  | 121 => ⟨S256x3000, .f32⟩
  | 122 => ⟨S256x3000, .f32⟩
  | 123 => ⟨S256x3000, .f32⟩
  | 124 => ⟨S_, .f32⟩
  | 125 => ⟨S3000, .f32⟩
  | 126 => ⟨S_, .f32⟩
  | 127 => ⟨S3000, .f32⟩
  | _ => ⟨S256x8048, .f32⟩

abbrev hbmTy0_1 (i : Nat) : BufTy := match i % 128 with
  | 0 => ⟨S3000, .f32⟩
  | 1 => ⟨S1x3000, .f32⟩
  | 2 => ⟨S256x3000, .f32⟩
  | 3 => ⟨S256x3000, .f32⟩
  | 4 => ⟨S1x3000, .f32⟩
  | 5 => ⟨S256x3000, .f32⟩
  | 6 => ⟨S256x3000, .f32⟩
  | 7 => ⟨S_, .f32⟩
  | 8 => ⟨S3000, .f32⟩
  | 9 => ⟨S3000, .f32⟩
  | 10 => ⟨S3000, .f32⟩
  | 11 => ⟨S1x3000, .f32⟩
  | 12 => ⟨S256x3000, .f32⟩
  | 13 => ⟨S256x3000, .f32⟩
  | 14 => ⟨S1x3000, .f32⟩
  | 15 => ⟨S256x3000, .f32⟩
  | 16 => ⟨S256x3000, .f32⟩
  | 17 => ⟨S_, .i32⟩
  | 18 => ⟨S18000, .i32⟩
  | 19 => ⟨S18000, .i1⟩
  | 20 => ⟨S_, .i32⟩
  | 21 => ⟨S18000, .i32⟩
  | 22 => ⟨S18000, .i32⟩
  | 23 => ⟨S18000, .i32⟩
  | 24 => ⟨S18000x1, .i32⟩
  | 25 => ⟨S256x18000, .f32⟩
  | 26 => ⟨S1x18000, .f32⟩
  | 27 => ⟨S256x18000, .f32⟩
  | 28 => ⟨S256x18000, .f32⟩
  | 29 => ⟨S18000x256, .f32⟩
  | 30 => ⟨S_, .f32⟩
  | 31 => ⟨S6x256, .f32⟩
  | 32 => ⟨S18000x1, .i32⟩
  | 33 => ⟨S6x256, .f32⟩
  | 34 => ⟨S256x6, .f32⟩
  | 35 => ⟨S1x6, .f32⟩
  | 36 => ⟨S256x6, .f32⟩
  | 37 => ⟨S256x6, .f32⟩
  | 38 => ⟨S256x6, .f32⟩
  | 39 => ⟨S_, .f32⟩
  | 40 => ⟨S6, .f32⟩
  | 41 => ⟨S_, .f32⟩
  | 42 => ⟨S6, .f32⟩
  | 43 => ⟨S6, .f32⟩
  | 44 => ⟨S1x6, .f32⟩
  | 45 => ⟨S256x6, .f32⟩
  | 46 => ⟨S256x6, .f32⟩
  | 47 => ⟨S256x6, .f32⟩
  | 48 => ⟨S_, .f32⟩
  | 49 => ⟨S6, .f32⟩
  | 50 => ⟨S_, .f32⟩
  | 51 => ⟨S6, .f32⟩
  | 52 => ⟨S6, .f32⟩
  | 53 => ⟨S1x6, .f32⟩
  | 54 => ⟨S256x6, .f32⟩
  | 55 => ⟨S256x6, .f32⟩
  | 56 => ⟨S1x6, .f32⟩
  | 57 => ⟨S256x6, .f32⟩
  | 58 => ⟨S256x6, .f32⟩
  | 59 => ⟨S_, .f32⟩
  | 60 => ⟨S6, .f32⟩
  | 61 => ⟨S6, .f32⟩
  | 62 => ⟨S6, .f32⟩
  | 63 => ⟨S1x6, .f32⟩
  | 64 => ⟨S256x6, .f32⟩
  | 65 => ⟨S256x6, .f32⟩
  | 66 => ⟨S1x6, .f32⟩
  | 67 => ⟨S256x6, .f32⟩
  | 68 => ⟨S256x6, .f32⟩
  | 69 => ⟨S2048x100, .f32⟩
  | 70 => ⟨S256x100, .f32⟩
  | 71 => ⟨S1x100, .f32⟩
  | 72 => ⟨S256x100, .f32⟩
  | 73 => ⟨S256x100, .f32⟩
  | 74 => ⟨S256x100, .f32⟩
  | 75 => ⟨S_, .f32⟩
  | 76 => ⟨S100, .f32⟩
  | 77 => ⟨S_, .f32⟩
  | 78 => ⟨S100, .f32⟩
  | 79 => ⟨S100, .f32⟩
  | 80 => ⟨S1x100, .f32⟩
  | 81 => ⟨S256x100, .f32⟩
  | 82 => ⟨S256x100, .f32⟩
  | 83 => ⟨S256x100, .f32⟩
  | 84 => ⟨S_, .f32⟩
  | 85 => ⟨S100, .f32⟩
  | 86 => ⟨S_, .f32⟩
  | 87 => ⟨S100, .f32⟩
  | 88 => ⟨S100, .f32⟩
  | 89 => ⟨S1x100, .f32⟩
  | 90 => ⟨S256x100, .f32⟩
  | 91 => ⟨S256x100, .f32⟩
  | 92 => ⟨S1x100, .f32⟩
  | 93 => ⟨S256x100, .f32⟩
  | 94 => ⟨S256x100, .f32⟩
  | 95 => ⟨S_, .f32⟩
  | 96 => ⟨S100, .f32⟩
  | 97 => ⟨S100, .f32⟩
  | 98 => ⟨S100, .f32⟩
  | 99 => ⟨S1x100, .f32⟩
  | 100 => ⟨S256x100, .f32⟩
  | 101 => ⟨S256x100, .f32⟩
  | 102 => ⟨S1x100, .f32⟩
  | 103 => ⟨S256x100, .f32⟩
  | 104 => ⟨S256x100, .f32⟩
  | 105 => ⟨S100x50, .f32⟩
  | 106 => ⟨S256x50, .f32⟩
  | 107 => ⟨S1x50, .f32⟩
  | 108 => ⟨S256x50, .f32⟩
  | 109 => ⟨S256x50, .f32⟩
  | 110 => ⟨S256x50, .f32⟩
  | 111 => ⟨S_, .f32⟩
  | 112 => ⟨S50, .f32⟩
  | 113 => ⟨S_, .f32⟩
  | 114 => ⟨S50, .f32⟩
  | 115 => ⟨S50, .f32⟩
  | 116 => ⟨S1x50, .f32⟩
  | 117 => ⟨S256x50, .f32⟩
  | 118 => ⟨S256x50, .f32⟩
  | 119 => ⟨S256x50, .f32⟩
  | 120 => ⟨S_, .f32⟩
  | 121 => ⟨S50, .f32⟩
  | 122 => ⟨S_, .f32⟩
  | 123 => ⟨S50, .f32⟩
  | 124 => ⟨S50, .f32⟩
  | 125 => ⟨S1x50, .f32⟩
  | 126 => ⟨S256x50, .f32⟩
  | 127 => ⟨S256x50, .f32⟩
  | _ => ⟨S256x8048, .f32⟩

abbrev hbmTy0_2 (i : Nat) : BufTy := match i % 128 with
  | 0 => ⟨S1x50, .f32⟩
  | 1 => ⟨S256x50, .f32⟩
  | 2 => ⟨S256x50, .f32⟩
  | 3 => ⟨S_, .f32⟩
  | 4 => ⟨S50, .f32⟩
  | 5 => ⟨S50, .f32⟩
  | 6 => ⟨S50, .f32⟩
  | 7 => ⟨S1x50, .f32⟩
  | 8 => ⟨S256x50, .f32⟩
  | 9 => ⟨S256x50, .f32⟩
  | 10 => ⟨S1x50, .f32⟩
  | 11 => ⟨S256x50, .f32⟩
  | 12 => ⟨S256x50, .f32⟩
  | 13 => ⟨S50x6, .f32⟩
  | 14 => ⟨S256x6, .f32⟩
  | 15 => ⟨S1x6, .f32⟩
  | 16 => ⟨S256x6, .f32⟩
  | 17 => ⟨S256x6, .f32⟩
  | 18 => ⟨S256x6, .f32⟩
  | 19 => ⟨S_, .f32⟩
  | 20 => ⟨S6, .f32⟩
  | 21 => ⟨S_, .f32⟩
  | 22 => ⟨S6, .f32⟩
  | 23 => ⟨S6, .f32⟩
  | 24 => ⟨S1x6, .f32⟩
  | 25 => ⟨S256x6, .f32⟩
  | 26 => ⟨S256x6, .f32⟩
  | 27 => ⟨S256x6, .f32⟩
  | 28 => ⟨S_, .f32⟩
  | 29 => ⟨S6, .f32⟩
  | 30 => ⟨S_, .f32⟩
  | 31 => ⟨S6, .f32⟩
  | 32 => ⟨S6, .f32⟩
  | 33 => ⟨S1x6, .f32⟩
  | 34 => ⟨S256x6, .f32⟩
  | 35 => ⟨S256x6, .f32⟩
  | 36 => ⟨S1x6, .f32⟩
  | 37 => ⟨S256x6, .f32⟩
  | 38 => ⟨S256x6, .f32⟩
  | 39 => ⟨S_, .f32⟩
  | 40 => ⟨S6, .f32⟩
  | 41 => ⟨S6, .f32⟩
  | 42 => ⟨S6, .f32⟩
  | 43 => ⟨S1x6, .f32⟩
  | 44 => ⟨S256x6, .f32⟩
  | 45 => ⟨S256x6, .f32⟩
  | 46 => ⟨S1x6, .f32⟩
  | 47 => ⟨S256x6, .f32⟩
  | 48 => ⟨S256x6, .f32⟩
  | 49 => ⟨S256x12, .f32⟩
  | 50 => ⟨S12x6, .f32⟩
  | 51 => ⟨S256x6, .f32⟩
  | 52 => ⟨S1x6, .f32⟩
  | 53 => ⟨S256x6, .f32⟩
  | 54 => ⟨S256x6, .f32⟩
  | 55 => ⟨S256x6, .f32⟩
  | 56 => ⟨S_, .f32⟩
  | 57 => ⟨S6, .f32⟩
  | 58 => ⟨S_, .f32⟩
  | 59 => ⟨S6, .f32⟩
  | 60 => ⟨S6, .f32⟩
  | 61 => ⟨S1x6, .f32⟩
  | 62 => ⟨S256x6, .f32⟩
  | 63 => ⟨S256x6, .f32⟩
  | 64 => ⟨S256x6, .f32⟩
  | 65 => ⟨S_, .f32⟩
  | 66 => ⟨S6, .f32⟩
  | 67 => ⟨S_, .f32⟩
  | 68 => ⟨S6, .f32⟩
  | 69 => ⟨S6, .f32⟩
  | 70 => ⟨S1x6, .f32⟩
  | 71 => ⟨S256x6, .f32⟩
  | 72 => ⟨S256x6, .f32⟩
  | 73 => ⟨S1x6, .f32⟩
  | 74 => ⟨S256x6, .f32⟩
  | 75 => ⟨S256x6, .f32⟩
  | 76 => ⟨S_, .f32⟩
  | 77 => ⟨S6, .f32⟩
  | 78 => ⟨S6, .f32⟩
  | 79 => ⟨S6, .f32⟩
  | 80 => ⟨S1x6, .f32⟩
  | 81 => ⟨S256x6, .f32⟩
  | 82 => ⟨S256x6, .f32⟩
  | 83 => ⟨S1x6, .f32⟩
  | 84 => ⟨S256x6, .f32⟩
  | 85 => ⟨S256x6, .f32⟩
  | 86 => ⟨S6x1, .f32⟩
  | 87 => ⟨S256x1, .f32⟩
  | 88 => ⟨S1x1, .f32⟩
  | 89 => ⟨S256x1, .f32⟩
  | 90 => ⟨S256x1, .f32⟩
  | 91 => ⟨S256x1, .f32⟩
  | 92 => ⟨S1x1, .f32⟩
  | 93 => ⟨S256x1, .f32⟩
  | 94 => ⟨S1x1, .f32⟩
  | 95 => ⟨S256x1, .f32⟩
  | 96 => ⟨S256x1, .f32⟩
  | _ => ⟨S256x8048, .f32⟩

abbrev hbmTy (i : Nat) : BufTy := match i / 128 with
  | 0 => hbmTy0_0 i
  | 1 => hbmTy0_1 i
  | 2 => hbmTy0_2 i
  | _ => ⟨S256x8048, .f32⟩

abbrev bufTy : (tb : Table) → Fin (tcTables nBuf tb) → BufTy
  | .hbm, ⟨i, _⟩ => hbmTy i
  | _, _ => ⟨S256x8048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_c : Ref sig .tc := ⟨.hbm, 41, rfl⟩
abbrev main_v2 : Ref sig .tc := ⟨.hbm, 42, rfl⟩
abbrev main_v3 : Ref sig .tc := ⟨.hbm, 43, rfl⟩
abbrev main_c_0 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_cst : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_cst_1 : Ref sig .tc := ⟨.hbm, 63, rfl⟩
abbrev main_v21 : Ref sig .tc := ⟨.hbm, 64, rfl⟩
abbrev main_cst_2 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_cst_3 : Ref sig .tc := ⟨.hbm, 72, rfl⟩
abbrev main_v28 : Ref sig .tc := ⟨.hbm, 73, rfl⟩
abbrev main_cst_4 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_5 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_c_6 : Ref sig .tc := ⟨.hbm, 93, rfl⟩
abbrev main_v46 : Ref sig .tc := ⟨.hbm, 94, rfl⟩
abbrev main_v47 : Ref sig .tc := ⟨.hbm, 95, rfl⟩
abbrev main_c_7 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_8 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_cst_9 : Ref sig .tc := ⟨.hbm, 115, rfl⟩
abbrev main_v65 : Ref sig .tc := ⟨.hbm, 116, rfl⟩
abbrev main_cst_10 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_11 : Ref sig .tc := ⟨.hbm, 124, rfl⟩
abbrev main_v72 : Ref sig .tc := ⟨.hbm, 125, rfl⟩
abbrev main_cst_12 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_cst_13 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_14 : Ref sig .tc := ⟨.hbm, 145, rfl⟩
abbrev main_v90 : Ref sig .tc := ⟨.hbm, 146, rfl⟩
abbrev main_v91 : Ref sig .tc := ⟨.hbm, 147, rfl⟩
abbrev main_c_15 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_16 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_17 : Ref sig .tc := ⟨.hbm, 167, rfl⟩
abbrev main_v109 : Ref sig .tc := ⟨.hbm, 168, rfl⟩
abbrev main_cst_18 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_19 : Ref sig .tc := ⟨.hbm, 176, rfl⟩
abbrev main_v116 : Ref sig .tc := ⟨.hbm, 177, rfl⟩
abbrev main_cst_20 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_cst_21 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_cst_22 : Ref sig .tc := ⟨.hbm, 203, rfl⟩
abbrev main_v140 : Ref sig .tc := ⟨.hbm, 204, rfl⟩
abbrev main_cst_23 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_24 : Ref sig .tc := ⟨.hbm, 212, rfl⟩
abbrev main_v147 : Ref sig .tc := ⟨.hbm, 213, rfl⟩
abbrev main_cst_25 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_cst_26 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_cst_27 : Ref sig .tc := ⟨.hbm, 239, rfl⟩
abbrev main_v171 : Ref sig .tc := ⟨.hbm, 240, rfl⟩
abbrev main_cst_28 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_cst_29 : Ref sig .tc := ⟨.hbm, 248, rfl⟩
abbrev main_v178 : Ref sig .tc := ⟨.hbm, 249, rfl⟩
abbrev main_cst_30 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_cst_31 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_cst_32 : Ref sig .tc := ⟨.hbm, 275, rfl⟩
abbrev main_v202 : Ref sig .tc := ⟨.hbm, 276, rfl⟩
abbrev main_cst_33 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_cst_34 : Ref sig .tc := ⟨.hbm, 284, rfl⟩
abbrev main_v209 : Ref sig .tc := ⟨.hbm, 285, rfl⟩
abbrev main_cst_35 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_cst_36 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_cst_37 : Ref sig .tc := ⟨.hbm, 312, rfl⟩
abbrev main_v234 : Ref sig .tc := ⟨.hbm, 313, rfl⟩
abbrev main_cst_38 : Ref sig .tc := ⟨.hbm, 314, rfl⟩
abbrev main_v235 : Ref sig .tc := ⟨.hbm, 315, rfl⟩
abbrev main_v236 : Ref sig .tc := ⟨.hbm, 316, rfl⟩
abbrev main_v237 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_cst_39 : Ref sig .tc := ⟨.hbm, 321, rfl⟩
abbrev main_v241 : Ref sig .tc := ⟨.hbm, 322, rfl⟩
abbrev main_cst_40 : Ref sig .tc := ⟨.hbm, 323, rfl⟩
abbrev main_v242 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_cst_41 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_v263 : Ref sig .tc := ⟨.hbm, 346, rfl⟩
abbrev main_v264 : Ref sig .tc := ⟨.hbm, 347, rfl⟩
abbrev main_v265 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩

abbrev nD : Nat := 1
abbrev τ : Topo := Topo.v7x

variable {F : FTy → Type} [FloatOps F]

class Facts₀ : Prop where
  slices_S256x8048_S256x6000_0_0 : S256x8048.Slices ![0, 0] S256x6000
  slices_S256x8048_S256x2048_0_6000 : S256x8048.Slices ![0, 6000] S256x2048
  bcast_S_S180000 : S_.BroadcastsInDim S180000 (![] : Fin 0 → Fin S180000.rank)
  bcast_S180000_S180000x1_0 : S180000.BroadcastsInDim S180000x1 (![0] : Fin 1 → Fin S180000x1.rank)
  bcast_S180000_S1x180000_1 : S180000.BroadcastsInDim S1x180000 (![1] : Fin 1 → Fin S1x180000.rank)
  bcast_S1x180000_S256x180000_0_1 : S1x180000.BroadcastsInDim S256x180000 (![0, 1] : Fin 2 → Fin S256x180000.rank)
  transposes_S256x180000_S180000x256_1_0 : S256x180000.Transposes [1, 0] S180000x256
  bcast_S_S12000x256 : S_.BroadcastsInDim S12000x256 (![] : Fin 0 → Fin S12000x256.rank)
  transposes_S12000x256_S256x12000_1_0 : S12000x256.Transposes [1, 0] S256x12000
  bcast_S12000_S1x12000_1 : S12000.BroadcastsInDim S1x12000 (![1] : Fin 1 → Fin S1x12000.rank)
  bcast_S1x12000_S256x12000_0_1 : S1x12000.BroadcastsInDim S256x12000 (![0, 1] : Fin 2 → Fin S256x12000.rank)
  reducesTo_S256x12000_S12000_d0 : S256x12000.ReducesTo [0] S12000
  h_S_ : 0 < S_.numel
  bcast_S_S12000 : S_.BroadcastsInDim S12000 (![] : Fin 0 → Fin S12000.rank)
  bcast_S_S144000 : S_.BroadcastsInDim S144000 (![] : Fin 0 → Fin S144000.rank)
  bcast_S144000_S144000x1_0 : S144000.BroadcastsInDim S144000x1 (![0] : Fin 1 → Fin S144000x1.rank)
  bcast_S144000_S1x144000_1 : S144000.BroadcastsInDim S1x144000 (![1] : Fin 1 → Fin S1x144000.rank)
  bcast_S1x144000_S256x144000_0_1 : S1x144000.BroadcastsInDim S256x144000 (![0, 1] : Fin 2 → Fin S256x144000.rank)
  transposes_S256x144000_S144000x256_1_0 : S256x144000.Transposes [1, 0] S144000x256
  bcast_S_S3000x256 : S_.BroadcastsInDim S3000x256 (![] : Fin 0 → Fin S3000x256.rank)
  transposes_S3000x256_S256x3000_1_0 : S3000x256.Transposes [1, 0] S256x3000
  bcast_S3000_S1x3000_1 : S3000.BroadcastsInDim S1x3000 (![1] : Fin 1 → Fin S1x3000.rank)
  bcast_S1x3000_S256x3000_0_1 : S1x3000.BroadcastsInDim S256x3000 (![0, 1] : Fin 2 → Fin S256x3000.rank)
  reducesTo_S256x3000_S3000_d0 : S256x3000.ReducesTo [0] S3000
  bcast_S_S3000 : S_.BroadcastsInDim S3000 (![] : Fin 0 → Fin S3000.rank)
  bcast_S_S18000 : S_.BroadcastsInDim S18000 (![] : Fin 0 → Fin S18000.rank)
  bcast_S18000_S18000x1_0 : S18000.BroadcastsInDim S18000x1 (![0] : Fin 1 → Fin S18000x1.rank)
  bcast_S18000_S1x18000_1 : S18000.BroadcastsInDim S1x18000 (![1] : Fin 1 → Fin S1x18000.rank)
  bcast_S1x18000_S256x18000_0_1 : S1x18000.BroadcastsInDim S256x18000 (![0, 1] : Fin 2 → Fin S256x18000.rank)
  transposes_S256x18000_S18000x256_1_0 : S256x18000.Transposes [1, 0] S18000x256
  bcast_S_S6x256 : S_.BroadcastsInDim S6x256 (![] : Fin 0 → Fin S6x256.rank)
  transposes_S6x256_S256x6_1_0 : S6x256.Transposes [1, 0] S256x6
  bcast_S6_S1x6_1 : S6.BroadcastsInDim S1x6 (![1] : Fin 1 → Fin S1x6.rank)
  bcast_S1x6_S256x6_0_1 : S1x6.BroadcastsInDim S256x6 (![0, 1] : Fin 2 → Fin S256x6.rank)
  reducesTo_S256x6_S6_d0 : S256x6.ReducesTo [0] S6
  bcast_S_S6 : S_.BroadcastsInDim S6 (![] : Fin 0 → Fin S6.rank)
  transposes_S100x2048_S2048x100_1_0 : S100x2048.Transposes [1, 0] S2048x100
  bcast_S100_S1x100_1 : S100.BroadcastsInDim S1x100 (![1] : Fin 1 → Fin S1x100.rank)
  bcast_S1x100_S256x100_0_1 : S1x100.BroadcastsInDim S256x100 (![0, 1] : Fin 2 → Fin S256x100.rank)
  reducesTo_S256x100_S100_d0 : S256x100.ReducesTo [0] S100
  bcast_S_S100 : S_.BroadcastsInDim S100 (![] : Fin 0 → Fin S100.rank)
  transposes_S50x100_S100x50_1_0 : S50x100.Transposes [1, 0] S100x50
  bcast_S50_S1x50_1 : S50.BroadcastsInDim S1x50 (![1] : Fin 1 → Fin S1x50.rank)
  bcast_S1x50_S256x50_0_1 : S1x50.BroadcastsInDim S256x50 (![0, 1] : Fin 2 → Fin S256x50.rank)
  reducesTo_S256x50_S50_d0 : S256x50.ReducesTo [0] S50
  bcast_S_S50 : S_.BroadcastsInDim S50 (![] : Fin 0 → Fin S50.rank)
  transposes_S6x50_S50x6_1_0 : S6x50.Transposes [1, 0] S50x6
  concatenates_S256x6_S256x6_S256x12_d1 : Shape.Concatenates [S256x6, S256x6] S256x12 1
  transposes_S6x12_S12x6_1_0 : S6x12.Transposes [1, 0] S12x6
  transposes_S1x6_S6x1_1_0 : S1x6.Transposes [1, 0] S6x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  transposes_S1x1_S1x1_1_0 : S1x1.Transposes [1, 0] S1x1
  gather_S256x6000_S180000x1_S256x180000_0_1_n_n_1_1_2561_wf : GatherDims.WF S256x6000 S180000x1 S256x180000 [0] [1] [] [1] [] 1 ![256, 1]
  scatter_S12000x256_S180000x1_S180000x256_1_0_0_1_wf : ScatterDims.WF S12000x256 S180000x1 S180000x256 [1] [0] [0] 1
  gather_S256x12000_S144000x1_S256x144000_0_1_n_n_1_1_2561_wf : GatherDims.WF S256x12000 S144000x1 S256x144000 [0] [1] [] [1] [] 1 ![256, 1]
  scatter_S3000x256_S144000x1_S144000x256_1_0_0_1_wf : ScatterDims.WF S3000x256 S144000x1 S144000x256 [1] [0] [0] 1
  gather_S256x3000_S18000x1_S256x18000_0_1_n_n_1_1_2561_wf : GatherDims.WF S256x3000 S18000x1 S256x18000 [0] [1] [] [1] [] 1 ![256, 1]
  scatter_S6x256_S18000x1_S18000x256_1_0_0_1_wf : ScatterDims.WF S6x256 S18000x1 S18000x256 [1] [0] [0] 1
  dot_S256x2048_S2048x100_S256x100_1_0_0_1_n_n_wf : DotDims.WF S256x2048 S2048x100 S256x100 [1] [0] [0] [1] [] []
  dot_S256x100_S100x50_S256x50_1_0_0_1_n_n_wf : DotDims.WF S256x100 S100x50 S256x50 [1] [0] [0] [1] [] []
  dot_S256x50_S50x6_S256x6_1_0_0_1_n_n_wf : DotDims.WF S256x50 S50x6 S256x6 [1] [0] [0] [1] [] []
  dot_S256x12_S12x6_S256x6_1_0_0_1_n_n_wf : DotDims.WF S256x12 S12x6 S256x6 [1] [0] [0] [1] [] []
  dot_S256x6_S6x1_S256x1_1_0_0_1_n_n_wf : DotDims.WF S256x6 S6x1 S256x1 [1] [0] [0] [1] [] []
  dot_S256x1_S1x1_S256x1_1_0_0_1_n_n_wf : DotDims.WF S256x1 S1x1 S256x1 [1] [0] [0] [1] [] []

variable [Facts₀]

def gather_S256x6000_S180000x1_S256x180000_0_1_n_n_1_1_2561 : GatherDims S256x6000 S180000x1 S256x180000 where
  offsetDims := [0]
  collapsedSliceDims := [1]
  operandBatchingDims := []
  startIndicesBatchingDims := []
  startIndexMap := [1]
  indexVectorDim := 1
  sliceSizes := ![256, 1]
  wf := gather_S256x6000_S180000x1_S256x180000_0_1_n_n_1_1_2561_wf
def scatter_S12000x256_S180000x1_S180000x256_1_0_0_1 : ScatterDims S12000x256 S180000x1 S180000x256 where
  updateWindowDims := [1]
  insertedWindowDims := [0]
  scatterDimsToOperandDims := [0]
  indexVectorDim := 1
  wf := scatter_S12000x256_S180000x1_S180000x256_1_0_0_1_wf
def gather_S256x12000_S144000x1_S256x144000_0_1_n_n_1_1_2561 : GatherDims S256x12000 S144000x1 S256x144000 where
  offsetDims := [0]
  collapsedSliceDims := [1]
  operandBatchingDims := []
  startIndicesBatchingDims := []
  startIndexMap := [1]
  indexVectorDim := 1
  sliceSizes := ![256, 1]
  wf := gather_S256x12000_S144000x1_S256x144000_0_1_n_n_1_1_2561_wf
def scatter_S3000x256_S144000x1_S144000x256_1_0_0_1 : ScatterDims S3000x256 S144000x1 S144000x256 where
  updateWindowDims := [1]
  insertedWindowDims := [0]
  scatterDimsToOperandDims := [0]
  indexVectorDim := 1
  wf := scatter_S3000x256_S144000x1_S144000x256_1_0_0_1_wf
def gather_S256x3000_S18000x1_S256x18000_0_1_n_n_1_1_2561 : GatherDims S256x3000 S18000x1 S256x18000 where
  offsetDims := [0]
  collapsedSliceDims := [1]
  operandBatchingDims := []
  startIndicesBatchingDims := []
  startIndexMap := [1]
  indexVectorDim := 1
  sliceSizes := ![256, 1]
  wf := gather_S256x3000_S18000x1_S256x18000_0_1_n_n_1_1_2561_wf
def scatter_S6x256_S18000x1_S18000x256_1_0_0_1 : ScatterDims S6x256 S18000x1 S18000x256 where
  updateWindowDims := [1]
  insertedWindowDims := [0]
  scatterDimsToOperandDims := [0]
  indexVectorDim := 1
  wf := scatter_S6x256_S18000x1_S18000x256_1_0_0_1_wf
def dot_S256x2048_S2048x100_S256x100_1_0_0_1_n_n : DotDims S256x2048 S2048x100 S256x100 where
  lhsContracting := [1]
  rhsContracting := [0]
  lhsNonContracting := [0]
  rhsNonContracting := [1]
  lhsBatch := []
  rhsBatch := []
  wf := dot_S256x2048_S2048x100_S256x100_1_0_0_1_n_n_wf
def dot_S256x100_S100x50_S256x50_1_0_0_1_n_n : DotDims S256x100 S100x50 S256x50 where
  lhsContracting := [1]
  rhsContracting := [0]
  lhsNonContracting := [0]
  rhsNonContracting := [1]
  lhsBatch := []
  rhsBatch := []
  wf := dot_S256x100_S100x50_S256x50_1_0_0_1_n_n_wf
def dot_S256x50_S50x6_S256x6_1_0_0_1_n_n : DotDims S256x50 S50x6 S256x6 where
  lhsContracting := [1]
  rhsContracting := [0]
  lhsNonContracting := [0]
  rhsNonContracting := [1]
  lhsBatch := []
  rhsBatch := []
  wf := dot_S256x50_S50x6_S256x6_1_0_0_1_n_n_wf
def dot_S256x12_S12x6_S256x6_1_0_0_1_n_n : DotDims S256x12 S12x6 S256x6 where
  lhsContracting := [1]
  rhsContracting := [0]
  lhsNonContracting := [0]
  rhsNonContracting := [1]
  lhsBatch := []
  rhsBatch := []
  wf := dot_S256x12_S12x6_S256x6_1_0_0_1_n_n_wf
def dot_S256x6_S6x1_S256x1_1_0_0_1_n_n : DotDims S256x6 S6x1 S256x1 where
  lhsContracting := [1]
  rhsContracting := [0]
  lhsNonContracting := [0]
  rhsNonContracting := [1]
  lhsBatch := []
  rhsBatch := []
  wf := dot_S256x6_S6x1_S256x1_1_0_0_1_n_n_wf
def dot_S256x1_S1x1_S256x1_1_0_0_1_n_n : DotDims S256x1 S1x1 S256x1 where
  lhsContracting := [1]
  rhsContracting := [0]
  lhsNonContracting := [0]
  rhsNonContracting := [1]
  lhsBatch := []
  rhsBatch := []
  wf := dot_S256x1_S1x1_S256x1_1_0_0_1_n_n_wf

class Facts : Prop extends Facts₀ where

variable [Facts]
-- ==== Proof.KBody.lean ====
import proofs.«161050_j60275571032433_1_alg».proof.Proof.Gen.Kernel.Launch
import proofs.«161050_j60275571032433_1_alg».proof.Proof.Gen.Kernel.Skeleton
import proofs.«161050_j60275571032433_1_alg».proof.Proof.Gen.Kernel.Points
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

def rdat (cfg : Cfg sig Λ₀) (c : Dev nD) : RDat τ (Elt F) Unit ℕ (UR sig nD τ × UR sig nD τ) ℕ cfg c where
  A w := V c (Pipeline.arrRef cfg.spec w)
  after _ _ _ _ := True
  Φ _ := Pipeline.ΦA cfg.spec c
  q _ := fullShare
  owed _ := 0

theorem sound_body {s1 s2 s3 s4 : Shape} (c : Dev nD) {E : Set ℕ}
    {a1 : Memref sig .tc .vmem s1 .bf16} {a2 : Memref sig .tc .vmem s2 .bf16} {a3 a4 a5 : Memref sig .tc .vmem s3 .f32} {a6 : Memref sig .tc .vmem s4 .f32}
    {r1 : LoadRect s1} {r2 : LoadRect s2} {r3 r4 r5 : LoadRect s3} {r6 : LoadRect s4} {r : Rect s4}
    {h1 : a1.view.LoadsAt r1} {h2 : a2.view.LoadsAt r2} {h3 : a3.view.LoadsAt r3} {h4 : a4.view.LoadsAt r4} {h5 : a5.view.LoadsAt r5} {h6 : a6.view.LoadsAt r6}
    {pay : (r1.shape.Idx → Elt F .bf16) → (r2.shape.Idx → Elt F .bf16) → (r3.shape.Idx → Elt F .f32) → (r4.shape.Idx → Elt F .f32) → (r5.shape.Idx → Elt F .f32) → r.shape.Idx → Elt F .f32}
    {hs : (a6.access r).Stores Finset.univ} {hm : (Finset.univ : Finset r.shape.Idx) = Finset.univ ∨ ∀ a, r.stride a = 1}
    {P O : sProp 𝕄} {x1 : s1.Idx → Elt F .bf16} {x2 : s2.Idx → Elt F .bf16} {x3 x4 x5 : s3.Idx → Elt F .f32} {x6 : s4.Idx → Elt F .f32} :
    iprop(P ∗ O ∗ owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6)
      ⊢ wp frame (wpE (defs₀ (F := F)) Variants.none c none) E
          (do let v0 ← Prog.lift (.load a1 r1 h1); let v2 ← Prog.lift (.load a2 r2 h2); let v5 ← Prog.lift (.load a3 r3 h3)
              let v21 ← Prog.lift (.load a4 r4 h4); let v32 ← Prog.lift (.load a5 r5 h5); let _ ← Prog.lift (.load a6 r6 h6)
              Prog.lift (.store a6 r (pay v0 v2 v5 v21 v32) Finset.univ hs hm); pure PUnit.unit : Prog (TpuEff nD τ sig (Elt F) Λ₀ .tc) PUnit)
          fun _ => iprop(P ∗ O ∗ (∃ X, ⌜True⌝ ∗ owns (c : Thread nD τ) a1 fullShare X) ∗ (∃ X, ⌜True⌝ ∗ owns (c : Thread nD τ) a2 fullShare X)
            ∗ (∃ X, ⌜True⌝ ∗ owns (c : Thread nD τ) a3 fullShare X) ∗ (∃ X, ⌜True⌝ ∗ owns (c : Thread nD τ) a4 fullShare X)
            ∗ (∃ X, ⌜True⌝ ∗ owns (c : Thread nD τ) a5 fullShare X) ∗ ∃ X, ⌜True⌝ ∗ owns (c : Thread nD τ) a6 fullShare X) := by
  unfold owns
  iintro ⟨HP, HO, ⟨%f1, -, H1⟩, ⟨%f2, -, H2⟩, ⟨%f3, -, H3⟩, ⟨%f4, -, H4⟩, ⟨%f5, -, H5⟩, ⟨%f6, -, H6⟩⟩
  sl_exec
  sl_step
  iframe HP HO
  isplitl [H1]; · iexists _; isplitr; · ipureintro; trivial
                  iexists f1; iframe; ipureintro; rfl
  isplitl [H2]; · iexists _; isplitr; · ipureintro; trivial
                  iexists f2; iframe; ipureintro; rfl
  isplitl [H3]; · iexists _; isplitr; · ipureintro; trivial
                  iexists f3; iframe; ipureintro; rfl
  isplitl [H4]; · iexists _; isplitr; · ipureintro; trivial
                  iexists f4; iframe; ipureintro; rfl
  isplitl [H5]; · iexists _; isplitr; · ipureintro; trivial
                  iexists f5; iframe; ipureintro; rfl
  iexists _; isplitr; · ipureintro; trivial
  iexists _; iframe; ipureintro; rfl

theorem rbody_obligation0 (c : Dev nD) : (rdat (F := F) V cfg0 c).BodyObligation (defs₀ (F := F)) Variants.none () Set.univ := fun t Y _ => by
  rw [bigSep_W0, bigSep_W0]
  show _ ⊢ wp frame (wpE (defs₀ (F := F)) Variants.none c none) Set.univ (bodyAt0 t) _
  unfold bodyAt0; simp only [cc0__sparse_layer_kernel_eq_skeleton]; unfold cc0__sparse_layer_kernel_skel
  exact sound_body c

theorem rbody_obligation1 (c : Dev nD) : (rdat (F := F) V cfg1 c).BodyObligation (defs₀ (F := F)) Variants.none () Set.univ := fun t Y _ => by
  rw [bigSep_W1, bigSep_W1]
  show _ ⊢ wp frame (wpE (defs₀ (F := F)) Variants.none c none) Set.univ (bodyAt1 t) _
  unfold bodyAt1; simp only [cc1__sparse_layer_kernel_eq_skeleton]; unfold cc1__sparse_layer_kernel_skel
  exact sound_body c

theorem rbody_obligation2 (c : Dev nD) : (rdat (F := F) V cfg2 c).BodyObligation (defs₀ (F := F)) Variants.none () Set.univ := fun t Y _ => by
  rw [bigSep_W2, bigSep_W2]
  show _ ⊢ wp frame (wpE (defs₀ (F := F)) Variants.none c none) Set.univ (bodyAt2 t) _
  unfold bodyAt2; simp only [cc2__sparse_layer_kernel_eq_skeleton]; unfold cc2__sparse_layer_kernel_skel
  exact sound_body c

end Cert.Kernel.Hand

end
-- ==== Proof.KRun.lean ====
import proofs.«161050_j60275571032433_1_alg».proof.Proof.KBody

noncomputable section

namespace Cert.KRunKit

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type}
variable (pcs : P → PCfg sig Λ₀ Val) (a' : (p : P) → (pcs p).Adm)
  (rdats : (p : P) → (c : Dev nD) → RDat τ Val Ix Name U Lvl (pin pcs a' p) c)

theorem held_of_arraysAt [∀ e, Nonempty (Val e)] {p : P} (hw : WinFacts (pin pcs a' p).spec) (harr : ∀ w, ((pin pcs a' p).spec w).arr.IsWhole)
    (c : Dev nD) (hshare : ∀ w, (rdats p c).share w = fullShare) (W : Valuation τ sig Val) (n : Nat) :
    iprop((rdats p c).arraysAt n ∗ unscopedRest (pin pcs a' p).spec c (fun b => W (Proc.devRef .tc b)))
      ⊢ (iprop(∃ A : (w : Fin (pin pcs a' p).W) → Buf Val (((pin pcs a' p).spec w).arr.view.loc (c.tc : Thread nD τ)),
          StableHlo.held (c.tc : Thread nD τ) (ucRefs τ sig) (withArrays (pin pcs a' p).spec c W A)) : sProp 𝕄) := by
  unfold RDat.arraysAt
  iintro ⟨Ha, Hrest⟩
  ihave Ha' := (BI.bigSep_exists_pi Finset.univ (fun w F => iprop(⌜(rdats p c).ArrAt w n F⌝
      ∗ ((pin pcs a' p).win w).arr.view.loc (c.tc : Thread nD τ) ↦[((pin pcs a' p).win w).arr.view.set]{(rdats p c).share w} F))) $$ Ha
  icases Ha' with ⟨%A, Ha⟩
  ihave Ha2 := (BI.bigSep_pure_sep Finset.univ (fun w => (rdats p c).ArrAt w n (A w))
      (fun w => ((pin pcs a' p).win w).arr.view.loc (c.tc : Thread nD τ) ↦[((pin pcs a' p).win w).arr.view.set]{(rdats p c).share w} A w)) $$ Ha
  icases Ha2 with ⟨-, Ha⟩
  iexists A
  rw [← unscopedBufs_held c (withArrays (pin pcs a' p).spec c W A),
    Pipeline.unscopedBufs_split (pin pcs a') p hw.arr_unscoped hw.arr_inj c _]
  isplitl [Ha]
  · have hA : (rdats p c).arrays A = (bigSep Finset.univ fun w => (((c.tc : Thread nD τ).loc (arrRef (pin pcs a' p).spec w))
        ↦{fullShare} withArrays (pin pcs a' p).spec c W A (Proc.devRef .tc (arrRef (pin pcs a' p).spec w)) : sProp 𝕄)) := by
      rw [Pipeline.RDat.arrays_eq pcs a' rdats p c harr hshare A]
      exact bigSep_congr fun w _ => by rw [withArrays_arr (pin pcs a' p).spec hw.arr_inj c W A w]
    iapply (Entails.of_eq hA)
    unfold RDat.arrays
    iexact Ha
  · have hR : (unscopedRest (pin pcs a' p).spec c (fun b => W (Proc.devRef .tc b)) : sProp 𝕄)
        = unscopedRest (pin pcs a' p).spec c (fun b => withArrays (pin pcs a' p).spec c W A (Proc.devRef .tc b)) := by
      unfold unscopedRest
      exact bigSep_congr fun b hb => by
        dsimp only
        rw [withArrays_of_ne (pin pcs a' p).spec c W A b fun w e => (Finset.mem_sdiff.mp hb).2 (Finset.mem_image.mpr ⟨w, Finset.mem_univ _, e⟩)]
    iapply (Entails.of_eq hR)
    iexact Hrest

end Cert.KRunKit

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ × UR sig nD τ) ℕ

abbrev IsArg (r : Ref sig .tc) : Prop := r.space = .hbm ∧ r.idx.val < 39

def Keeps (W₀ W : Valuation τ sig (Elt F)) : Prop :=
  ∀ r : Ref sig .tc, IsArg r → W (Proc.devRef .tc r) = W₀ (Proc.devRef .tc r)

def NoArgWrite (op : HloOp τ sig (Elt F)) : Prop := ∀ r : Ref sig .tc, IsArg r → Proc.devRef .tc r ∉ op.writes

theorem noArgWrite_of_writes {op : HloOp τ sig (Elt F)} {y : Ref sig .tc} (h : op.writes = {Proc.devRef .tc y}) (hy : ¬ IsArg y) :
    NoArgWrite op := fun r hr hm => by
  rw [h, Finset.mem_singleton] at hm
  exact hy (Proc.devRef_injective _ hm ▸ hr)

theorem Keeps.after {W₀ W : Valuation τ sig (Elt F)} (h : Keeps W₀ W) (ops : List (HloOp τ sig (Elt F)))
    (hops : ops.Forall fun op => op.fresh = ∅ ∧ NoArgWrite op) : Keeps W₀ (StableHlo.after ops W) := fun r hr =>
  (StableHlo.after_of_forall_not_mem ops W fun op hop => ((List.forall_iff_forall_mem.mp hops) op hop).2 r hr).trans (h r hr)

theorem Keeps.withArrays {gr : Nat} {Wn : Nat} {win : Fin Wn → Pipeline.WinSpec sig gr} (hwin : ∀ w, ¬ IsArg (Pipeline.arrRef win w))
    {W₀ W : Valuation τ sig (Elt F)} (h : Keeps W₀ W) (c : Dev nD)
    (A : (w : Fin Wn) → Buf (Elt F) ((win w).arr.view.loc (c : Thread nD τ))) : Keeps W₀ (Pipeline.withArrays win c W A) := fun r hr =>
  (Pipeline.withArrays_of_ne win c W A r fun w e => hwin w (e ▸ hr)).trans (h r hr)

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

def St (W₀ : Valuation τ sig (Elt F)) (c : Dev nD) : sProp 𝕄 :=
  iprop(∃ W : Valuation τ sig (Elt F), ⌜Keeps W₀ W⌝ ∗ StableHlo.held (c : Thread nD τ) (Pipeline.ucRefs τ sig) W ∗ R c)

local notation "𝔻" => Pipeline.defs (pcfgs (F := F)) defs₀
local notation "𝕍" => Variants.lift 𝒱₀
set_option quotPrecheck false in
local notation "ℙ" => Prog (TpuEff nD τ sig (Elt F) (Pipeline.Sig Λ₀ (Fin 3) fun p => (pcfgs (F := F) p).Adm) .tc)

set_option backward.isDefEq.respectTransparency.types false in
theorem host_then (W₀ : Valuation τ sig (Elt F)) (c : Dev nD) (Q : PUnit → sProp 𝕄) (ops : List (HloOp τ sig (Elt F)))
    (hsub : ops.Forall fun op => op.bufs ⊆ StableHlo.tcRefs τ sig) (hok : ops.Forall fun op => op.fresh = ∅ ∧ NoArgWrite op)
    (rest : ℙ PUnit) (G : sProp 𝕄)
    (tail : iprop((iprop(boundary (c : Thread nD τ) ∗ St W₀ c) -∗ Q ⟨⟩) ∗ boundary (c : Thread nD τ) ∗ St W₀ c ∗ levAts L lv ∗ G)
      ⊢ wp frame (wpE 𝔻 𝕍 (c : Thread nD τ) none) Set.univ rest Q) :
    iprop((iprop(boundary (c : Thread nD τ) ∗ St W₀ c) -∗ Q ⟨⟩) ∗ boundary (c : Thread nD τ) ∗ St W₀ c ∗ levAts L lv ∗ G)
      ⊢ wp frame (wpE 𝔻 𝕍 (c : Thread nD τ) none) Set.univ (StableHlo.seq ops >>= fun _ => rest) Q := by
  unfold St at tail ⊢
  iintro ⟨Hk, Hbd, ⟨%W, %hW, Hh, HR⟩, #Hla, HG⟩
  have hrun := (Pipeline.HostSeg.ofOps (Name := ℕ) (U := UR sig nD τ × UR sig nD τ) (pcfgs (F := F)) defs₀ 𝒱₀ L lv (Pipeline.ucRefs τ sig) ops
      (fun op h => Pipeline.sub_ucRefs op ((List.forall_iff_forall_mem.mp hsub) op h))
      (fun op h => ((List.forall_iff_forall_mem.mp hok) op h).1) (fun _ => W) R).run c (fun _ => rest) Q
  dsimp only [Pipeline.HostSeg.ofOps] at hrun
  iapply hrun
  iframe Hbd Hh HR Hla
  iintro ⟨Hbd, Hh, HR⟩
  iapply tail
  iframe Hk Hbd HG Hla
  iexists (StableHlo.after ops W)
  iframe
  ipureintro; exact hW.after ops hok

abbrev VW (W : Valuation τ sig (Elt F)) : (c : Dev nD) → (b : Ref sig .tc) → Buf (Elt F) ((c : Thread nD τ).loc b) := fun _ b => W b

def rdatsAt (V : (c : Dev nD) → (b : Ref sig .tc) → Buf (Elt F) ((c : Thread nD τ).loc b)) (p : Fin 3) (c : Dev nD) :
    RDat τ (Elt F) Unit ℕ (UR sig nD τ × UR sig nD τ) ℕ (Pipeline.pin (pcfgs (F := F)) adm p) c := rdat V (cfgs p) c

theorem launch : ∀ p : Fin 3, Pipeline.LaunchFacts (nD := nD) (τ := τ) cfgs p
  | ⟨0, _⟩ => launch0 | ⟨1, _⟩ => launch1 | ⟨2, _⟩ => launch2

theorem rbody (V : (c : Dev nD) → (b : Ref sig .tc) → Buf (Elt F) ((c : Thread nD τ).loc b)) :
    ∀ (p : Fin 3) (c : Dev nD), (rdatsAt (F := F) V p c).BodyObligation (defs₀ (F := F)) 𝒱₀ () Set.univ
  | ⟨0, _⟩ => rbody_obligation0 V | ⟨1, _⟩ => rbody_obligation1 V | ⟨2, _⟩ => rbody_obligation2 V

theorem spec_noArg : ∀ (p : Fin 3) (w : Fin (cfgs p).W), ¬ IsArg (Pipeline.arrRef (cfgs p).spec w) := by decide

set_option backward.isDefEq.respectTransparency.types false in
def reg (p : Fin 3) (W : Valuation τ sig (Elt F)) :
    Pipeline.RDat.RegionSeg (pcfgs (F := F)) adm (rdatsAt (F := F) (VW W)) () defs₀ 𝒱₀ L lv p where
  win := (launch p).win.to₀
  block_pos := (launch p).block_pos
  stage_whole := (launch p).stage_whole
  K := PEmpty
  osem k := k.elim
  ho := Pipeline.OwnSemFacts.none _
  hbody := rbody (VW W) p
  hwaits := Pipeline.RDat.hwaits_of_owed_zero _ _ _ _ L lv p fun _ _ => rfl
  pre c := iprop(StableHlo.held (c : Thread nD τ) (Pipeline.ucRefs τ sig) W ∗ R c)
  post c := iprop((∃ A : (w : Fin (cfgs p).W) → Buf (Elt F) (((cfgs p).spec w).arr.view.loc (c : Thread nD τ)),
      StableHlo.held (c : Thread nD τ) (Pipeline.ucRefs τ sig) (Pipeline.withArrays (cfgs p).spec c W A)) ∗ R c)
  X c := iprop(∃ r, prngReg c r)
  Y c := iprop(∃ r, prngReg c r)
  Z c := Pipeline.unscopedRest (Ix := Unit) (Name := ℕ) (U := UR sig nD τ × UR sig nD τ) (Lvl := ℕ) (cfgs p).spec c (VW W c)
  hentry c := by
    rw [Pipeline.ownSems0_none]
    have hsplit := Pipeline.RDat.arrays_of_unscopedBufs (p := p) (pcfgs (F := F)) adm (rdatsAt (F := F) (VW W)) (launch p).win (launch p).arr_whole c
      ((rdatsAt (F := F) (VW W) p c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.RDat.owesAt Pipeline.owesWithin
    icases HO with ⟨%W', HO⟩; iexists W'; isplitr; · ipureintro; exact fun _ _ => Or.inl trivial
    iexact HO
  hin c := by
    rw [show (rdatsAt (F := F) (VW W) p c).Φ 0 = Pipeline.ΦA (cfgs p).spec c from rfl]; unfold Pipeline.ΦA
    iintro ⟨Hp, -, Hr⟩
    isplitl [Hr]; · iexact Hr
    iexact Hp
  hout c := by
    rw [Pipeline.ownSems0_none, show (rdatsAt (F := F) (VW W) p c).Φ (Fin.last _) = Pipeline.ΦA (cfgs p).spec c from rfl]; unfold Pipeline.ΦA
    iintro ⟨Hr, Hp⟩
    isplitl [Hp]; · iexact Hp
    isplitr; · iempintro
    iexact Hr
  hexit c := by
    have hjoin := Cert.KRunKit.held_of_arraysAt (pcfgs (F := F)) adm (rdatsAt (F := F) (VW W)) (p := p) (launch p).win (launch p).arr_whole c
      ((rdatsAt (F := F) (VW W) p c).share_full fun _ => rfl) W (cfgs p).N
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W', -, HO⟩; iexists W'; iexact HO

set_option backward.isDefEq.respectTransparency.types false in
theorem region_then (p : Fin 3) (W₀ : Valuation τ sig (Elt F)) (c : Dev nD) (Q : PUnit → sProp 𝕄) (rest : ℙ PUnit) (G : sProp 𝕄)
    (tail : iprop((iprop(boundary (c : Thread nD τ) ∗ St W₀ c) -∗ Q ⟨⟩) ∗ boundary (c : Thread nD τ) ∗ St W₀ c ∗ levAts L lv ∗ G)
      ⊢ wp frame (wpE 𝔻 𝕍 (c : Thread nD τ) none) Set.univ rest Q) :
    iprop((iprop(boundary (c : Thread nD τ) ∗ St W₀ c) -∗ Q ⟨⟩) ∗ boundary (c : Thread nD τ) ∗ St W₀ c ∗ levAts L lv
        ∗ (Pipeline.cellsGhost (Pipeline.pin (pcfgs (F := F)) adm) (embR (A := UR sig nD τ) (B := UR sig nD τ)) p c
          ∗ Pipeline.toksInit (Pipeline.pin (pcfgs (F := F)) adm) (embR (A := UR sig nD τ) (B := UR sig nD τ)) p c) ∗ G)
      ⊢ wp frame (wpE 𝔻 𝕍 (c : Thread nD τ) none) Set.univ (.op (.customCall (Pipeline.entry p) ()) fun _ => rest) Q := by
  unfold St at tail ⊢
  iintro ⟨Hk, Hbd, ⟨%W, %hW, Hh, HR⟩, #Hla, ⟨Hg, Ht⟩, HG⟩
  have hwp := Pipeline.RDat.RegionSeg.wp (pcfgs (F := F)) adm (rdatsAt (F := F) (VW W)) () cellOf_inj (embR (A := UR sig nD τ) (B := UR sig nD τ)) defs₀ 𝒱₀ L lv (reg p W) c none
    (fun u h => nomatch h) (fun _ => rest) Q
  dsimp only [reg] at hwp
  iapply hwp
  iframe Hbd Hh HR Hla Hg Ht
  iintro ⟨Hbd, ⟨%A, Hh⟩, HR⟩
  iapply tail
  iframe Hk Hbd HG Hla
  iexists (Pipeline.withArrays (cfgs p).spec c W A)
  iframe
  ipureintro; exact hW.withArrays (spec_noArg p) c A

theorem ret_then (W₀ : Valuation τ sig (Elt F)) (c : Dev nD) (Q : PUnit → sProp 𝕄) (G : sProp 𝕄) :
    iprop((iprop(boundary (c : Thread nD τ) ∗ St W₀ c) -∗ Q ⟨⟩) ∗ boundary (c : Thread nD τ) ∗ St W₀ c ∗ levAts L lv ∗ G)
      ⊢ wp frame (wpE 𝔻 𝕍 (c : Thread nD τ) none) Set.univ (.ret ⟨⟩ : ℙ PUnit) Q := by
  rw [wp_ret]
  iintro ⟨Hk, Hbd, HT, -, -⟩
  imodintro
  iapply Hk
  iframe

theorem main_part0_ops0_ok : (main_part0_ops0 : List (HloOp τ sig (Elt F))).Forall fun op => op.fresh = ∅ ∧ NoArgWrite op := by
  simp only [List.Forall]; repeat' constructor
  all_goals exact noArgWrite_of_writes rfl (by decide)

theorem main_part0_ops1_ok : (main_part0_ops1 : List (HloOp τ sig (Elt F))).Forall fun op => op.fresh = ∅ ∧ NoArgWrite op := by
  simp only [List.Forall]; repeat' constructor
  all_goals exact noArgWrite_of_writes rfl (by decide)

theorem main_part0_ops2_ok : (main_part0_ops2 : List (HloOp τ sig (Elt F))).Forall fun op => op.fresh = ∅ ∧ NoArgWrite op := by
  simp only [List.Forall]; repeat' constructor
  all_goals exact noArgWrite_of_writes rfl (by decide)

theorem main_part1_ops0_ok : (main_part1_ops0 : List (HloOp τ sig (Elt F))).Forall fun op => op.fresh = ∅ ∧ NoArgWrite op := by
  simp only [List.Forall]; repeat' constructor
  all_goals exact noArgWrite_of_writes rfl (by decide)

theorem main_part1_ops1_ok : (main_part1_ops1 : List (HloOp τ sig (Elt F))).Forall fun op => op.fresh = ∅ ∧ NoArgWrite op := by
  simp only [List.Forall]; repeat' constructor
  all_goals exact noArgWrite_of_writes rfl (by decide)

theorem main_part2_ops0_ok : (main_part2_ops0 : List (HloOp τ sig (Elt F))).Forall fun op => op.fresh = ∅ ∧ NoArgWrite op := by
  simp only [List.Forall]; repeat' constructor
  all_goals exact noArgWrite_of_writes rfl (by decide)

theorem main_part3_ops0_ok : (main_part3_ops0 : List (HloOp τ sig (Elt F))).Forall fun op => op.fresh = ∅ ∧ NoArgWrite op := by
  simp only [List.Forall]; repeat' constructor
  all_goals exact noArgWrite_of_writes rfl (by decide)

theorem main_steps (c : Dev nD) : main (F := F) c =
    (StableHlo.seq main_part0_ops0 >>= fun _ => Prog.op (.customCall (Pipeline.entry 0) ()) fun _ =>
     StableHlo.seq main_part0_ops1 >>= fun _ => Prog.op (.customCall (Pipeline.entry 1) ()) fun _ =>
     StableHlo.seq main_part0_ops2 >>= fun _ => StableHlo.seq main_part1_ops0 >>= fun _ =>
     Prog.op (.customCall (Pipeline.entry 2) ()) fun _ =>
     StableHlo.seq main_part1_ops1 >>= fun _ => StableHlo.seq main_part2_ops0 >>= fun _ =>
     StableHlo.seq main_part3_ops0 >>= fun _ => (.ret ⟨⟩ : ℙ PUnit)) :=
  (main_chain_windows c).trans (by chain_rfl)

variable (m : (ℓ : Loc nD τ sig) → Buf (Elt F) ℓ) (ρ : Dev nD → PrngReg)

abbrev W0 (c : Dev nD) : Valuation τ sig (Elt F) := fun b => m ((c : Dev nD), b)

def Tn (c : Dev nD) : sProp 𝕄 :=
  iprop(∃ W : Valuation τ sig (Elt F), ⌜Keeps (W0 m c) W⌝ ∗ StableHlo.held (c : Thread nD τ) (Pipeline.ucRefs τ sig) W ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option maxRecDepth 200000 in
set_option backward.isDefEq.respectTransparency.types false in
theorem wp_main (c c₀ : Dev nD) (Q : PUnit → sProp 𝕄) :
    iprop((iprop(boundary (c : Thread nD τ) ∗ Tn m c ∗ ∃ W, owes (c : Thread nD τ) (0 : CellTallies nD τ sig Unit) W) -∗ Q ⟨⟩)
        ∗ boundary (c : Thread nD τ) ∗ (St (W0 m c) c ∗ Pipeline.PerCore.ghostOn (pcfgs (F := F)) (fun _ => adm) (embR (A := UR sig nD τ) (B := UR sig nD τ)) Finset.univ c) ∗ levAts L lv)
      ⊢ wp frame (wpE 𝔻 𝕍 (c : Thread nD τ) none) Set.univ (main (F := F) c₀) Q := by
  have e0 : (0 : Fin 3) ∈ (Finset.univ : Finset (Fin 3)) := Finset.mem_univ _
  have e1 : (1 : Fin 3) ∈ (Finset.univ : Finset (Fin 3)).erase 0 := by decide
  have e2 : (2 : Fin 3) ∈ ((Finset.univ : Finset (Fin 3)).erase 0).erase 1 := by decide
  rw [main_steps c₀, Pipeline.PerCore.ghostOn_erase _ _ _ e0, Pipeline.PerCore.ghostOn_erase _ _ _ e1, Pipeline.PerCore.ghostOn_erase _ _ _ e2]
  have hsegs := host_then (W0 m c) c Q main_part0_ops0 main_part0_ops0_sub main_part0_ops0_ok _ _
    (region_then 0 (W0 m c) c Q _ _
    (host_then (W0 m c) c Q main_part0_ops1 main_part0_ops1_sub main_part0_ops1_ok _ _
    (region_then 1 (W0 m c) c Q _ _
    (host_then (W0 m c) c Q main_part0_ops2 main_part0_ops2_sub main_part0_ops2_ok _ _
    (host_then (W0 m c) c Q main_part1_ops0 main_part1_ops0_sub main_part1_ops0_ok _ _
    (region_then 2 (W0 m c) c Q _ _
    (host_then (W0 m c) c Q main_part1_ops1 main_part1_ops1_sub main_part1_ops1_ok _ _
    (host_then (W0 m c) c Q main_part2_ops0 main_part2_ops0_sub main_part2_ops0_ok _ _
    (host_then (W0 m c) c Q main_part3_ops0 main_part3_ops0_sub main_part3_ops0_ok _ _
    (ret_then (W0 m c) c Q (Pipeline.PerCore.ghostOn (pcfgs (F := F)) (fun _ => adm) (embR (A := UR sig nD τ) (B := UR sig nD τ)) ((((Finset.univ : Finset (Fin 3)).erase 0).erase 1).erase 2) c)))))))))))
  iintro ⟨Hk, Hbd, ⟨HT, HG⟩, Hla⟩
  iapply hsegs
  iframe Hbd HT HG Hla
  iintro ⟨Hbd, HT⟩
  iapply Hk
  unfold St Tn
  icases HT with ⟨%W, %hW, Hh, Hp, HO⟩
  iframe Hbd HO
  iexists W
  iframe
  ipureintro; exact hW

def mainSeg (c₀ : Dev nD) : Pipeline.HostSeg (Name := ℕ) (U := UR sig nD τ × UR sig nD τ) (pcfgs (F := F)) defs₀ 𝒱₀ L lv where
  prog := main (F := F) c₀
  pre c := iprop(St (W0 m c) c ∗ Pipeline.PerCore.ghostOn (pcfgs (F := F)) (fun _ => adm) (embR (A := UR sig nD τ) (B := UR sig nD τ)) Finset.univ c)
  post c := iprop(Tn m c ∗ ∃ W, owes (c : Thread nD τ) (0 : CellTallies nD τ sig Unit) W)
  run c _ k K := by rw [wp_bind]; exact wp_main m c c₀ fun a => wp frame (wpE 𝔻 𝕍 (c : Thread nD τ) none) Set.univ (k a) K

set_option maxRecDepth 200000 in
set_option backward.isDefEq.respectTransparency.types false in
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)) :=
  Pipeline.RDat.θ_run_regions_kit_dev (pcfgs (F := F)) adm (rdatsAt (F := F) fun c b => m ((c : Thread nD τ).loc b)) () cellOf_inj
    (embL (A := UR sig nD τ) (B := UR sig nD τ)) defs₀ 𝒱₀ L lv m ρ main (fun c => [.host (mainSeg m c)])
    (fun c Q => Entails.of_eq (congrArg (fun p => wp _ _ _ p Q) (Prog.bind_pure (main c))))
    (fun _ => List.nodup_nil) (O₀ := 0) (hL := fun _ _ => rfl)
    (G := fun c => Pipeline.PerCore.ghostOn (pcfgs (F := F)) (fun _ => adm) (embR (A := UR sig nD τ) (B := UR sig nD τ)) Finset.univ c)
    (u₀ := (initOf (Pipeline.cells cfgs cellOf_inj) (Pipeline.launchToks cfgs cellOf_inj), initOf (Pipeline.cells cfgs cellOf_inj) (Pipeline.launchToks cfgs cellOf_inj)))
    (hu₀ := by
      iintro Hu
      ihave H := (ownU_pair _ _) $$ Hu
      icases H with ⟨HL, HR⟩
      imod (Pipeline.fund_ghost cfgs (embR (A := UR sig nD τ) (B := UR sig nD τ)) cellOf_inj) $$ HR with ⟨Hg, Ht⟩
      imodintro
      isplitl [HL]; · iexact HL
      unfold Pipeline.PerCore.ghostOn
      simp only [bigSep_sep']
      isplitl [Hg]; · iexact Hg
      iexact Ht)
    (T₀ := fun c => (mainSeg m c).pre c) (Tₙ := Tn m)
    (hch := fun c => ⟨.rfl, .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      dsimp only [mainSeg]; unfold St
      iintro ⟨⟨Hh, -, HO, -, Hp, HG⟩, -⟩
      imodintro
      iframe HG
      iexists (W0 m c)
      isplitr; · ipureintro; exact fun _ _ => rfl
      isplitl [Hh]; · iexact Hh
      isplitl [Hp]; · iexists _; iexact Hp
      iexists ∅; iexact HO)
    (QY := fun c s => ∃ W : Valuation τ sig (Elt F), Keeps (W0 m c) W ∧ ∀ b ∈ Pipeline.ucRefs τ sig, s.mem (((c : Thread nD τ)).1, b) = W b)
    (hfin := fun c s' => by
      unfold Tn
      iintro ⟨⟨%W, %hW, Hh, -⟩, HSI⟩
      unfold StableHlo.held
      ihave H := (pointsTo_read_all (Pipeline.ucRefs τ sig) (fun b => (((c : Thread nD τ)).1, b)) W s') $$ [Hh HSI]
      · iframe
      icases H with ⟨%hr, HSI⟩
      imodintro
      iframe
      ipureintro; exact ⟨W, hW, hr⟩)
    (hQ := fun s h c => by
      obtain ⟨W, hW, hr⟩ := h c
      repeat' apply And.intro
      all_goals exact (hr _ (mem_uc _ (by decide))).trans (hW _ (by decide)))

end Cert.Kernel.Hand

end
-- ==== Proof.Spec.lean ====
import Idealize.ShloMosaic.PureOps.Ideal
import Idealize.ShloMosaic.PureOps.Ideal.Laws

noncomputable section

namespace Cert.Spec

open Idealize.ShloMosaic

abbrev w256 : EReal := Ideal.ofBits .f32 0x43800000#32
abbrev weps : EReal := Ideal.ofBits .f32 0x3727C5AC#32

variable {nin nout E n : Nat}

def denseLin (x : Fin 256 → Fin nin → EReal) (W : Fin nin → Fin nout → EReal) (p : Fin 256) (j : Fin nout) : EReal :=
  ∑ k : Fin nin, x p k * W k j

-- The edge list as a matrix: entry (k, j) is the total weight of the edges from input node k to output node j.
def scatW (ci : Fin E → Fin nin) (ri : Fin E → Fin nout) (w : Fin E → EReal) (k : Fin nin) (j : Fin nout) : EReal :=
  ∑ e ∈ Finset.univ.filter (fun e : Fin E => ci e = k ∧ ri e = j), w e

-- The sparse layer's linear part: output node j sums input times weight over the edges landing on j.
def sparseLin (x : Fin 256 → Fin nin → EReal) (ci : Fin E → Fin nin) (ri : Fin E → Fin nout) (w : Fin E → EReal)
    (p : Fin 256) (j : Fin nout) : EReal :=
  ∑ e ∈ Finset.univ.filter (fun e : Fin E => ri e = j), x p (ci e) * w e

def act (lin : Fin 256 → Fin n → EReal) (b : Fin n → EReal) (p : Fin 256) (j : Fin n) : EReal :=
  Ideal.tanh (lin p j + b j)

def mean (h : Fin 256 → Fin n → EReal) (j : Fin n) : EReal :=
  Ideal.div (∑ p : Fin 256, h p j) w256

def var (h : Fin 256 → Fin n → EReal) (j : Fin n) : EReal :=
  Ideal.div (∑ p : Fin 256, (h p j - mean h j) * (h p j - mean h j)) w256

-- Normalisation of each column over the 256 rows, then gain and shift.
def bn (h : Fin 256 → Fin n → EReal) (g bb : Fin n → EReal) (p : Fin 256) (j : Fin n) : EReal :=
  g j * (h p j - mean h j) * Ideal.rsqrt (var h j + weps) + bb j

def layer (x : Fin 256 → Fin nin → EReal) (ci : Fin E → Fin nin) (ri : Fin E → Fin nout) (w : Fin E → EReal)
    (b g bb : Fin nout → EReal) : Fin 256 → Fin nout → EReal :=
  bn (act (sparseLin x ci ri w) b) g bb

def IsReal₁ {α : Type} (f : α → EReal) : Prop := ∀ a, ∃ r : ℝ, f a = (r : EReal)
def IsReal₂ {α β : Type} (f : α → β → EReal) : Prop := ∀ a b, ∃ r : ℝ, f a b = (r : EReal)

-- The coercion from the reals commutes with finite sums.
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem w256_eq : w256 = ((256 : ℝ) : EReal) := by
  simp [Ideal.ofBits, Ideal.ieee, -EReal.coe_mul]; norm_num

theorem weps_eq : weps = ((10995116 * (2 : ℝ) ^ (-40 : Int) : ℝ) : EReal) := by
  simp [Ideal.ofBits, Ideal.ieee, -EReal.coe_mul]

theorem weps_pos : ∃ ε : ℝ, 0 < ε ∧ weps = (ε : EReal) :=
  ⟨10995116 * (2 : ℝ) ^ (-40 : Int), by positivity, weps_eq⟩

-- Grouping the edges landing on j by their source node turns the edge sum into the product with the scattered matrix.
theorem dense_eq_sparse_real (x : Fin nin → ℝ) (ci : Fin E → Fin nin) (ri : Fin E → Fin nout) (w : Fin E → ℝ)
    (j : Fin nout) :
    ∑ k : Fin nin, x k * (∑ e ∈ Finset.univ.filter (fun e : Fin E => ci e = k ∧ ri e = j), w e)
      = ∑ e ∈ Finset.univ.filter (fun e : Fin E => ri e = j), x (ci e) * w e := by
  classical
  rw [← Finset.sum_fiberwise (Finset.univ.filter fun e : Fin E => ri e = j) ci]
  refine Finset.sum_congr rfl fun k _ => ?_
  rw [Finset.mul_sum, Finset.filter_filter]
  refine Finset.sum_congr ?_ ?_
  · ext e
    simp only [Finset.mem_filter, Finset.mem_univ, true_and]
    exact and_comm
  · intro e he
    rw [(Finset.mem_filter.mp he).2.2]

-- Over finite values a factor distributes over a finite sum, so the real identity lifts to the extended reals.
theorem dense_eq_sparse (x : Fin 256 → Fin nin → EReal) (ci : Fin E → Fin nin) (ri : Fin E → Fin nout) (w : Fin E → EReal)
    (hx : IsReal₂ x) (hw : IsReal₁ w) : denseLin x (scatW ci ri w) = sparseLin x ci ri w := by
  choose xr hxr using hx
  choose wr hwr using hw
  funext p j
  simp only [denseLin, scatW, sparseLin, hxr, hwr, ← coe_sum, ← EReal.coe_mul]
  exact congrArg _ (dense_eq_sparse_real (xr p) ci ri wr j)

theorem sparseLin_real (x : Fin 256 → Fin nin → EReal) (ci : Fin E → Fin nin) (ri : Fin E → Fin nout) (w : Fin E → EReal)
    (hx : IsReal₂ x) (hw : IsReal₁ w) : IsReal₂ (sparseLin x ci ri w) := by
  choose xr hxr using hx
  choose wr hwr using hw
  intro p j
  refine ⟨∑ e ∈ Finset.univ.filter (fun e : Fin E => ri e = j), xr p (ci e) * wr e, ?_⟩
  simp only [sparseLin, hxr, hwr, ← coe_sum, ← EReal.coe_mul]

theorem act_real (lin : Fin 256 → Fin n → EReal) (b : Fin n → EReal) (hl : IsReal₂ lin) (hb : IsReal₁ b) :
    IsReal₂ (act lin b) := by
  intro p j
  obtain ⟨l, hl⟩ := hl p j
  obtain ⟨c, hc⟩ := hb j
  exact ⟨Real.tanh (l + c), by rw [act, hl, hc, ← EReal.coe_add, Ideal.tanh_coe]⟩

theorem mean_coe (h : Fin 256 → Fin n → ℝ) (j : Fin n) :
    mean (fun p j => (h p j : EReal)) j = (((∑ p : Fin 256, h p j) * (1 / 256) : ℝ) : EReal) := by
  rw [mean, ← coe_sum, w256_eq, Ideal.div_coe (by norm_num), ← EReal.coe_mul]

theorem var_coe (h : Fin 256 → Fin n → ℝ) (j : Fin n) :
    var (fun p j => (h p j : EReal)) j
      = (((∑ p : Fin 256, (h p j - (∑ q : Fin 256, h q j) * (1 / 256)) * (h p j - (∑ q : Fin 256, h q j) * (1 / 256)))
            * (1 / 256) : ℝ) : EReal) := by
  rw [var, mean_coe]
  simp only [← EReal.coe_sub, ← EReal.coe_mul, ← coe_sum]
  rw [w256_eq, Ideal.div_coe (by norm_num), ← EReal.coe_mul]

-- A variance is nonnegative, so the square root's argument is positive and the normalised value is a real number.
theorem bn_real (h : Fin 256 → Fin n → EReal) (g bb : Fin n → EReal) (hh : IsReal₂ h) (hg : IsReal₁ g) (hbb : IsReal₁ bb) :
    IsReal₂ (bn h g bb) := by
  choose hr hhr using hh
  obtain rfl : h = fun p j => (hr p j : EReal) := funext fun p => funext fun j => hhr p j
  intro p j
  obtain ⟨gr, hgr⟩ := hg j
  obtain ⟨br, hbr⟩ := hbb j
  obtain ⟨ε, hε, hweps⟩ := weps_pos
  set m : ℝ := (∑ q : Fin 256, hr q j) * (1 / 256) with hm
  set v : ℝ := (∑ q : Fin 256, (hr q j - m) * (hr q j - m)) * (1 / 256) with hv
  have hv0 : 0 ≤ v :=
    mul_nonneg (Finset.sum_nonneg fun q _ => mul_self_nonneg _) (by norm_num)
  have hpos : 0 < v + ε := by linarith
  refine ⟨gr * (hr p j - m) * (Real.sqrt (v + ε))⁻¹ + br, ?_⟩
  rw [bn, var_coe, mean_coe, hweps, hgr, hbr, ← EReal.coe_add, Ideal.rsqrt_coe,
    if_neg (not_lt.mpr hpos.le), if_neg hpos.ne', ← EReal.coe_sub, ← EReal.coe_mul, ← EReal.coe_mul,
    ← EReal.coe_add]

theorem layer_real (x : Fin 256 → Fin nin → EReal) (ci : Fin E → Fin nin) (ri : Fin E → Fin nout) (w : Fin E → EReal)
    (b g bb : Fin nout → EReal) (hx : IsReal₂ x) (hw : IsReal₁ w) (hb : IsReal₁ b) (hg : IsReal₁ g) (hbb : IsReal₁ bb) :
    IsReal₂ (layer x ci ri w b g bb) :=
  bn_real _ _ _ (act_real _ _ (sparseLin_real x ci ri w hx hw) hb) hg hbb

end Cert.Spec

end
-- ==== Proof.IBodyLib.lean ====
import Idealize.ShloMosaic.Lib.Pipeline.Value
import Idealize.ShloMosaic.Lib.StackMember
import Idealize.ShloMosaic.Lib.ValueIdx
import Idealize.ShloMosaic.Lib.ValueLayout
import Idealize.ShloMosaic.PureOps.Ideal
import Idealize.ShloMosaic.PureOps.Ideal.Laws
import proofs.«161050_j60275571032433_1_alg».proof.Proof.Spec

noncomputable section

namespace Cert.KernelIdeal.Hand

open Idealize.ShloMosaic Idealize.ShloMosaic.ValueIdx

theorem zero2 : (![0, 0] : Fin 2 → Nat) = fun _ => 0 := funext fun a => by fin_cases a <;> rfl

theorem tanh_apply {s : Shape} {φ : FTy} (X : FVec Ideal s φ) (i : s.Idx) : tanh X i = Ideal.tanh (X i) := rfl
theorem rsqrt_apply {s : Shape} {φ : FTy} (X : FVec Ideal s φ) (i : s.Idx) : rsqrt X i = Ideal.rsqrt (X i) := rfl

/-- At an index of the filled part, a block filled from an array holds the array's entry at block index times block size plus the index. -/
theorem fill_read_apply {sig : RefSig} {G : Pipeline.Grid} (w : Pipeline.Window sig G) {α : Type} (t : Fin G.N) (d : w.block.Idx → α)
    (X : w.shape.Idx → α) (j : w.block.Idx) (hm : w.moved (G.coords t) j = true) (i : w.shape.Idx)
    (hi : ∀ a, (i a).val = w.index t a * w.size a + (j a).val) :
    w.fill (G.coords t) d (fun y => X ((w.rect t).emb y)) j = X i := by
  unfold Pipeline.Window.fill
  rw [dif_pos hm]
  exact congrArg X (funext fun a => Fin.ext ((w.rect_emb_val t _ a).trans (hi a).symm))

/-- From the zero accumulator, entry `(p, q)` of a matrix product is `∑ c, A p c * B c q`. -/
theorem mm_apply {m k n : Nat} {φ₁ φ₂ : FTy} (A : FVec Ideal ⟨2, ![m, k]⟩ φ₁) (B : FVec Ideal ⟨2, ![k, n]⟩ φ₂) (p : Fin m) (q : Fin n) :
    matmul (DotDims.plain m k n) none A B (constant (F := Ideal) ⟨2, ![m, n]⟩ .f32 0x00000000#32) (ix2 p q)
      = ∑ c : Fin k, A (ix2 p c) * B (ix2 c q) :=
  (Ideal.matmul_constant_zero_apply _ none A B (ix2 p q)).trans
    ((Ideal.dotGeneral_apply (DotDims.plain m k n) none default A B (ix2 p q)).symm.trans (StackMember.dotGeneral_plain_apply none A B p q))

/-- Reducing a matrix over its first axis gives, in column `q`, the sum of that column's entries. -/
theorem colsum_apply {m n : Nat} (X : FVec Ideal ⟨2, ![m, n]⟩ .f32) (h : Shape.Reduces ⟨2, ![m, n]⟩ [0] ⟨1, ![n]⟩) (hφ : FTy.f32 = FTy.f32 ∨ FTy.f32 = FTy.bf16)
    (hacc : (0x00000000#32 : BitVec 32) = 0x00000000#32) (q : Fin n) :
    multiReduction (F := Ideal) .add [0] ⟨1, ![n]⟩ X 0x00000000#32 h hφ hacc (ix1 q) = ∑ p : Fin m, X (ix2 p q) := by
  refine (Ideal.multiReduction_add_single X 0x00000000#32 h hφ hacc (ix1 q)).trans ?_
  refine Finset.sum_congr rfl fun k _ => congrArg X ?_
  funext ax; apply Fin.ext
  match ax with
  | ⟨0, _⟩ => rw [Shape.Reduces.lift_val]; simp [Shape.Reduces.liftVal]
  | ⟨1, _⟩ => rw [Shape.Reduces.lift_val]; simp [Shape.Reduces.liftVal]

section Layer

variable {nin n : Nat} (hX : Shape.ShapeCasts ⟨2, ![256, nin]⟩ ⟨2, ![256, nin]⟩) (hW : Shape.ShapeCasts ⟨2, ![nin, n]⟩ ⟨2, ![nin, n]⟩)
  (hR : Shape.ShapeCasts ⟨2, ![1, n]⟩ ⟨2, ![1, n]⟩) (hb : Shape.Broadcasts ⟨2, ![1, n]⟩ ⟨2, ![256, n]⟩)
  (hr : Shape.Reduces ⟨2, ![256, n]⟩ [0] ⟨1, ![n]⟩) (hs : Shape.ShapeCasts ⟨1, ![n]⟩ ⟨2, ![1, n]⟩)
  (v0 : FVec Ideal ⟨2, ![256, nin]⟩ .bf16) (v2 : FVec Ideal ⟨2, ![nin, n]⟩ .bf16) (v5 v21 v32 : FVec Ideal ⟨2, ![1, n]⟩ .f32)

/-- One layer as a chain of array operations: the batch-normalised `tanh` of the product plus the bias row. -/
def layerPay : FVec Ideal ⟨2, ![256, n]⟩ .f32 :=
  have v9 := tanh (addf (matmul (DotDims.plain 256 nin n) none (shapeCast _ v0 hX) (shapeCast _ v2 hW) (constant _ .f32 0x00000000#32))
    (broadcastTo _ (shapeCast _ v5 hR) hb))
  have v13 : FVec Ideal ⟨2, ![1, n]⟩ .f32 := divf (shapeCast _ (multiReduction .add [0] ⟨1, ![n]⟩ v9 0x00000000#32 hr (.inl rfl) rfl) hs)
    (broadcast _ (Scalar.ofBits .f32 0x43800000#32))
  have v15 := subf v9 (broadcastTo _ v13 hb)
  have v20 : FVec Ideal ⟨2, ![1, n]⟩ .f32 := divf (shapeCast _ (multiReduction .add [0] ⟨1, ![n]⟩ (mulf v15 v15) 0x00000000#32 hr (.inl rfl) rfl) hs)
    (broadcast _ (Scalar.ofBits .f32 0x43800000#32))
  addf (mulf (mulf (broadcastTo _ (shapeCast _ v21 hR) hb) (subf v9 (broadcastTo _ v13 hb)))
      (broadcastTo _ (rsqrt (addf v20 (broadcast _ (Scalar.ofBits .f32 0x3727C5AC#32)))) hb))
    (broadcastTo _ (shapeCast _ v32 hR) hb)

/-- At an entry the chain is the specification's layer: each operation read at the index, the reductions as sums. -/
theorem layerPay_apply (p : Fin 256) (q : Fin n) :
    layerPay hX hW hR hb hr hs v0 v2 v5 v21 v32 (ix2 p q)
      = Cert.Spec.bn (Cert.Spec.act (Cert.Spec.denseLin (fun p k => v0 (ix2 p k)) (fun k j => v2 (ix2 k j))) (fun j => v5 (ix2 0 j)))
          (fun j => v21 (ix2 0 j)) (fun j => v32 (ix2 0 j)) p q := by
  unfold layerPay
  iterate 4
    simp only [addf_apply, mulf_apply, subf_apply, divf_apply, broadcastTo_1b_ab_apply, shapeCast_self, shapeCast_a_1a_apply, mm_apply, broadcast_apply, tanh_apply, rsqrt_apply]
    try rw [colsum_apply]
  rfl

end Layer

/-- Entry `(p, q)` of a layer depends on the weight matrix, bias, gain and shift only through their column `q`. -/
theorem layer_col {nin n n' : Nat} (x x' : Fin 256 → Fin nin → EReal) (W : Fin nin → Fin n → EReal) (W' : Fin nin → Fin n' → EReal)
    (b g s : Fin n → EReal) (b' g' s' : Fin n' → EReal) (p p' : Fin 256) (q : Fin n) (j : Fin n')
    (hx : ∀ r k, x r k = x' r k) (hp : p = p') (hW : ∀ k, W k q = W' k j) (hb : b q = b' j) (hg : g q = g' j) (hs : s q = s' j) :
    Cert.Spec.bn (Cert.Spec.act (Cert.Spec.denseLin x W) b) g s p q = Cert.Spec.bn (Cert.Spec.act (Cert.Spec.denseLin x' W') b') g' s' p' j := by
  subst hp
  unfold Cert.Spec.bn Cert.Spec.var Cert.Spec.mean Cert.Spec.act Cert.Spec.denseLin
  simp only [hx, hW, hb, hg, hs]

end Cert.KernelIdeal.Hand

end
-- ==== Proof.IBody0.lean ====
import proofs.«161050_j60275571032433_1_alg».proof.Proof.Gen.KernelIdeal.Launch
import proofs.«161050_j60275571032433_1_alg».proof.Proof.Gen.KernelIdeal.Skeleton
import proofs.«161050_j60275571032433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161050_j60275571032433_1_alg».proof.Proof.IBodyLib

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev rX0 : Rect S256x6000 := Rect.unit (s := S256x6000) ![0, 0] S256x6000.size inb_S256x6000_S256x6000_0_0
abbrev rW0 : Rect S6000x1024 := Rect.unit (s := S6000x1024) ![0, 0] S6000x1024.size inb_S6000x1024_S6000x1024_0_0
abbrev rB0 : Rect S1x1024 := Rect.unit (s := S1x1024) ![0, 0] S1x1024.size inb_S1x1024_S1x1024_0_0
abbrev rO0 : Rect S256x1024 := Rect.unit (s := S256x1024) ![0, 0] S256x1024.size inb_S256x1024_S256x1024_0_0

noncomputable def out0 (x1 : Vec Ideal S256x6000 .bf16) (x2 : Vec Ideal S6000x1024 .bf16) (x3 x4 x5 : Vec Ideal S1x1024 .f32) : Vec Ideal S256x1024 .f32 :=
  View.canon [⟨rO0, k0_pay1 (F := Ideal) (View.ld x1 rX0) (View.ld x2 rW0) (View.ld x3 rB0) (View.ld x4 rB0) (View.ld x5 rB0)⟩]

theorem cover_out0 (p0 : Vec Ideal S256x1024 .f32) (y : S256x1024.Idx) :
    ∃ pc ∈ ([⟨rO0, p0⟩] : List (View.Piece (Elt Ideal) S256x1024 .f32)), y ∈ pc.1.set :=
  ⟨_, List.mem_singleton_self _, View.mem_set_unit_zero zero2 inb_S256x1024_S256x1024_0_0 y⟩

theorem out0_eq (x1 : Vec Ideal S256x6000 .bf16) (x2 : Vec Ideal S6000x1024 .bf16) (x3 x4 x5 : Vec Ideal S1x1024 .f32) :
    out0 x1 x2 x3 x4 x5 = k0_pay1 (F := Ideal) x1 x2 x3 x4 x5 := by
  unfold out0
  rw [View.canon_unit_zero zero2]
  simp only [View.ld_unit_zero (S := S256x6000) zero2, View.ld_unit_zero (S := S6000x1024) zero2, View.ld_unit_zero (S := S1x1024) zero2]

set_option maxHeartbeats 1000000 in
theorem sound_kernel0 (c : Dev nD) (E : Set ℕ) (i : grid0.Coords) (arg1 : Memref sig .tc .vmem S256x6000 .bf16) (harg1 : arg1.IsWhole) (arg2 : Memref sig .tc .vmem S6000x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x1024 .f32) (harg6 : arg6.IsWhole)
    (x1 : Vec Ideal S256x6000 .bf16) (x2 : Vec Ideal S6000x1024 .bf16) (x3 x4 x5 : Vec Ideal S1x1024 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k0_pay1 (F := Ideal) x1 x2 x3 x4 x5)) -∗ K ⟨⟩))
      ⊢ wp frame (wpE (defs₀ (F := Ideal)) Variants.none c none) E (cc0__sparse_layer_kernel i arg1 harg1 arg2 harg2 arg3 harg3 arg4 harg4 arg5 harg5 arg6 harg6) K := by
  rw [← out0_eq]
  simp only [cc0__sparse_layer_kernel_eq_skeleton]; unfold cc0__sparse_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out0 _)

variable (V : (c : Dev nD) → (b : Ref sig .tc) → Buf (Elt Ideal) ((c : Thread nD τ).loc b))

noncomputable def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

noncomputable def fx0 (c : Dev nD) (t : Fin cfg0.N) : Vec Ideal S256x6000 .bf16 := iblk0 V c 0 t
noncomputable def fw0 (c : Dev nD) (t : Fin cfg0.N) : Vec Ideal S6000x1024 .bf16 :=
  win0_1.fill (grid0.coords t) (fun _ => (0 : EReal)) (iblk0 V c 1 t)
noncomputable def fb0 (c : Dev nD) (t : Fin cfg0.N) : Vec Ideal S1x1024 .f32 :=
  win0_2.fill (grid0.coords t) (fun _ => (0 : EReal)) (iblk0 V c 2 t)
noncomputable def fg0 (c : Dev nD) (t : Fin cfg0.N) : Vec Ideal S1x1024 .f32 :=
  win0_3.fill (grid0.coords t) (fun _ => (0 : EReal)) (iblk0 V c 3 t)
noncomputable def fs0 (c : Dev nD) (t : Fin cfg0.N) : Vec Ideal S1x1024 .f32 :=
  win0_4.fill (grid0.coords t) (fun _ => (0 : EReal)) (iblk0 V c 4 t)

noncomputable def aft0 (V : (c : Dev nD) → (b : Ref sig .tc) → Buf (Elt Ideal) ((c : Thread nD τ).loc b)) (c : Dev nD) (w : Fin cfg0.W) (t : Fin cfg0.N) : (cfg0.win w).block.Idx → Elt Ideal (cfg0.win w).elt :=
  match w with
  | ⟨0, _⟩ => fx0 V c t
  | ⟨1, _⟩ => fw0 V c t
  | ⟨2, _⟩ => fb0 V c t
  | ⟨3, _⟩ => fg0 V c t
  | ⟨4, _⟩ => fs0 V c t
  | ⟨5, _⟩ => k0_pay1 (F := Ideal) (fx0 V c t) (fw0 V c t) (fb0 V c t) (fg0 V c t) (fs0 V c t)

noncomputable def dat0 (c : Dev nD) : Dat τ (Elt Ideal) Unit ℕ (UR sig nD τ) ℕ cfg0 c where
  A w := V c (Pipeline.arrRef spec0 w)
  after := aft0 V c
  Φ _ := Pipeline.ΦA spec0 c
  q _ := fullShare
  owed _ := 0

theorem after0_0 (c : Dev nD) (t : Fin cfg0.N) : (dat0 V c).after 0 t = fx0 V c t := by dsimp only [dat0, aft0]
theorem after0_1 (c : Dev nD) (t : Fin cfg0.N) : (dat0 V c).after 1 t = fw0 V c t := by dsimp only [dat0, aft0]
theorem after0_2 (c : Dev nD) (t : Fin cfg0.N) : (dat0 V c).after 2 t = fb0 V c t := by dsimp only [dat0, aft0]
theorem after0_3 (c : Dev nD) (t : Fin cfg0.N) : (dat0 V c).after 3 t = fg0 V c t := by dsimp only [dat0, aft0]
theorem after0_4 (c : Dev nD) (t : Fin cfg0.N) : (dat0 V c).after 4 t = fs0 V c t := by dsimp only [dat0, aft0]
theorem after0_5 (c : Dev nD) (t : Fin cfg0.N) :
    (dat0 V c).after 5 t = k0_pay1 (F := Ideal) (fx0 V c t) (fw0 V c t) (fb0 V c t) (fg0 V c t) (fs0 V c t) := by dsimp only [dat0, aft0]

theorem before0_0 (c : Dev nD) (t : Fin cfg0.N) (d) : (dat0 V c).before 0 t d = fx0 V c t :=
  (dat0 V c).before_in_eq_fetched 0 rfl (fun _ => rfl) (fun _ _ _ => rfl) (fun _ => rfl) t d

theorem before0_1 (c : Dev nD) (t : Fin cfg0.N) (d) :
    (dat0 V c).before 1 t d = win0_1.fill (grid0.coords t) d (iblk0 V c 1 t) := (dat0 V c).before_fetched 1 t (fetch0_1 t) d
theorem before0_2 (c : Dev nD) (t : Fin cfg0.N) (d) :
    (dat0 V c).before 2 t d = win0_2.fill (grid0.coords t) d (iblk0 V c 2 t) := (dat0 V c).before_fetched 2 t (fetch0_2 t) d
theorem before0_3 (c : Dev nD) (t : Fin cfg0.N) (d) :
    (dat0 V c).before 3 t d = win0_3.fill (grid0.coords t) d (iblk0 V c 3 t) := (dat0 V c).before_fetched 3 t (fetch0_3 t) d
theorem before0_4 (c : Dev nD) (t : Fin cfg0.N) (d) :
    (dat0 V c).before 4 t d = win0_4.fill (grid0.coords t) d (iblk0 V c 4 t) := (dat0 V c).before_fetched 4 t (fetch0_4 t) d

theorem before0_5 (c : Dev nD) (t : Fin cfg0.N) (d) : (dat0 V c).before 5 t d = d := by
  refine (dat0 V c).before_out_reset 5 rfl t ?_ d
  by_cases h : t.val = 0
  · exact .inl h
  · exact .inr ⟨h, flush0_5 _⟩

theorem xs_facts0 : ∀ t : Fin cfg0.N,
    win0_1.xsize (grid0.coords t) (0 : Fin 2) = 6000 ∧ win0_1.xsize (grid0.coords t) (1 : Fin 2) = win0_5.xsize (grid0.coords t) (1 : Fin 2)
    ∧ win0_2.xsize (grid0.coords t) (0 : Fin 2) = 1 ∧ win0_2.xsize (grid0.coords t) (1 : Fin 2) = win0_5.xsize (grid0.coords t) (1 : Fin 2)
    ∧ win0_3.xsize (grid0.coords t) (0 : Fin 2) = 1 ∧ win0_3.xsize (grid0.coords t) (1 : Fin 2) = win0_5.xsize (grid0.coords t) (1 : Fin 2)
    ∧ win0_4.xsize (grid0.coords t) (0 : Fin 2) = 1 ∧ win0_4.xsize (grid0.coords t) (1 : Fin 2) = win0_5.xsize (grid0.coords t) (1 : Fin 2) :=
  (by decide +kernel : ∀ t : Fin grid0.N, _)

theorem xinj0_5 (t : Fin cfg0.N) (y : (win0_5.xblock (grid0.coords t)).Idx) :
    ∃ (p : Fin 256) (q : Fin 1024), (win0_5.xinj (grid0.coords t) y : S256x1024.Idx) = ix2 p q
      ∧ q.val < win0_5.xsize (grid0.coords t) (1 : Fin 2) ∧ p.val = (y 0).val ∧ q.val = (y 1).val :=
  ⟨⟨(y 0).val, Nat.lt_of_lt_of_le (y 0).isLt (win0_5.xsize_le (grid0.coords t) 0)⟩, ⟨(y 1).val, Nat.lt_of_lt_of_le (y 1).isLt (win0_5.xsize_le (grid0.coords t) 1)⟩,
    funext (fun a => match a with | ⟨0, _⟩ => rfl | ⟨1, _⟩ => rfl), (y 1).isLt, rfl, rfl⟩

theorem idx_facts0 : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_5.xsize (grid0.coords t) (0 : Fin 2) = 256
    ∧ win0_5.xsize (grid0.coords t) (1 : Fin 2) = min 1024 (12000 - t.val * 1024) :=
  (by decide +kernel : ∀ t : Fin grid0.N, _)

theorem fx0_apply (c : Dev nD) (t : Fin cfg0.N) (r : Fin 256) (k : Fin 6000) :
    fx0 V c t (ix2 r k) = (V c main_v20 : S256x6000.Idx → EReal) (ix2 r k) := by
  show (V c main_v20 : S256x6000.Idx → EReal) (((cfg0.win 0).blk t).view.emb (ix2 r k)) = _
  have h : ∀ a : Fin 2, win0_0.index t a = 0 := Fin.forall_fin_two.mpr ⟨(idx_facts0 t).1, (idx_facts0 t).2.1⟩
  exact congrArg _ (funext fun a => Fin.ext (win0_0.rect_emb_val_of_index_zero t a (h a) _))

theorem fin0_apply (c : Dev nD) (t : Fin cfg0.N) (d1 : S6000x1024.Idx → EReal) (d2 d3 d4 : S1x1024.Idx → EReal) (q : Fin 1024)
    (hq : q.val < win0_5.xsize (grid0.coords t) (1 : Fin 2)) (j : Fin 12000) (hj : j.val = win0_5.index t (1 : Fin 2) * 1024 + q.val) :
    (∀ k : Fin 6000, win0_1.fill (grid0.coords t) d1 (iblk0 V c 1 t) (ix2 k q) = (V c main_v21 : S6000x12000.Idx → EReal) (ix2 k j))
    ∧ win0_2.fill (grid0.coords t) d2 (iblk0 V c 2 t) (ix2 (0 : Fin 1) q) = (V c main_v17 : S1x12000.Idx → EReal) (ix2 (0 : Fin 1) j)
    ∧ win0_3.fill (grid0.coords t) d3 (iblk0 V c 3 t) (ix2 (0 : Fin 1) q) = (V c main_v18 : S1x12000.Idx → EReal) (ix2 (0 : Fin 1) j)
    ∧ win0_4.fill (grid0.coords t) d4 (iblk0 V c 4 t) (ix2 (0 : Fin 1) q) = (V c main_v19 : S1x12000.Idx → EReal) (ix2 (0 : Fin 1) j) := by
  obtain ⟨-, -, e10, e11, e20, e21, e30, e31, e40, e41, -, e51, -⟩ := idx_facts0 t
  obtain ⟨a0, a1, b0, b1, c0, c1, s0, s1⟩ := xs_facts0 t
  refine ⟨fun k => fill_read_apply win0_1 t d1 _ _ ((win0_1.moved_iff _ _).mpr (Fin.forall_fin_two.mpr ⟨k.isLt.trans_eq a0.symm, hq.trans_eq a1.symm⟩))
      _ (Fin.forall_fin_two.mpr ⟨?_, ?_⟩),
    fill_read_apply win0_2 t d2 _ _ ((win0_2.moved_iff _ _).mpr (Fin.forall_fin_two.mpr ⟨Nat.one_pos.trans_eq b0.symm, hq.trans_eq b1.symm⟩))
      _ (Fin.forall_fin_two.mpr ⟨?_, ?_⟩),
    fill_read_apply win0_3 t d3 _ _ ((win0_3.moved_iff _ _).mpr (Fin.forall_fin_two.mpr ⟨Nat.one_pos.trans_eq c0.symm, hq.trans_eq c1.symm⟩))
      _ (Fin.forall_fin_two.mpr ⟨?_, ?_⟩),
    fill_read_apply win0_4 t d4 _ _ ((win0_4.moved_iff _ _).mpr (Fin.forall_fin_two.mpr ⟨Nat.one_pos.trans_eq s0.symm, hq.trans_eq s1.symm⟩))
      _ (Fin.forall_fin_two.mpr ⟨?_, ?_⟩)⟩
  · show k.val = win0_1.index t (0 : Fin 2) * 6000 + k.val; omega
  · show j.val = win0_1.index t (1 : Fin 2) * 1024 + q.val; omega
  · show (0 : ℕ) = win0_2.index t (0 : Fin 2) * 1 + 0; omega
  · show j.val = win0_2.index t (1 : Fin 2) * 1024 + q.val; omega
  · show (0 : ℕ) = win0_3.index t (0 : Fin 2) * 1 + 0; omega
  · show j.val = win0_3.index t (1 : Fin 2) * 1024 + q.val; omega
  · show (0 : ℕ) = win0_4.index t (0 : Fin 2) * 1 + 0; omega
  · show j.val = win0_4.index t (1 : Fin 2) * 1024 + q.val; omega

noncomputable def G0 (c : Dev nD) : S256x12000.Idx → EReal := fun i =>
  Cert.Spec.bn (Cert.Spec.act (Cert.Spec.denseLin (fun p k => (V c main_v20 : S256x6000.Idx → EReal) (ix2 p k))
      (fun k j => (V c main_v21 : S6000x12000.Idx → EReal) (ix2 k j))) (fun j => (V c main_v17 : S1x12000.Idx → EReal) (ix2 0 j)))
    (fun j => (V c main_v18 : S1x12000.Idx → EReal) (ix2 0 j)) (fun j => (V c main_v19 : S1x12000.Idx → EReal) (ix2 0 j)) (i 0) (i 1)

theorem cut_val0 (c : Dev nD) (t : Fin cfg0.N) (d1 : S6000x1024.Idx → EReal) (d2 d3 d4 : S1x1024.Idx → EReal) :
    win0_5.cut (grid0.coords t) (k0_pay1 (F := Ideal) (fx0 V c t) (win0_1.fill (grid0.coords t) d1 (iblk0 V c 1 t))
        (win0_2.fill (grid0.coords t) d2 (iblk0 V c 2 t)) (win0_3.fill (grid0.coords t) d3 (iblk0 V c 3 t))
        (win0_4.fill (grid0.coords t) d4 (iblk0 V c 4 t)))
      = ((cfg0.win 5).blk t).view.read (Elt Ideal) (G0 V c) := by
  obtain ⟨-, -, -, -, -, -, -, -, -, -, e50, e51, -⟩ := idx_facts0 t
  funext y
  obtain ⟨p, q, e, hq, hp0, hq1⟩ := xinj0_5 t y
  show (k0_pay1 (F := Ideal) _ _ _ _ _ : S256x1024.Idx → EReal) (win0_5.xinj (grid0.coords t) y : S256x1024.Idx)
    = G0 V c (((cfg0.win 5).blk t).view.emb y)
  rw [e]
  refine (layerPay_apply shapeCasts_S256x6000_S256x6000 shapeCasts_S6000x1024_S6000x1024 shapeCasts_S1x1024_S1x1024 broadcasts_S1x1024_S256x1024
    reduces_S256x1024_S1024 shapeCasts_S1024_S1x1024 _ _ _ _ _ p q).trans ?_
  have hj : ((((cfg0.win 5).blk t).view.emb y : S256x12000.Idx) 1).val = win0_5.index t (1 : Fin 2) * 1024 + q.val := by
    show win0_5.index t (1 : Fin 2) * 1024 + 1 * (y 1).val = _; omega
  have hp : p = (((cfg0.win 5).blk t).view.emb y : S256x12000.Idx) 0 := Fin.ext (by
    show p.val = win0_5.index t (0 : Fin 2) * 256 + 1 * (y 0).val; omega)
  obtain ⟨hW, hb, hg, hs⟩ := fin0_apply V c t d1 d2 d3 d4 q hq _ hj
  exact layer_col _ _ _ _ _ _ _ _ _ _ p _ q _ (fun r k => fx0_apply V c t r k) hp hW hb hg hs

noncomputable def bodyPre0 (c : Dev nD) (t : Fin cfg0.N) : sProp 𝕄 :=
  let B (w : Fin cfg0.W) : sProp 𝕄 := iprop(∃ d, owns (c : Thread nD τ) ((cfg0.win w).stage (cfg0.slots t w)) fullShare ((dat0 V c).before w t d))
  iprop((dat0 V c).Φ t.castSucc ∗ (dat0 V c).owesAt () t.castSucc ∗ B 0 ∗ B 1 ∗ B 2 ∗ B 3 ∗ B 4 ∗ B 5)

noncomputable def bodyPost0 (c : Dev nD) (t : Fin cfg0.N) : sProp 𝕄 :=
  let A (w : Fin cfg0.W) : sProp 𝕄 := iprop(∃ d, owns (c : Thread nD τ) ((cfg0.win w).stage (cfg0.slots t w)) fullShare
    ((cfg0.win w).fill (cfg0.grid.coords t) d ((cfg0.win w).cut (cfg0.grid.coords t) ((dat0 V c).after w t))))
  iprop((dat0 V c).Φ t.succ ∗ (dat0 V c).owesAt () t.succ ∗ owns (c : Thread nD τ) (st0_0 t) fullShare ((dat0 V c).after 0 t) ∗ A 1 ∗ A 2 ∗ A 3 ∗ A 4 ∗ A 5)

set_option maxHeartbeats 4000000 in
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold fw0 fb0 fg0 fs0
  rw [win0_1.cut_fill, win0_2.cut_fill, win0_3.cut_fill, win0_4.cut_fill]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (fx0 V c t) (win0_1.fill (grid0.coords t) d1 (iblk0 V c 1 t))
    (win0_2.fill (grid0.coords t) d2 (iblk0 V c 2 t)) (win0_3.fill (grid0.coords t) d3 (iblk0 V c 3 t))
    (win0_4.fill (grid0.coords t) d4 (iblk0 V c 4 t)) _)
  isplitl [H0]; · iexact H0
  isplitl [H1]; · iexact H1
  isplitl [H2]; · iexact H2
  isplitl [H3]; · iexact H3
  isplitl [H4]; · iexact H4
  isplitl [H5]; · iexists d5; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists _
  rw [win0_5.fill_congr_cut (grid0.coords t) ((cut_val0 V c t d1 d2 d3 d4).trans (cut_val0 V c t _ _ _ _).symm)]
  iexact H5

theorem body_obligation0 (c : Dev nD) :
    BodyObligationLoose (dat0 V c) (defs₀ (F := Ideal)) Variants.none () Set.univ := fun t => by
  rw [bigSep_W0, bigSep_W0]
  exact sound_body0 V c t

theorem final0 (c : Dev nD) : (dat0 V c).arrAt 5 cfg0.N = G0 V c :=
  (dat0 V c).arrAt_eq_of_cover 5 (G0 V c) (fun t _ => cut_val0 V c t _ _ _ _) (fun i => by
    have hi0 : (i 0).val < 256 := (i 0).isLt
    have hi1 : (i 1).val < 12000 := (i 1).isLt
    obtain ⟨t, ht⟩ : ∃ t : Fin cfg0.N, t.val = (i 1).val / 1024 :=
      ⟨⟨(i 1).val / 1024, by show (i 1).val / 1024 < grid0.N; rw [N_0]; omega⟩, rfl⟩
    obtain ⟨-, -, -, -, -, -, -, -, -, -, e50, e51, x0, x1⟩ := idx_facts0 t
    refine ⟨t, flush0_5 t, ?_⟩
    show i ∈ ((View.whole main_v22).slice (win0_5.rect t)).set
    rw [View.set_slice_whole, Rect.mem_set_unit]
    intro a
    match a with
    | ⟨0, _⟩ => show win0_5.index t (0 : Fin 2) * 256 ≤ (i 0).val ∧ (i 0).val < win0_5.index t (0 : Fin 2) * 256 + win0_5.xsize (grid0.coords t) (0 : Fin 2); omega
    | ⟨1, _⟩ => show win0_5.index t (1 : Fin 2) * 1024 ≤ (i 1).val ∧ (i 1).val < win0_5.index t (1 : Fin 2) * 1024 + win0_5.xsize (grid0.coords t) (1 : Fin 2); omega)

theorem out0_apply (c : Dev nD) (p : Fin 256) (j : Fin 12000) :
    ((dat0 V c).arrAt 5 cfg0.N : S256x12000.Idx → EReal) (ValueIdx.ix2 p j)
      = Cert.Spec.bn (Cert.Spec.act (Cert.Spec.denseLin (fun p k => (V c main_v20 : S256x6000.Idx → EReal) (ValueIdx.ix2 p k))
          (fun k j => (V c main_v21 : S6000x12000.Idx → EReal) (ValueIdx.ix2 k j))) (fun j => (V c main_v17 : S1x12000.Idx → EReal) (ValueIdx.ix2 0 j)))
        (fun j => (V c main_v18 : S1x12000.Idx → EReal) (ValueIdx.ix2 0 j)) (fun j => (V c main_v19 : S1x12000.Idx → EReal) (ValueIdx.ix2 0 j)) p j := by
  rw [final0]; rfl

end Cert.KernelIdeal.Hand

end
-- ==== Proof.IBody1.lean ====
import proofs.«161050_j60275571032433_1_alg».proof.Proof.Gen.KernelIdeal.Launch
import proofs.«161050_j60275571032433_1_alg».proof.Proof.Gen.KernelIdeal.Skeleton
import proofs.«161050_j60275571032433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161050_j60275571032433_1_alg».proof.Proof.IBodyLib

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev rX1 : Rect S256x12000 := Rect.unit (s := S256x12000) ![0, 0] S256x12000.size inb_S256x12000_S256x12000_0_0
abbrev rW1 : Rect S12000x384 := Rect.unit (s := S12000x384) ![0, 0] S12000x384.size inb_S12000x384_S12000x384_0_0
abbrev rB1 : Rect S1x384 := Rect.unit (s := S1x384) ![0, 0] S1x384.size inb_S1x384_S1x384_0_0
abbrev rO1 : Rect S256x384 := Rect.unit (s := S256x384) ![0, 0] S256x384.size inb_S256x384_S256x384_0_0

noncomputable def out1 (x1 : Vec Ideal S256x12000 .bf16) (x2 : Vec Ideal S12000x384 .bf16) (x3 x4 x5 : Vec Ideal S1x384 .f32) : Vec Ideal S256x384 .f32 :=
  View.canon [⟨rO1, k1_pay1 (F := Ideal) (View.ld x1 rX1) (View.ld x2 rW1) (View.ld x3 rB1) (View.ld x4 rB1) (View.ld x5 rB1)⟩]

theorem cover_out1 (p0 : Vec Ideal S256x384 .f32) (y : S256x384.Idx) :
    ∃ pc ∈ ([⟨rO1, p0⟩] : List (View.Piece (Elt Ideal) S256x384 .f32)), y ∈ pc.1.set :=
  ⟨_, List.mem_singleton_self _, View.mem_set_unit_zero zero2 inb_S256x384_S256x384_0_0 y⟩

theorem out1_eq (x1 : Vec Ideal S256x12000 .bf16) (x2 : Vec Ideal S12000x384 .bf16) (x3 x4 x5 : Vec Ideal S1x384 .f32) :
    out1 x1 x2 x3 x4 x5 = k1_pay1 (F := Ideal) x1 x2 x3 x4 x5 := by
  unfold out1
  rw [View.canon_unit_zero zero2]
  simp only [View.ld_unit_zero (S := S256x12000) zero2, View.ld_unit_zero (S := S12000x384) zero2, View.ld_unit_zero (S := S1x384) zero2]

set_option maxHeartbeats 1000000 in
theorem sound_kernel1 (c : Dev nD) (E : Set ℕ) (i : grid1.Coords) (arg1 : Memref sig .tc .vmem S256x12000 .bf16) (harg1 : arg1.IsWhole) (arg2 : Memref sig .tc .vmem S12000x384 .bf16) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .f32) (harg6 : arg6.IsWhole)
    (x1 : Vec Ideal S256x12000 .bf16) (x2 : Vec Ideal S12000x384 .bf16) (x3 x4 x5 : Vec Ideal S1x384 .f32)
    (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (k1_pay1 (F := Ideal) x1 x2 x3 x4 x5)) -∗ K ⟨⟩))
      ⊢ wp frame (wpE (defs₀ (F := Ideal)) Variants.none c none) E (cc1__sparse_layer_kernel i arg1 harg1 arg2 harg2 arg3 harg3 arg4 harg4 arg5 harg5 arg6 harg6) K := by
  rw [← out1_eq]
  simp only [cc1__sparse_layer_kernel_eq_skeleton]; unfold cc1__sparse_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out1 _)

variable (V : (c : Dev nD) → (b : Ref sig .tc) → Buf (Elt Ideal) ((c : Thread nD τ).loc b))

noncomputable def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

noncomputable def fx1 (c : Dev nD) (t : Fin cfg1.N) : Vec Ideal S256x12000 .bf16 := iblk1 V c 0 t
noncomputable def fw1 (c : Dev nD) (t : Fin cfg1.N) : Vec Ideal S12000x384 .bf16 :=
  win1_1.fill (grid1.coords t) (fun _ => (0 : EReal)) (iblk1 V c 1 t)
noncomputable def fb1 (c : Dev nD) (t : Fin cfg1.N) : Vec Ideal S1x384 .f32 :=
  win1_2.fill (grid1.coords t) (fun _ => (0 : EReal)) (iblk1 V c 2 t)
noncomputable def fg1 (c : Dev nD) (t : Fin cfg1.N) : Vec Ideal S1x384 .f32 :=
  win1_3.fill (grid1.coords t) (fun _ => (0 : EReal)) (iblk1 V c 3 t)
noncomputable def fs1 (c : Dev nD) (t : Fin cfg1.N) : Vec Ideal S1x384 .f32 :=
  win1_4.fill (grid1.coords t) (fun _ => (0 : EReal)) (iblk1 V c 4 t)

noncomputable def aft1 (V : (c : Dev nD) → (b : Ref sig .tc) → Buf (Elt Ideal) ((c : Thread nD τ).loc b)) (c : Dev nD) (w : Fin cfg1.W) (t : Fin cfg1.N) : (cfg1.win w).block.Idx → Elt Ideal (cfg1.win w).elt :=
  match w with
  | ⟨0, _⟩ => fx1 V c t
  | ⟨1, _⟩ => fw1 V c t
  | ⟨2, _⟩ => fb1 V c t
  | ⟨3, _⟩ => fg1 V c t
  | ⟨4, _⟩ => fs1 V c t
  | ⟨5, _⟩ => k1_pay1 (F := Ideal) (fx1 V c t) (fw1 V c t) (fb1 V c t) (fg1 V c t) (fs1 V c t)

noncomputable def dat1 (c : Dev nD) : Dat τ (Elt Ideal) Unit ℕ (UR sig nD τ) ℕ cfg1 c where
  A w := V c (Pipeline.arrRef spec1 w)
  after := aft1 V c
  Φ _ := Pipeline.ΦA spec1 c
  q _ := fullShare
  owed _ := 0

theorem after1_0 (c : Dev nD) (t : Fin cfg1.N) : (dat1 V c).after 0 t = fx1 V c t := by dsimp only [dat1, aft1]
theorem after1_1 (c : Dev nD) (t : Fin cfg1.N) : (dat1 V c).after 1 t = fw1 V c t := by dsimp only [dat1, aft1]
theorem after1_2 (c : Dev nD) (t : Fin cfg1.N) : (dat1 V c).after 2 t = fb1 V c t := by dsimp only [dat1, aft1]
theorem after1_3 (c : Dev nD) (t : Fin cfg1.N) : (dat1 V c).after 3 t = fg1 V c t := by dsimp only [dat1, aft1]
theorem after1_4 (c : Dev nD) (t : Fin cfg1.N) : (dat1 V c).after 4 t = fs1 V c t := by dsimp only [dat1, aft1]
theorem after1_5 (c : Dev nD) (t : Fin cfg1.N) :
    (dat1 V c).after 5 t = k1_pay1 (F := Ideal) (fx1 V c t) (fw1 V c t) (fb1 V c t) (fg1 V c t) (fs1 V c t) := by dsimp only [dat1, aft1]

theorem before1_0 (c : Dev nD) (t : Fin cfg1.N) (d) : (dat1 V c).before 0 t d = fx1 V c t :=
  (dat1 V c).before_in_eq_fetched 0 rfl (fun _ => rfl) (fun _ _ _ => rfl) (fun _ => rfl) t d

theorem before1_1 (c : Dev nD) (t : Fin cfg1.N) (d) :
    (dat1 V c).before 1 t d = win1_1.fill (grid1.coords t) d (iblk1 V c 1 t) := (dat1 V c).before_fetched 1 t (fetch1_1 t) d
theorem before1_2 (c : Dev nD) (t : Fin cfg1.N) (d) :
    (dat1 V c).before 2 t d = win1_2.fill (grid1.coords t) d (iblk1 V c 2 t) := (dat1 V c).before_fetched 2 t (fetch1_2 t) d
theorem before1_3 (c : Dev nD) (t : Fin cfg1.N) (d) :
    (dat1 V c).before 3 t d = win1_3.fill (grid1.coords t) d (iblk1 V c 3 t) := (dat1 V c).before_fetched 3 t (fetch1_3 t) d
theorem before1_4 (c : Dev nD) (t : Fin cfg1.N) (d) :
    (dat1 V c).before 4 t d = win1_4.fill (grid1.coords t) d (iblk1 V c 4 t) := (dat1 V c).before_fetched 4 t (fetch1_4 t) d

theorem before1_5 (c : Dev nD) (t : Fin cfg1.N) (d) : (dat1 V c).before 5 t d = d := by
  refine (dat1 V c).before_out_reset 5 rfl t ?_ d
  by_cases h : t.val = 0
  · exact .inl h
  · exact .inr ⟨h, flush1_5 _⟩

theorem xs_facts1 : ∀ t : Fin cfg1.N,
    win1_1.xsize (grid1.coords t) (0 : Fin 2) = 12000 ∧ win1_1.xsize (grid1.coords t) (1 : Fin 2) = win1_5.xsize (grid1.coords t) (1 : Fin 2)
    ∧ win1_2.xsize (grid1.coords t) (0 : Fin 2) = 1 ∧ win1_2.xsize (grid1.coords t) (1 : Fin 2) = win1_5.xsize (grid1.coords t) (1 : Fin 2)
    ∧ win1_3.xsize (grid1.coords t) (0 : Fin 2) = 1 ∧ win1_3.xsize (grid1.coords t) (1 : Fin 2) = win1_5.xsize (grid1.coords t) (1 : Fin 2)
    ∧ win1_4.xsize (grid1.coords t) (0 : Fin 2) = 1 ∧ win1_4.xsize (grid1.coords t) (1 : Fin 2) = win1_5.xsize (grid1.coords t) (1 : Fin 2) :=
  (by decide +kernel : ∀ t : Fin grid1.N, _)

theorem xinj1_5 (t : Fin cfg1.N) (y : (win1_5.xblock (grid1.coords t)).Idx) :
    ∃ (p : Fin 256) (q : Fin 384), (win1_5.xinj (grid1.coords t) y : S256x384.Idx) = ix2 p q
      ∧ q.val < win1_5.xsize (grid1.coords t) (1 : Fin 2) ∧ p.val = (y 0).val ∧ q.val = (y 1).val :=
  ⟨⟨(y 0).val, Nat.lt_of_lt_of_le (y 0).isLt (win1_5.xsize_le (grid1.coords t) 0)⟩, ⟨(y 1).val, Nat.lt_of_lt_of_le (y 1).isLt (win1_5.xsize_le (grid1.coords t) 1)⟩,
    funext (fun a => match a with | ⟨0, _⟩ => rfl | ⟨1, _⟩ => rfl), (y 1).isLt, rfl, rfl⟩

theorem idx_facts1 : ∀ t : Fin cfg1.N,
    win1_0.index t (0 : Fin 2) = 0 ∧ win1_0.index t (1 : Fin 2) = 0
    ∧ win1_1.index t (0 : Fin 2) = 0 ∧ win1_1.index t (1 : Fin 2) = win1_5.index t (1 : Fin 2)
    ∧ win1_2.index t (0 : Fin 2) = 0 ∧ win1_2.index t (1 : Fin 2) = win1_5.index t (1 : Fin 2)
    ∧ win1_3.index t (0 : Fin 2) = 0 ∧ win1_3.index t (1 : Fin 2) = win1_5.index t (1 : Fin 2)
    ∧ win1_4.index t (0 : Fin 2) = 0 ∧ win1_4.index t (1 : Fin 2) = win1_5.index t (1 : Fin 2)
    ∧ win1_5.index t (0 : Fin 2) = 0 ∧ win1_5.index t (1 : Fin 2) = t.val
    ∧ win1_5.xsize (grid1.coords t) (0 : Fin 2) = 256
    ∧ t.val * 384 + win1_5.xsize (grid1.coords t) (1 : Fin 2) = min (t.val * 384 + 384) 3000 :=
  (by decide +kernel : ∀ t : Fin grid1.N, _)

theorem fx1_apply (c : Dev nD) (t : Fin cfg1.N) (r : Fin 256) (k : Fin 12000) :
    fx1 V c t (ix2 r k) = (V c main_v41 : S256x12000.Idx → EReal) (ix2 r k) := by
  show (V c main_v41 : S256x12000.Idx → EReal) (((cfg1.win 0).blk t).view.emb (ix2 r k)) = _
  have h : ∀ a : Fin 2, win1_0.index t a = 0 := Fin.forall_fin_two.mpr ⟨(idx_facts1 t).1, (idx_facts1 t).2.1⟩
  exact congrArg _ (funext fun a => Fin.ext (win1_0.rect_emb_val_of_index_zero t a (h a) _))

theorem fin1_apply (c : Dev nD) (t : Fin cfg1.N) (d1 : S12000x384.Idx → EReal) (d2 d3 d4 : S1x384.Idx → EReal) (q : Fin 384)
    (hq : q.val < win1_5.xsize (grid1.coords t) (1 : Fin 2)) (j : Fin 3000) (hj : j.val = win1_5.index t (1 : Fin 2) * 384 + q.val) :
    (∀ k : Fin 12000, win1_1.fill (grid1.coords t) d1 (iblk1 V c 1 t) (ix2 k q) = (V c main_v42 : S12000x3000.Idx → EReal) (ix2 k j))
    ∧ win1_2.fill (grid1.coords t) d2 (iblk1 V c 2 t) (ix2 (0 : Fin 1) q) = (V c main_v38 : S1x3000.Idx → EReal) (ix2 (0 : Fin 1) j)
    ∧ win1_3.fill (grid1.coords t) d3 (iblk1 V c 3 t) (ix2 (0 : Fin 1) q) = (V c main_v39 : S1x3000.Idx → EReal) (ix2 (0 : Fin 1) j)
    ∧ win1_4.fill (grid1.coords t) d4 (iblk1 V c 4 t) (ix2 (0 : Fin 1) q) = (V c main_v40 : S1x3000.Idx → EReal) (ix2 (0 : Fin 1) j) := by
  obtain ⟨-, -, e10, e11, e20, e21, e30, e31, e40, e41, -, e51, -⟩ := idx_facts1 t
  obtain ⟨a0, a1, b0, b1, c0, c1, s0, s1⟩ := xs_facts1 t
  refine ⟨fun k => fill_read_apply win1_1 t d1 _ _ ((win1_1.moved_iff _ _).mpr (Fin.forall_fin_two.mpr ⟨k.isLt.trans_eq a0.symm, hq.trans_eq a1.symm⟩))
      _ (Fin.forall_fin_two.mpr ⟨?_, ?_⟩),
    fill_read_apply win1_2 t d2 _ _ ((win1_2.moved_iff _ _).mpr (Fin.forall_fin_two.mpr ⟨Nat.one_pos.trans_eq b0.symm, hq.trans_eq b1.symm⟩))
      _ (Fin.forall_fin_two.mpr ⟨?_, ?_⟩),
    fill_read_apply win1_3 t d3 _ _ ((win1_3.moved_iff _ _).mpr (Fin.forall_fin_two.mpr ⟨Nat.one_pos.trans_eq c0.symm, hq.trans_eq c1.symm⟩))
      _ (Fin.forall_fin_two.mpr ⟨?_, ?_⟩),
    fill_read_apply win1_4 t d4 _ _ ((win1_4.moved_iff _ _).mpr (Fin.forall_fin_two.mpr ⟨Nat.one_pos.trans_eq s0.symm, hq.trans_eq s1.symm⟩))
      _ (Fin.forall_fin_two.mpr ⟨?_, ?_⟩)⟩
  · show k.val = win1_1.index t (0 : Fin 2) * 12000 + k.val; omega
  · show j.val = win1_1.index t (1 : Fin 2) * 384 + q.val; omega
  · show (0 : ℕ) = win1_2.index t (0 : Fin 2) * 1 + 0; omega
  · show j.val = win1_2.index t (1 : Fin 2) * 384 + q.val; omega
  · show (0 : ℕ) = win1_3.index t (0 : Fin 2) * 1 + 0; omega
  · show j.val = win1_3.index t (1 : Fin 2) * 384 + q.val; omega
  · show (0 : ℕ) = win1_4.index t (0 : Fin 2) * 1 + 0; omega
  · show j.val = win1_4.index t (1 : Fin 2) * 384 + q.val; omega

noncomputable def G1 (c : Dev nD) : S256x3000.Idx → EReal := fun i =>
  Cert.Spec.bn (Cert.Spec.act (Cert.Spec.denseLin (fun p k => (V c main_v41 : S256x12000.Idx → EReal) (ix2 p k))
      (fun k j => (V c main_v42 : S12000x3000.Idx → EReal) (ix2 k j))) (fun j => (V c main_v38 : S1x3000.Idx → EReal) (ix2 0 j)))
    (fun j => (V c main_v39 : S1x3000.Idx → EReal) (ix2 0 j)) (fun j => (V c main_v40 : S1x3000.Idx → EReal) (ix2 0 j)) (i 0) (i 1)

theorem cut_val1 (c : Dev nD) (t : Fin cfg1.N) (d1 : S12000x384.Idx → EReal) (d2 d3 d4 : S1x384.Idx → EReal) :
    win1_5.cut (grid1.coords t) (k1_pay1 (F := Ideal) (fx1 V c t) (win1_1.fill (grid1.coords t) d1 (iblk1 V c 1 t))
        (win1_2.fill (grid1.coords t) d2 (iblk1 V c 2 t)) (win1_3.fill (grid1.coords t) d3 (iblk1 V c 3 t))
        (win1_4.fill (grid1.coords t) d4 (iblk1 V c 4 t)))
      = ((cfg1.win 5).blk t).view.read (Elt Ideal) (G1 V c) := by
  obtain ⟨-, -, -, -, -, -, -, -, -, -, e50, e51, -⟩ := idx_facts1 t
  funext y
  obtain ⟨p, q, e, hq, hp0, hq1⟩ := xinj1_5 t y
  show (k1_pay1 (F := Ideal) _ _ _ _ _ : S256x384.Idx → EReal) (win1_5.xinj (grid1.coords t) y : S256x384.Idx)
    = G1 V c (((cfg1.win 5).blk t).view.emb y)
  rw [e]
  refine (layerPay_apply shapeCasts_S256x12000_S256x12000 shapeCasts_S12000x384_S12000x384 shapeCasts_S1x384_S1x384 broadcasts_S1x384_S256x384
    reduces_S256x384_S384 shapeCasts_S384_S1x384 _ _ _ _ _ p q).trans ?_
  have hj : ((((cfg1.win 5).blk t).view.emb y : S256x3000.Idx) 1).val = win1_5.index t (1 : Fin 2) * 384 + q.val := by
    show win1_5.index t (1 : Fin 2) * 384 + 1 * (y 1).val = _; omega
  have hp : p = (((cfg1.win 5).blk t).view.emb y : S256x3000.Idx) 0 := Fin.ext (by
    show p.val = win1_5.index t (0 : Fin 2) * 256 + 1 * (y 0).val; omega)
  obtain ⟨hW, hb, hg, hs⟩ := fin1_apply V c t d1 d2 d3 d4 q hq _ hj
  exact layer_col _ _ _ _ _ _ _ _ _ _ p _ q _ (fun r k => fx1_apply V c t r k) hp hW hb hg hs

noncomputable def bodyPre1 (c : Dev nD) (t : Fin cfg1.N) : sProp 𝕄 :=
  let B (w : Fin cfg1.W) : sProp 𝕄 := iprop(∃ d, owns (c : Thread nD τ) ((cfg1.win w).stage (cfg1.slots t w)) fullShare ((dat1 V c).before w t d))
  iprop((dat1 V c).Φ t.castSucc ∗ (dat1 V c).owesAt () t.castSucc ∗ B 0 ∗ B 1 ∗ B 2 ∗ B 3 ∗ B 4 ∗ B 5)

noncomputable def bodyPost1 (c : Dev nD) (t : Fin cfg1.N) : sProp 𝕄 :=
  let A (w : Fin cfg1.W) : sProp 𝕄 := iprop(∃ d, owns (c : Thread nD τ) ((cfg1.win w).stage (cfg1.slots t w)) fullShare
    ((cfg1.win w).fill (cfg1.grid.coords t) d ((cfg1.win w).cut (cfg1.grid.coords t) ((dat1 V c).after w t))))
  iprop((dat1 V c).Φ t.succ ∗ (dat1 V c).owesAt () t.succ ∗ owns (c : Thread nD τ) (st1_0 t) fullShare ((dat1 V c).after 0 t) ∗ A 1 ∗ A 2 ∗ A 3 ∗ A 4 ∗ A 5)

set_option maxHeartbeats 4000000 in
theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold fw1 fb1 fg1 fs1
  rw [win1_1.cut_fill, win1_2.cut_fill, win1_3.cut_fill, win1_4.cut_fill]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (fx1 V c t) (win1_1.fill (grid1.coords t) d1 (iblk1 V c 1 t))
    (win1_2.fill (grid1.coords t) d2 (iblk1 V c 2 t)) (win1_3.fill (grid1.coords t) d3 (iblk1 V c 3 t))
    (win1_4.fill (grid1.coords t) d4 (iblk1 V c 4 t)) _)
  isplitl [H0]; · iexact H0
  isplitl [H1]; · iexact H1
  isplitl [H2]; · iexact H2
  isplitl [H3]; · iexact H3
  isplitl [H4]; · iexact H4
  isplitl [H5]; · iexists d5; iexact H5
  iintro ⟨H0, H1, H2, H3, H4, H5⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  iexists _
  rw [win1_5.fill_congr_cut (grid1.coords t) ((cut_val1 V c t d1 d2 d3 d4).trans (cut_val1 V c t _ _ _ _).symm)]
  iexact H5

theorem body_obligation1 (c : Dev nD) :
    BodyObligationLoose (dat1 V c) (defs₀ (F := Ideal)) Variants.none () Set.univ := fun t => by
  rw [bigSep_W1, bigSep_W1]
  exact sound_body1 V c t

theorem final1 (c : Dev nD) : (dat1 V c).arrAt 5 cfg1.N = G1 V c :=
  (dat1 V c).arrAt_eq_of_cover 5 (G1 V c) (fun t _ => cut_val1 V c t _ _ _ _) (fun i => by
    have hi0 : (i 0).val < 256 := (i 0).isLt
    have hi1 : (i 1).val < 3000 := (i 1).isLt
    obtain ⟨t, ht⟩ : ∃ t : Fin cfg1.N, t.val = (i 1).val / 384 :=
      ⟨⟨(i 1).val / 384, by show (i 1).val / 384 < grid1.N; rw [N_1]; omega⟩, rfl⟩
    obtain ⟨-, -, -, -, -, -, -, -, -, -, e50, e51, x0, x1⟩ := idx_facts1 t
    refine ⟨t, flush1_5 t, ?_⟩
    show i ∈ ((View.whole main_v43).slice (win1_5.rect t)).set
    rw [View.set_slice_whole, Rect.mem_set_unit]
    intro a
    match a with
    | ⟨0, _⟩ => show win1_5.index t (0 : Fin 2) * 256 ≤ (i 0).val ∧ (i 0).val < win1_5.index t (0 : Fin 2) * 256 + win1_5.xsize (grid1.coords t) (0 : Fin 2); omega
    | ⟨1, _⟩ => show win1_5.index t (1 : Fin 2) * 384 ≤ (i 1).val ∧ (i 1).val < win1_5.index t (1 : Fin 2) * 384 + win1_5.xsize (grid1.coords t) (1 : Fin 2); omega)

theorem out1_apply (c : Dev nD) (p : Fin 256) (j : Fin 3000) :
    ((dat1 V c).arrAt 5 cfg1.N : S256x3000.Idx → EReal) (ValueIdx.ix2 p j)
      = Cert.Spec.bn (Cert.Spec.act (Cert.Spec.denseLin (fun p k => (V c main_v41 : S256x12000.Idx → EReal) (ValueIdx.ix2 p k))
          (fun k j => (V c main_v42 : S12000x3000.Idx → EReal) (ValueIdx.ix2 k j))) (fun j => (V c main_v38 : S1x3000.Idx → EReal) (ValueIdx.ix2 0 j)))
        (fun j => (V c main_v39 : S1x3000.Idx → EReal) (ValueIdx.ix2 0 j)) (fun j => (V c main_v40 : S1x3000.Idx → EReal) (ValueIdx.ix2 0 j)) p j := by
  rw [final1]; rfl

end Cert.KernelIdeal.Hand

end
-- ==== Proof.IBody2.lean ====
import proofs.«161050_j60275571032433_1_alg».proof.Proof.Gen.KernelIdeal.Launch
import proofs.«161050_j60275571032433_1_alg».proof.Proof.Gen.KernelIdeal.Skeleton
import proofs.«161050_j60275571032433_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«161050_j60275571032433_1_alg».proof.Proof.IBodyLib
set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

def iblk2 (c : Dev nD) (w : Fin cfg2.W) (t : Fin cfg2.N) : ((cfg2.win w).xblock (cfg2.grid.coords t)).Idx → Elt Ideal (cfg2.win w).elt :=
  ((cfg2.win w).blk t).view.read (Elt Ideal) (V c (Pipeline.arrRef spec2 w))

abbrev rx2 : Rect S256x3000 := Rect.unit (s := S256x3000) ![0, 0] S256x3000.size inb_S256x3000_S256x3000_0_0
abbrev rw2 : Rect S3000x6 := Rect.unit (s := S3000x6) ![0, 0] S3000x6.size inb_S3000x6_S3000x6_0_0
abbrev rv2 : Rect S1x6 := Rect.unit (s := S1x6) ![0, 0] S1x6.size inb_S1x6_S1x6_0_0
abbrev ro2 : Rect S256x6 := Rect.unit (s := S256x6) ![0, 0] S256x6.size inb_S256x6_S256x6_0_0

def out2_5 (x0 : Vec Ideal S256x3000 .bf16) (x1 : Vec Ideal S3000x6 .bf16) (x2 x3 x4 : Vec Ideal S1x6 .f32) : Vec Ideal S256x6 .f32 :=
  View.canon [⟨ro2, k2_pay1 (View.ld x0 rx2) (View.ld x1 rw2) (View.ld x2 rv2) (View.ld x3 rv2) (View.ld x4 rv2)⟩]

theorem cover2_5 (p0 : Vec Ideal S256x6 .f32) (y : S256x6.Idx) :
    ∃ pc ∈ ([⟨ro2, p0⟩] : List (View.Piece (Elt Ideal) S256x6 .f32)), y ∈ pc.1.set :=
  View.cover_of_tiled [⟨ro2, p0⟩] S256x6.size (by rfl) y

set_option maxHeartbeats 4000000 in
theorem sound_kernel2 (c : Dev nD) (E : Set ℕ) (i : grid2.Coords)
    (arg1 : Memref sig .tc .vmem S256x3000 .bf16) (harg1 : arg1.IsWhole) (arg2 : Memref sig .tc .vmem S3000x6 .bf16) (harg2 : arg2.IsWhole)
    (arg3 : Memref sig .tc .vmem S1x6 .f32) (harg3 : arg3.IsWhole) (arg4 : Memref sig .tc .vmem S1x6 .f32) (harg4 : arg4.IsWhole)
    (arg5 : Memref sig .tc .vmem S1x6 .f32) (harg5 : arg5.IsWhole) (arg6 : Memref sig .tc .vmem S256x6 .f32) (harg6 : arg6.IsWhole)
    (x0 : Vec Ideal S256x3000 .bf16) (x1 : Vec Ideal S3000x6 .bf16) (x2 x3 x4 : Vec Ideal S1x6 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare (out2_5 x0 x1 x2 x3 x4)) -∗ K ⟨⟩))
      ⊢ wp frame (wpE (defs₀ (F := Ideal)) Variants.none c none) E (cc2__sparse_layer_kernel i arg1 harg1 arg2 harg2 arg3 harg3 arg4 harg4 arg5 harg5 arg6 harg6) K := by
  simp only [cc2__sparse_layer_kernel_eq_skeleton]; unfold cc2__sparse_layer_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_5 _)

def aft2 (V : (c : Dev nD) → (b : Ref sig .tc) → Buf (Elt Ideal) ((c : Thread nD τ).loc b)) (c : Dev nD) (w : Fin cfg2.W) (t : Fin cfg2.N) : (cfg2.win w).block.Idx → Elt Ideal (cfg2.win w).elt :=
  match w with
  | ⟨0, _⟩ => iblk2 V c 0 t
  | ⟨1, _⟩ => iblk2 V c 1 t
  | ⟨2, _⟩ => iblk2 V c 2 t
  | ⟨3, _⟩ => iblk2 V c 3 t
  | ⟨4, _⟩ => iblk2 V c 4 t
  | ⟨5, _⟩ => out2_5 (iblk2 V c 0 t) (iblk2 V c 1 t) (iblk2 V c 2 t) (iblk2 V c 3 t) (iblk2 V c 4 t)

def dat2 (c : Dev nD) : Dat τ (Elt Ideal) Unit ℕ (UR sig nD τ) ℕ cfg2 c where
  A w := V c (Pipeline.arrRef spec2 w)
  after := aft2 V c
  Φ _ := Pipeline.ΦA spec2 c
  q _ := fullShare
  owed _ := 0

theorem after2_0 (c : Dev nD) (t : Fin cfg2.N) : (dat2 V c).after 0 t = iblk2 V c 0 t := by dsimp only [dat2, aft2]
theorem after2_1 (c : Dev nD) (t : Fin cfg2.N) : (dat2 V c).after 1 t = iblk2 V c 1 t := by dsimp only [dat2, aft2]
theorem after2_2 (c : Dev nD) (t : Fin cfg2.N) : (dat2 V c).after 2 t = iblk2 V c 2 t := by dsimp only [dat2, aft2]
theorem after2_3 (c : Dev nD) (t : Fin cfg2.N) : (dat2 V c).after 3 t = iblk2 V c 3 t := by dsimp only [dat2, aft2]
theorem after2_4 (c : Dev nD) (t : Fin cfg2.N) : (dat2 V c).after 4 t = iblk2 V c 4 t := by dsimp only [dat2, aft2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2, aft2]

theorem before2_0 (c : Dev nD) (t : Fin cfg2.N) (d) : (dat2 V c).before 0 t d = iblk2 V c 0 t := (dat2 V c).before_fetched 0 t (fetch2_0 t) d
theorem before2_1 (c : Dev nD) (t : Fin cfg2.N) (d) : (dat2 V c).before 1 t d = iblk2 V c 1 t := (dat2 V c).before_fetched 1 t (fetch2_1 t) d
theorem before2_2 (c : Dev nD) (t : Fin cfg2.N) (d) : (dat2 V c).before 2 t d = iblk2 V c 2 t := (dat2 V c).before_fetched 2 t (fetch2_2 t) d
theorem before2_3 (c : Dev nD) (t : Fin cfg2.N) (d) : (dat2 V c).before 3 t d = iblk2 V c 3 t := (dat2 V c).before_fetched 3 t (fetch2_3 t) d
theorem before2_4 (c : Dev nD) (t : Fin cfg2.N) (d) : (dat2 V c).before 4 t d = iblk2 V c 4 t := (dat2 V c).before_fetched 4 t (fetch2_4 t) d

def bodyPre2 (c : Dev nD) (t : Fin cfg2.N) : sProp 𝕄 :=
  let B (w : Fin cfg2.W) : sProp 𝕄 := iprop(∃ d, owns (c : Thread nD τ) ((cfg2.win w).stage (cfg2.slots t w)) fullShare ((dat2 V c).before w t d))
  iprop((dat2 V c).Φ t.castSucc ∗ (dat2 V c).owesAt () t.castSucc ∗ B 0 ∗ B 1 ∗ B 2 ∗ B 3 ∗ B 4 ∗ B 5)

def bodyPost2 (c : Dev nD) (t : Fin cfg2.N) : sProp 𝕄 :=
  let A (w : Fin cfg2.W) : sProp 𝕄 := owns (c : Thread nD τ) ((cfg2.win w).stage (cfg2.slots t w)) fullShare ((dat2 V c).after w t)
  iprop((dat2 V c).Φ t.succ ∗ (dat2 V c).owesAt () t.succ ∗ A 0 ∗ A 1 ∗ A 2 ∗ A 3 ∗ A 4 ∗ A 5)

theorem sound_body2 (c : Dev nD) (t : Fin cfg2.N) :
    bodyPre2 V c t ⊢ wp frame (wpE (defs₀ (F := Ideal)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) :
    BodyObligationLoose (dat2 V c) (defs₀ (F := Ideal)) Variants.none () Set.univ :=
  BodyObligation.loose _ fun t => by
    rw [bigSep_W2, bigSep_W2]
    exact sound_body2 V c t

theorem pay2_at (v0 : Vec Ideal S256x3000 .bf16) (v2 : Vec Ideal S3000x6 .bf16) (v5 v21 v32 : Vec Ideal S1x6 .f32) (y : S256x6.Idx) :
    (k2_pay1 (F := Ideal) v0 v2 v5 v21 v32 : S256x6.Idx → EReal) y
      = Cert.Spec.bn (Cert.Spec.act (Cert.Spec.denseLin (fun p k => (v0 : S256x3000.Idx → EReal) (ix2 p k)) (fun k j => (v2 : S3000x6.Idx → EReal) (ix2 k j))) (fun j => (v5 : S1x6.Idx → EReal) (ix2 0 j)))
          (fun j => (v21 : S1x6.Idx → EReal) (ix2 0 j)) (fun j => (v32 : S1x6.Idx → EReal) (ix2 0 j)) (y 0) (y 1) := by
  obtain ⟨p, j, rfl⟩ : ∃ (p : Fin 256) (j : Fin 6), y = ix2 p j := ⟨y 0, y 1, eq_ix2 y⟩
  exact layerPay_apply shapeCasts_S256x3000_S256x3000 shapeCasts_S3000x6_S3000x6 shapeCasts_S1x6_S1x6 broadcasts_S1x6_S256x6 reduces_S256x6_S6
    shapeCasts_S6_S1x6 v0 v2 v5 v21 v32 p j

theorem index2_zero : ∀ t : Fin cfg2.N,
    (∀ a, win2_0.index t a = 0) ∧ (∀ a, win2_1.index t a = 0) ∧ (∀ a, win2_2.index t a = 0) ∧ (∀ a, win2_3.index t a = 0)
    ∧ (∀ a, win2_4.index t a = 0) ∧ (∀ a, win2_5.index t a = 0) :=
  (by decide +kernel : ∀ t : Fin grid2.N, _)

theorem iblk2_eq (c : Dev nD) (t : Fin cfg2.N) :
    (iblk2 V c 0 t : S256x3000.Idx → EReal) = (V c main_v62 : S256x3000.Idx → EReal) ∧ (iblk2 V c 1 t : S3000x6.Idx → EReal) = (V c main_v63 : S3000x6.Idx → EReal)
    ∧ (iblk2 V c 2 t : S1x6.Idx → EReal) = (V c main_v59 : S1x6.Idx → EReal) ∧ (iblk2 V c 3 t : S1x6.Idx → EReal) = (V c main_v60 : S1x6.Idx → EReal)
    ∧ (iblk2 V c 4 t : S1x6.Idx → EReal) = (V c main_v61 : S1x6.Idx → EReal) := by
  obtain ⟨h0, h1, h2, h3, h4, -⟩ := index2_zero t
  exact ⟨funext fun y => congrArg (V c main_v62 : S256x3000.Idx → EReal) (funext fun a => Fin.ext (win2_0.rect_emb_val_of_index_zero t a (h0 a) y)),
    funext fun y => congrArg (V c main_v63 : S3000x6.Idx → EReal) (funext fun a => Fin.ext (win2_1.rect_emb_val_of_index_zero t a (h1 a) y)),
    funext fun y => congrArg (V c main_v59 : S1x6.Idx → EReal) (funext fun a => Fin.ext (win2_2.rect_emb_val_of_index_zero t a (h2 a) y)),
    funext fun y => congrArg (V c main_v60 : S1x6.Idx → EReal) (funext fun a => Fin.ext (win2_3.rect_emb_val_of_index_zero t a (h3 a) y)),
    funext fun y => congrArg (V c main_v61 : S1x6.Idx → EReal) (funext fun a => Fin.ext (win2_4.rect_emb_val_of_index_zero t a (h4 a) y))⟩

def G2 (c : Dev nD) : S256x6.Idx → EReal := fun i =>
  Cert.Spec.bn (Cert.Spec.act (Cert.Spec.denseLin (fun p k => (V c main_v62 : S256x3000.Idx → EReal) (ix2 p k)) (fun k j => (V c main_v63 : S3000x6.Idx → EReal) (ix2 k j))) (fun j => (V c main_v59 : S1x6.Idx → EReal) (ix2 0 j)))
          (fun j => (V c main_v60 : S1x6.Idx → EReal) (ix2 0 j)) (fun j => (V c main_v61 : S1x6.Idx → EReal) (ix2 0 j)) (i 0) (i 1)

theorem flushed2_5_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero zero2]
  simp only [View.ld_unit_zero (S := S256x3000) zero2, View.ld_unit_zero (S := S3000x6) zero2, View.ld_unit_zero (S := S1x6) zero2]
  funext y
  show (k2_pay1 (F := Ideal) (iblk2 V c 0 t) (iblk2 V c 1 t) (iblk2 V c 2 t) (iblk2 V c 3 t) (iblk2 V c 4 t) : S256x6.Idx → EReal) y
    = G2 V c (((cfg2.win 5).blk t).view.emb y)
  have hy : ((cfg2.win 5).blk t).view.emb y = y :=
    funext fun a => Fin.ext (win2_5.rect_emb_val_of_index_zero t a ((index2_zero t).2.2.2.2.2 a) y)
  rw [hy]
  refine (pay2_at _ _ _ _ _ y).trans ?_
  obtain ⟨h0, h1, h2, h3, h4⟩ := iblk2_eq V c t
  unfold G2
  rw [h0, h1, h2, h3, h4]

theorem final2_5 (c : Dev nD) : (dat2 V c).arrAt 5 cfg2.N = G2 V c :=
  (dat2 V c).arrAt_eq_of_cover 5 (G2 V c) (fun t _ => flushed2_5_eq V c t) (fun i => by
    refine ⟨t2_0, flush2_5 t2_0, ?_⟩
    show i ∈ ((View.whole main_v64).slice (win2_5.rect t2_0)).set
    rw [View.set_slice_whole, Rect.mem_set_unit]
    intro a
    rw [(index2_zero t2_0).2.2.2.2.2 a, Nat.zero_mul, Nat.zero_add]
    exact ⟨Nat.zero_le _, (i a).isLt⟩)

theorem out2_apply (c : Dev nD) (p : Fin 256) (j : Fin 6) :
    ((dat2 V c).arrAt 5 cfg2.N : S256x6.Idx → EReal) (ValueIdx.ix2 p j)
      = Cert.Spec.bn (Cert.Spec.act (Cert.Spec.denseLin (fun p k => (V c main_v62 : S256x3000.Idx → EReal) (ValueIdx.ix2 p k)) (fun k j => (V c main_v63 : S3000x6.Idx → EReal) (ValueIdx.ix2 k j))) (fun j => (V c main_v59 : S1x6.Idx → EReal) (ValueIdx.ix2 0 j))) (fun j => (V c main_v60 : S1x6.Idx → EReal) (ValueIdx.ix2 0 j)) (fun j => (V c main_v61 : S1x6.Idx → EReal) (ValueIdx.ix2 0 j)) p j := by
  rw [final2_5]
  rfl

end Cert.KernelIdeal.Hand

end
-- ==== Proof.IFold.lean ====
import proofs.«161050_j60275571032433_1_alg».proof.Proof.IBody0
import proofs.«161050_j60275571032433_1_alg».proof.Proof.IBody1
import proofs.«161050_j60275571032433_1_alg».proof.Proof.IBody2

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

abbrev W0 : Dev nD → Valuation τ sig (Elt Ideal) := fun c b => (s₀ m ρ).mem ((c : Dev nD), b)

abbrev W1 : Dev nD → Valuation τ sig (Elt Ideal) := fun c => StableHlo.after main_part0_ops0 (W0 m ρ c)
abbrev V1 : (c : Dev nD) → (b : Ref sig .tc) → Buf (Elt Ideal) ((c : Thread nD τ).loc b) := fun c b => W1 m ρ c b

def W2 (c : Dev nD) : Valuation τ sig (Elt Ideal) :=
  Pipeline.withArrays spec0 c (W1 m ρ c) fun w => (dat0 (V1 m ρ) c).arrAt w cfg0.N

abbrev W3 : Dev nD → Valuation τ sig (Elt Ideal) := fun c => StableHlo.after main_part0_ops1 (W2 m ρ c)
abbrev V3 : (c : Dev nD) → (b : Ref sig .tc) → Buf (Elt Ideal) ((c : Thread nD τ).loc b) := fun c b => W3 m ρ c b

def W4 (c : Dev nD) : Valuation τ sig (Elt Ideal) :=
  Pipeline.withArrays spec1 c (W3 m ρ c) fun w => (dat1 (V3 m ρ) c).arrAt w cfg1.N

abbrev W5 : Dev nD → Valuation τ sig (Elt Ideal) := fun c => StableHlo.after main_part0_ops2 (W4 m ρ c)
abbrev W6 : Dev nD → Valuation τ sig (Elt Ideal) := fun c => StableHlo.after main_part1_ops0 (W5 m ρ c)
abbrev V6 : (c : Dev nD) → (b : Ref sig .tc) → Buf (Elt Ideal) ((c : Thread nD τ).loc b) := fun c b => W6 m ρ c b

def W7 (c : Dev nD) : Valuation τ sig (Elt Ideal) :=
  Pipeline.withArrays spec2 c (W6 m ρ c) fun w => (dat2 (V6 m ρ) c).arrAt w cfg2.N

abbrev W8 : Dev nD → Valuation τ sig (Elt Ideal) := fun c => StableHlo.after main_part1_ops1 (W7 m ρ c)
abbrev W9 : Dev nD → Valuation τ sig (Elt Ideal) := fun c => StableHlo.after main_part2_ops0 (W8 m ρ c)
abbrev W10 : Dev nD → Valuation τ sig (Elt Ideal) := fun c => StableHlo.after main_part3_ops0 (W9 m ρ c)

end Cert.KernelIdeal.Hand

end
-- ==== Proof.IRun.lean ====
import proofs.«161050_j60275571032433_1_alg».proof.Proof.IFold

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb

abbrev adm : (p : Fin 3) → (pcfgs (F := Ideal) p).Adm := fun p => (cfgs p).toPCfg_adm

def pdats : (p : Fin 3) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V3 m ρ) c
  | ⟨2, _⟩ => fun c => dat2 (V6 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt Ideal))) (hsub : ops.Forall fun op => op.bufs ⊆ StableHlo.tcRefs τ sig)
    (hfresh : ops.map (·.fresh) = ops.map fun _ => ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (List.map_inj_left.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m ρ c) ∗ ∃ r, prngReg c r)

theorem last_state (c : Dev nD) :
    iprop(StableHlo.held (c : Thread nD τ) (Pipeline.ucRefs τ sig) (W10 m ρ c) ∗ R c)
      ⊢ iprop(Tₙ m ρ c ∗ ∃ W, owes (c : Thread nD τ) (0 : CellTallies nD τ sig Unit) W) := by
  iintro ⟨Hbufs, Hreg, Howes⟩
  isplitl [Hbufs Hreg]
  · isplitl [Hbufs]
    · iexact Hbufs
    iexact Hreg
  iexact Howes

abbrev pc (p : Fin 3) := Pipeline.pin (pcfgs (F := Ideal)) adm p

set_option backward.isDefEq.respectTransparency.types false in
def regOf (p : Fin 3) (lf : Pipeline.LaunchFacts (nD := nD) (τ := τ) cfgs p)
    (hbody : ∀ c, BodyObligationLoose (pdats m ρ p c) (defs₀ (F := Ideal)) 𝒱₀ () Set.univ)
    (Wa Wb : Dev nD → Valuation τ sig (Elt Ideal))
    (hq : ∀ c t, (pdats m ρ p c).q t = fullShare) (howed : ∀ c t, (pdats m ρ p c).owed t = 0)
    (hrec : ∀ c, (pdats m ρ p c).recorded 0 = Set.univ)
    (hΦ : ∀ c t, (pdats m ρ p c).Φ t = Pipeline.ΦA (pc p).spec c)
    (hA : ∀ c w, (pdats m ρ p c).A w = Wa c (Pipeline.arrRef (pc p).spec w))
    (harr : ∀ c w, Wb c (Proc.devRef .tc (Pipeline.arrRef (pc p).spec w)) = (pdats m ρ p c).arrAt w (pc p).N)
    (hne : ∀ c (b : Ref sig .tc), (∀ w, Pipeline.arrRef (pc p).spec w ≠ b) → Wb c (Proc.devRef .tc b) = Wa c (Proc.devRef .tc b)) :
    Pipeline.RegionSeg (pcfgs (F := Ideal)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (pc p).spec c fun b => Wa c b
  hentry c := by
    have harrs := Pipeline.arrays_of_unscopedBufs (p := p) (pcfgs (F := Ideal)) adm (pdats m ρ) lf.win lf.arr_whole c
      ((pdats m ρ p c).share_full (hq c)) (fun b => Wa c b) (hA c)
    rw [Pipeline.unscopedBufs_held] at harrs
    rw [Pipeline.ownSems0_none]
    iintro ⟨⟨Hbufs, Hreg, Howes⟩, -, -⟩
    ihave Hsplit := harrs $$ Hbufs
    icases Hsplit with ⟨Harr, Hrest⟩
    imodintro
    isplitl [Harr]
    · iexact Harr
    isplitr
    · unfold Pipeline.prefHeld
      rw [show (Finset.univ : Finset (Fin 0)) = ∅ from rfl, BI.bigSep_empty]
      iempintro
    isplitl [Howes]
    · unfold Pipeline.Dat.owesAt Pipeline.owesWithin
      rw [howed c]
      icases Howes with ⟨%W, Howes⟩
      iexists W
      isplitr
      · ipureintro; exact fun _ _ => Or.inl (by rw [hrec c]; trivial)
      iexact Howes
    isplitl [Hreg]
    · iexact Hreg
    iexact Hrest
  hin c := by
    rw [hΦ c 0]
    unfold Pipeline.ΦA
    iintro ⟨Hreg, -, Hscoped⟩
    isplitl [Hscoped]
    · iexact Hscoped
    iexact Hreg
  hout c := by
    rw [Pipeline.ownSems0_none, hΦ c (Fin.last _)]
    unfold Pipeline.ΦA
    iintro ⟨Hscoped, Hreg⟩
    isplitl [Hreg]
    · iexact Hreg
    isplitr
    · iempintro
    iexact Hscoped
  hexit c := by
    have hback := Pipeline.unscopedBufs_of_arrays (p := p) (pcfgs (F := Ideal)) adm (Ix := Unit) (Name := ℕ) (U := UR sig nD τ) (Lvl := ℕ)
      lf.win lf.arr_whole c (pdats m ρ) ((pdats m ρ p c).share_full (hq c))
      (fun b => Wa c b) (fun b => Wb c b) ((pdats m ρ p c).arrAt · (pc p).N) (fun w => (harr c w).symm)
      fun b hb => hne c b fun w e => hb (Finset.mem_image.mpr ⟨w, Finset.mem_univ _, e⟩)
    rw [Pipeline.unscopedBufs_held] at hback
    iintro ⟨Harr, Howes, Hreg, Hrest⟩
    imodintro
    isplitl [Harr Hrest]
    · iapply hback
      isplitl [Harr] <;> iassumption
    isplitl [Hreg]
    · iexact Hreg
    unfold Pipeline.Dat.owesAt Pipeline.owesWithin
    rw [howed c]
    icases Howes with ⟨%W, -, Howes⟩
    iexists W
    iexact Howes

set_option backward.isDefEq.respectTransparency.types false in
def reg0 : Pipeline.RegionSeg (pcfgs (F := Ideal)) adm (pdats m ρ) () defs₀ 𝒱₀ L lv 0 :=
  regOf m ρ 0 launch0 (body_obligation0 (V1 m ρ)) (W1 m ρ) (W2 m ρ) (fun _ _ => rfl) (fun _ _ => rfl) (fun _ => rfl)
    (fun _ _ => rfl) (fun _ _ => rfl) (W2_arr m ρ) (W2_of_ne m ρ)

set_option backward.isDefEq.respectTransparency.types false in
def reg1 : Pipeline.RegionSeg (pcfgs (F := Ideal)) adm (pdats m ρ) () defs₀ 𝒱₀ L lv 1 :=
  regOf m ρ 1 launch1 (body_obligation1 (V3 m ρ)) (W3 m ρ) (W4 m ρ) (fun _ _ => rfl) (fun _ _ => rfl) (fun _ => rfl)
    (fun _ _ => rfl) (fun _ _ => rfl) (W4_arr m ρ) (W4_of_ne m ρ)

set_option backward.isDefEq.respectTransparency.types false in
def reg2 : Pipeline.RegionSeg (pcfgs (F := Ideal)) adm (pdats m ρ) () defs₀ 𝒱₀ L lv 2 :=
  regOf m ρ 2 launch2 (body_obligation2 (V6 m ρ)) (W6 m ρ) (W7 m ρ) (fun _ _ => rfl) (fun _ _ => rfl) (fun _ => rfl)
    (fun _ _ => rfl) (fun _ _ => rfl) (W7_arr m ρ) (W7_of_ne m ρ)

abbrev segs : List (Pipeline.Seg (pcfgs (F := Ideal)) adm (pdats m ρ) () defs₀ 𝒱₀ L lv) :=
  [ .host (hseg main_part0_ops0 main_part0_ops0_sub rfl (W0 m ρ)),
    .region (reg0 m ρ),
    .host (hseg main_part0_ops1 main_part0_ops1_sub rfl (W2 m ρ)),
    .region (reg1 m ρ),
    .host (hseg main_part0_ops2 main_part0_ops2_sub rfl (W4 m ρ)),
    .host (hseg main_part1_ops0 main_part1_ops0_sub rfl (W5 m ρ)),
    .region (reg2 m ρ),
    .host (hseg main_part1_ops1 main_part1_ops1_sub rfl (W7 m ρ)),
    .host (hseg main_part2_ops0 main_part2_ops0_sub rfl (W8 m ρ)),
    .host (hseg main_part3_ops0 main_part3_ops0_sub rfl (W9 m ρ)) ]

theorem main_run (c : Dev nD) : main (F := Ideal) c = Pipeline.Seg.run (segs m ρ) :=
  (main_chain_windows c).trans (by chain_rfl)

set_option backward.isDefEq.respectTransparency.types false in
theorem run_all : θ_run (defs (F := Ideal)) (onTc (τ := τ) (main (F := Ideal))) ⟨m, fun _ => 0, ρ⟩
    (fun r => ∀ c : Dev nD, ∀ b ∈ Pipeline.ucRefs τ sig, r.2.mem ((c : Thread nD τ).1, b) = W10 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      iexists ∅; iexact Howes)
    (QY := fun c s => ∀ b ∈ Pipeline.ucRefs τ sig, s.mem (((c : Thread nD τ)).1, b) = W10 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W10 m ρ c) s')
      isplitl [Hbufs] <;> iassumption)
    (hQ := fun _ h => h)

end Cert.KernelIdeal.Hand

end
-- ==== Proof.IKeep.lean ====
import proofs.«161050_j60275571032433_1_alg».proof.Proof.IRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

theorem writes_of_eq {ops : List (HloOp τ sig (Elt Ideal))} {W : List (Ref sig .tc)}
    (h : ops.map (·.writes) = W.map fun r => {Proc.devRef .tc r}) :
    ops.Forall fun op => op.writes ⊆ (W.map (Proc.devRef (τ := τ) .tc)).toFinset :=
  List.forall_iff_forall_mem.mpr fun op hop => by
    have hm := List.mem_map_of_mem (f := fun op : HloOp τ sig (Elt Ideal) => op.writes) hop
    rw [h] at hm
    obtain ⟨r, hr, e⟩ := List.mem_map.mp hm
    rw [← e, Finset.singleton_subset_iff, List.mem_toFinset]
    exact List.mem_map_of_mem hr

abbrev main_part0_ops0_W : List (Ref sig .tc) := [main_v0, main_v1, main_cst, main_v2, main_c, main_v3, main_v4, main_c_0, main_v5, main_v6, main_v7, main_c_1, main_v8, main_v9, main_c_2, main_v10, main_v11, main_v12, main_v13, main_v14, main_v15, main_v16, main_v17, main_v18, main_v19, main_v20, main_v21]
theorem main_part0_ops0_writes : (main_part0_ops0 : List (HloOp τ sig (Elt Ideal))).Forall fun op => op.writes ⊆ ((main_part0_ops0_W).map (Proc.devRef (τ := τ) .tc)).toFinset :=
  writes_of_eq rfl

abbrev main_part0_ops1_W : List (Ref sig .tc) := [main_cst_3, main_v23, main_c_4, main_v24, main_v25, main_c_5, main_v26, main_v27, main_v28, main_c_6, main_v29, main_v30, main_c_7, main_v31, main_v32, main_v33, main_v34, main_v35, main_v36, main_v37, main_v38, main_v39, main_v40, main_v41, main_v42]
theorem main_part0_ops1_writes : (main_part0_ops1 : List (HloOp τ sig (Elt Ideal))).Forall fun op => op.writes ⊆ ((main_part0_ops1_W).map (Proc.devRef (τ := τ) .tc)).toFinset :=
  writes_of_eq rfl

abbrev main_part0_ops2_W : List (Ref sig .tc) := [main_cst_8, main_v44, main_c_9, main_v45, main_v46, main_c_10]
theorem main_part0_ops2_writes : (main_part0_ops2 : List (HloOp τ sig (Elt Ideal))).Forall fun op => op.writes ⊆ ((main_part0_ops2_W).map (Proc.devRef (τ := τ) .tc)).toFinset :=
  writes_of_eq rfl

abbrev main_part1_ops0_W : List (Ref sig .tc) := [main_v47, main_v48, main_v49, main_c_11, main_v50, main_v51, main_c_12, main_v52, main_v53, main_v54, main_v55, main_v56, main_v57, main_v58, main_v59, main_v60, main_v61, main_v62, main_v63]
theorem main_part1_ops0_writes : (main_part1_ops0 : List (HloOp τ sig (Elt Ideal))).Forall fun op => op.writes ⊆ ((main_part1_ops0_W).map (Proc.devRef (τ := τ) .tc)).toFinset :=
  writes_of_eq rfl

abbrev main_part1_ops1_W : List (Ref sig .tc) := [main_v65, main_v66, main_v67, main_v68, main_v69, main_v70, main_cst_13, main_v71, main_cst_14, main_v72, main_v73, main_v74, main_v75, main_v76, main_v77, main_cst_15, main_v78, main_cst_16, main_v79, main_v80, main_v81, main_v82, main_v83, main_v84, main_v85, main_v86, main_cst_17, main_v87, main_v88, main_v89, main_v90, main_v91, main_v92, main_v93, main_v94, main_v95, main_v96, main_v97, main_v98, main_v99]
theorem main_part1_ops1_writes : (main_part1_ops1 : List (HloOp τ sig (Elt Ideal))).Forall fun op => op.writes ⊆ ((main_part1_ops1_W).map (Proc.devRef (τ := τ) .tc)).toFinset :=
  writes_of_eq rfl

abbrev main_part2_ops0_W : List (Ref sig .tc) := [main_v100, main_v101, main_cst_18, main_v102, main_cst_19, main_v103, main_v104, main_v105, main_v106, main_v107, main_v108, main_cst_20, main_v109, main_cst_21, main_v110, main_v111, main_v112, main_v113, main_v114, main_v115, main_v116, main_v117, main_cst_22, main_v118, main_v119, main_v120, main_v121, main_v122, main_v123, main_v124, main_v125, main_v126, main_v127, main_v128, main_v129, main_v130, main_v131, main_v132, main_cst_23, main_v133, main_cst_24, main_v134, main_v135, main_v136, main_v137, main_v138, main_v139, main_cst_25, main_v140, main_cst_26, main_v141, main_v142, main_v143, main_v144, main_v145, main_v146, main_v147, main_v148, main_cst_27, main_v149]
theorem main_part2_ops0_writes : (main_part2_ops0 : List (HloOp τ sig (Elt Ideal))).Forall fun op => op.writes ⊆ ((main_part2_ops0_W).map (Proc.devRef (τ := τ) .tc)).toFinset :=
  writes_of_eq rfl

abbrev main_part3_ops0_W : List (Ref sig .tc) := [main_v150, main_v151, main_v152, main_v153, main_v154, main_v155, main_v156, main_v157, main_v158, main_v159, main_v160, main_v161, main_v162, main_v163, main_v164, main_cst_28, main_v165, main_cst_29, main_v166, main_v167, main_v168, main_v169, main_v170, main_v171, main_cst_30, main_v172, main_cst_31, main_v173, main_v174, main_v175, main_v176, main_v177, main_v178, main_v179, main_v180, main_cst_32, main_v181, main_v182, main_v183, main_v184, main_v185, main_v186, main_v187, main_v188, main_v189, main_v190, main_v191, main_v192, main_v193, main_v194, main_v195, main_v196, main_v197, main_v198, main_v199, main_v200]
theorem main_part3_ops0_writes : (main_part3_ops0 : List (HloOp τ sig (Elt Ideal))).Forall fun op => op.writes ⊆ ((main_part3_ops0_W).map (Proc.devRef (τ := τ) .tc)).toFinset :=
  writes_of_eq rfl

theorem W1_keep (c : Dev nD) (r : Ref sig .tc) (h : r ∉ main_part0_ops0_W) :
    W1 m ρ c (Proc.devRef .tc r) = W0 m ρ c (Proc.devRef .tc r) :=
  StableHlo.after_of_writes_sub main_part0_ops0 _ main_part0_ops0_writes h
theorem W2_keep (c : Dev nD) (r : Ref sig .tc) (h : ∀ w, Pipeline.arrRef spec0 w ≠ r) :
    W2 m ρ c (Proc.devRef .tc r) = W1 m ρ c (Proc.devRef .tc r) :=
  W2_of_ne m ρ c r h
theorem W3_keep (c : Dev nD) (r : Ref sig .tc) (h : r ∉ main_part0_ops1_W) :
    W3 m ρ c (Proc.devRef .tc r) = W2 m ρ c (Proc.devRef .tc r) :=
  StableHlo.after_of_writes_sub main_part0_ops1 _ main_part0_ops1_writes h
theorem W4_keep (c : Dev nD) (r : Ref sig .tc) (h : ∀ w, Pipeline.arrRef spec1 w ≠ r) :
    W4 m ρ c (Proc.devRef .tc r) = W3 m ρ c (Proc.devRef .tc r) :=
  W4_of_ne m ρ c r h
theorem W5_keep (c : Dev nD) (r : Ref sig .tc) (h : r ∉ main_part0_ops2_W) :
    W5 m ρ c (Proc.devRef .tc r) = W4 m ρ c (Proc.devRef .tc r) :=
  StableHlo.after_of_writes_sub main_part0_ops2 _ main_part0_ops2_writes h
theorem W6_keep (c : Dev nD) (r : Ref sig .tc) (h : r ∉ main_part1_ops0_W) :
    W6 m ρ c (Proc.devRef .tc r) = W5 m ρ c (Proc.devRef .tc r) :=
  StableHlo.after_of_writes_sub main_part1_ops0 _ main_part1_ops0_writes h
theorem W7_keep (c : Dev nD) (r : Ref sig .tc) (h : ∀ w, Pipeline.arrRef spec2 w ≠ r) :
    W7 m ρ c (Proc.devRef .tc r) = W6 m ρ c (Proc.devRef .tc r) :=
  W7_of_ne m ρ c r h
theorem W8_keep (c : Dev nD) (r : Ref sig .tc) (h : r ∉ main_part1_ops1_W) :
    W8 m ρ c (Proc.devRef .tc r) = W7 m ρ c (Proc.devRef .tc r) :=
  StableHlo.after_of_writes_sub main_part1_ops1 _ main_part1_ops1_writes h
theorem W9_keep (c : Dev nD) (r : Ref sig .tc) (h : r ∉ main_part2_ops0_W) :
    W9 m ρ c (Proc.devRef .tc r) = W8 m ρ c (Proc.devRef .tc r) :=
  StableHlo.after_of_writes_sub main_part2_ops0 _ main_part2_ops0_writes h

abbrev Untouched2 (r : Ref sig .tc) : Prop := r ∉ main_part0_ops0_W ∧ ∀ w, Pipeline.arrRef spec0 w ≠ r
abbrev Untouched4 (r : Ref sig .tc) : Prop := Untouched2 r ∧ r ∉ main_part0_ops1_W ∧ ∀ w, Pipeline.arrRef spec1 w ≠ r
abbrev Untouched7 (r : Ref sig .tc) : Prop :=
  Untouched4 r ∧ r ∉ main_part0_ops2_W ∧ r ∉ main_part1_ops0_W ∧ ∀ w, Pipeline.arrRef spec2 w ≠ r
abbrev Untouched (r : Ref sig .tc) : Prop :=
  Untouched7 r ∧ r ∉ main_part1_ops1_W ∧ r ∉ main_part2_ops0_W ∧ r ∉ main_part3_ops0_W

theorem W2_of_untouched (c : Dev nD) (r : Ref sig .tc) (h : Untouched2 r) :
    W2 m ρ c (Proc.devRef .tc r) = m ((c : Thread nD τ).loc r) :=
  (W2_keep m ρ c r h.2).trans (W1_keep m ρ c r h.1)

theorem W4_of_untouched (c : Dev nD) (r : Ref sig .tc) (h : Untouched4 r) :
    W4 m ρ c (Proc.devRef .tc r) = m ((c : Thread nD τ).loc r) :=
  ((W4_keep m ρ c r h.2.2).trans (W3_keep m ρ c r h.2.1)).trans (W2_of_untouched m ρ c r h.1)

theorem W7_of_untouched (c : Dev nD) (r : Ref sig .tc) (h : Untouched7 r) :
    W7 m ρ c (Proc.devRef .tc r) = m ((c : Thread nD τ).loc r) :=
  (((W7_keep m ρ c r h.2.2.2).trans (W6_keep m ρ c r h.2.2.1)).trans (W5_keep m ρ c r h.2.1)).trans
    (W4_of_untouched m ρ c r h.1)

theorem W10_of_untouched (c : Dev nD) (r : Ref sig .tc) (h : Untouched r) :
    W10 m ρ c (Proc.devRef .tc r) = m ((c : Thread nD τ).loc r) :=
  (((StableHlo.after_of_writes_sub main_part3_ops0 _ main_part3_ops0_writes h.2.2.2).trans
    (W9_keep m ρ c r h.2.2.1)).trans (W8_keep m ρ c r h.2.1)).trans (W7_of_untouched m ρ c r h.1)

theorem W7_main_v1 (c : Dev nD) :
    (W7 m ρ c (Proc.devRef .tc main_v1) : S256x2048.Idx → EReal)
      = extractStridedSlice S256x2048 ![0, 6000] (m ((c : Thread nD τ).loc main_arg0)) slices_S256x8048_S256x2048_0_6000 :=
  calc W7 m ρ c (Proc.devRef .tc main_v1)
    _ = W6 m ρ c (Proc.devRef .tc main_v1) := W7_keep m ρ c main_v1 (by decide)
    _ = W5 m ρ c (Proc.devRef .tc main_v1) := W6_keep m ρ c main_v1 (by decide)
    _ = W4 m ρ c (Proc.devRef .tc main_v1) := W5_keep m ρ c main_v1 (by decide)
    _ = W3 m ρ c (Proc.devRef .tc main_v1) := W4_keep m ρ c main_v1 (by decide)
    _ = W2 m ρ c (Proc.devRef .tc main_v1) := W3_keep m ρ c main_v1 (by decide)
    _ = W1 m ρ c (Proc.devRef .tc main_v1) := W2_keep m ρ c main_v1 (by decide)
    _ = _ := by show StableHlo.after main_part0_ops0 _ _ = _; after_results

theorem W4_main_v43_eq (c : Dev nD) : W4 m ρ c (Proc.devRef .tc main_v43) = (dat1 (V3 m ρ) c).arrAt 5 cfg1.N :=
  W4_arr m ρ c 5
theorem W7_main_v64_eq (c : Dev nD) : W7 m ρ c (Proc.devRef .tc main_v64) = (dat2 (V6 m ρ) c).arrAt 5 cfg2.N :=
  W7_arr m ρ c 5

end Cert.KernelIdeal.Hand

end
-- ==== Proof.Net.lean ====
import proofs.«161050_j60275571032433_1_alg».proof.Proof.Spec
import Idealize.ShloMosaic.Lib.ValueIdx

noncomputable section

namespace Cert.Net

open Idealize.ShloMosaic Idealize.ShloMosaic.ValueIdx

-- Every index word, read as a signed integer, lies in [0, n).
def InRange {E : Nat} (n : Nat) (a : IVec ⟨1, ![E]⟩ 32) : Prop := ∀ i, 0 ≤ (a i).toInt ∧ (a i).toInt < (n : Int)

def idxFn {E n : Nat} (a : IVec ⟨1, ![E]⟩ 32) (h : InRange n a) (e : Fin E) : Fin n :=
  ⟨(a (ix1 e)).toInt.toNat, by have := h (ix1 e); omega⟩

theorem idxFn_toInt {E n : Nat} (a : IVec ⟨1, ![E]⟩ 32) (h : InRange n a) (e : Fin E) :
    (a (ix1 e)).toInt = ((idxFn a h e).val : Int) := by
  have := h (ix1 e); unfold idxFn; simp only; omega

abbrev v1 {n : Nat} (a : (⟨1, ![n]⟩ : Shape).Idx → EReal) : Fin n → EReal := fun j => a (ix1 j)
abbrev v2 {a b : Nat} (f : (⟨2, ![a, b]⟩ : Shape).Idx → EReal) : Fin a → Fin b → EReal := fun p k => f (ix2 p k)

-- Columns 0 to 5999 of the input matrix.
def gene (x : (⟨2, ![256, 8048]⟩ : Shape).Idx → EReal) : Fin 256 → Fin 6000 → EReal :=
  fun p k => x (ix2 p (Fin.castLE (by decide) k))

section
variable (x : (⟨2, ![256, 8048]⟩ : Shape).Idx → EReal)
  (r1 c1 : IVec ⟨1, ![180000]⟩ 32) (w1 : (⟨1, ![180000]⟩ : Shape).Idx → EReal) (b1 g1 bb1 : (⟨1, ![12000]⟩ : Shape).Idx → EReal)
  (r2 c2 : IVec ⟨1, ![144000]⟩ 32) (w2 : (⟨1, ![144000]⟩ : Shape).Idx → EReal) (b2 g2 bb2 : (⟨1, ![3000]⟩ : Shape).Idx → EReal)
  (r3 c3 : IVec ⟨1, ![18000]⟩ 32) (w3 : (⟨1, ![18000]⟩ : Shape).Idx → EReal) (b3 g3 bb3 : (⟨1, ![6]⟩ : Shape).Idx → EReal)
  (hr1 : InRange 12000 r1) (hc1 : InRange 6000 c1) (hr2 : InRange 3000 r2) (hc2 : InRange 12000 c2)
  (hr3 : InRange 6 r3) (hc3 : InRange 3000 c3)

-- The three sparse layers stacked: each is `layer` of the one before.
def H1 : Fin 256 → Fin 12000 → EReal :=
  Cert.Spec.layer (gene x) (idxFn c1 hc1) (idxFn r1 hr1) (v1 w1) (v1 b1) (v1 g1) (v1 bb1)

def H2 : Fin 256 → Fin 3000 → EReal :=
  Cert.Spec.layer (H1 x r1 c1 w1 b1 g1 bb1 hr1 hc1) (idxFn c2 hc2) (idxFn r2 hr2) (v1 w2) (v1 b2) (v1 g2) (v1 bb2)

def H3 : Fin 256 → Fin 6 → EReal :=
  Cert.Spec.layer (H2 x r1 c1 w1 b1 g1 bb1 r2 c2 w2 b2 g2 bb2 hr1 hc1 hr2 hc2) (idxFn c3 hc3) (idxFn r3 hr3)
    (v1 w3) (v1 b3) (v1 g3) (v1 bb3)

end

end Cert.Net

end
-- ==== Proof.LibGatherScatter.lean ====
import Idealize.ShloMosaic.PureOps.Ideal
import Idealize.ShloMosaic.Lib.ValueIdxRank1

noncomputable section

open scoped BigOperators

namespace Idealize.ShloMosaic.GatherScatter

open Idealize.ShloMosaic Idealize.ShloMosaic.ValueIdx

section General
variable {s si u : Shape}

theorem not_mem_kept {axes : List (Fin s.rank)} {a : Fin s.rank} (h : a ∈ axes) : a ∉ s.kept axes :=
  fun hk => of_decide_eq_true (List.mem_filter.mp hk).2 h

theorem mem_kept {axes : List (Fin s.rank)} {a : Fin s.rank} (h : a ∉ axes) : a ∈ s.kept axes :=
  List.mem_filter.mpr ⟨List.mem_finRange a, decide_eq_true h⟩

-- The in-range test of the landing index is the target's own range.
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq, funext_iff]
    refine forall_congr' fun a => Fin.ext_iff.trans ?_
    have := (h a).1
    show (d.start j idx a + d.window j a).toNat = (i a).val ↔ _
    omega
  · rename_i h
    refine ⟨nofun, fun H => (h fun a => ?_).elim⟩
    have := H a
    have := (i a).isLt
    omega

-- Over the extended reals an accumulating scatter adds to each element the updates that land on it.
theorem scatterAdd_apply {φ : FTy} (d : ScatterDims s si u) {w : Nat} (x : s.Idx → EReal) (idx : IVec si w)
    (upd : u.Idx → EReal) (i : s.Idx) :
    Host.scatterAdd (F := Ideal) (φ := φ) d x idx upd i
      = x i + ∑ j, if ∀ a, d.start j idx a + (d.window j a : Int) = ((i a).val : Int) then upd j else 0 := by
  simp only [Host.scatterAdd, Ideal.hostScatterAdd_def, Ideal.hostScatterAdd, Finset.sum_filter,
    resultIdx?_eq_some_iff]

end General

section PairScatter

abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

-- On either axis an update starts at its own index and has no window coordinate.
theorem pairScatter_coord (idx : IVec ⟨2, ![M, 2]⟩ w) (j : (⟨1, ![M]⟩ : Shape).Idx) (a : Fin 2) :
    (pairScatterDims N N' M wf).start j idx a + ((pairScatterDims N N' M wf).window j a : Int)
      = (idx (ix2 (j 0) a)).toInt := by
  have hmem : a ∈ ([0, 1] : List (Fin 2)) := by fin_cases a <;> decide
  unfold ScatterDims.start ScatterDims.window
  rw [dif_pos hmem, dif_neg (not_mem_kept hmem), Nat.cast_zero, add_zero]
  congr 2
  funext b
  fin_cases a <;> fin_cases b <;> rfl

end PairScatter

section RowScatter

abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

-- On the row axis update `(j, f)` starts at row `j`'s index; on the column axis its coordinate is `f`.
theorem rowScatter_coord0 (idx : IVec ⟨2, ![M, 1]⟩ w) (j : Fin M) (f : Fin C) :
    (rowScatterDims N C M wf).start (ix2 j f) idx 0 + ((rowScatterDims N C M wf).window (ix2 j f) 0 : Int)
      = (idx (ix2 j 0)).toInt := by
  have hmem : (0 : Fin 2) ∈ ([0] : List (Fin 2)) := List.mem_singleton.mpr rfl
  unfold ScatterDims.start ScatterDims.window
  rw [dif_pos hmem, dif_neg (not_mem_kept hmem), Nat.cast_zero, add_zero]
  congr 2
  funext b
  fin_cases b <;> rfl

theorem rowScatter_coord1 (idx : IVec ⟨2, ![M, 1]⟩ w) (j : Fin M) (f : Fin C) :
    (rowScatterDims N C M wf).start (ix2 j f) idx 1 + ((rowScatterDims N C M wf).window (ix2 j f) 1 : Int)
      = (f.val : Int) := by
  have hmem : (1 : Fin 2) ∉ ([0] : List (Fin 2)) := by decide
  unfold ScatterDims.start ScatterDims.window
  rw [dif_neg hmem, dif_pos (mem_kept hmem), zero_add]
  rfl

end RowScatter

section Sums
variable {φ : FTy}

theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  rw [scatterAdd_apply, Finset.sum_filter]
  refine congrArg _ ((Equiv.sum_comp idxEquiv1.symm _).symm.trans (Finset.sum_congr rfl fun j _ => if_congr ?_ rfl rfl))
  exact Fin.forall_fin_two.trans (by rw [pairScatter_coord, pairScatter_coord]; exact Iff.rfl)

theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  rw [scatterAdd_apply, Finset.sum_filter, sum_idx2]
  refine congrArg _ (Finset.sum_congr rfl fun j _ => ?_)
  simp only [Fin.forall_fin_two, rowScatter_coord0, rowScatter_coord1]
  show (∑ f : Fin C, if (idx (ix2 j 0)).toInt = (i.val : Int) ∧ (f.val : Int) = (g.val : Int) then upd (ix2 j f) else 0) = _
  simp only [Int.natCast_inj, Fin.val_inj, ite_and, Finset.sum_ite_irrel, Finset.sum_ite_eq', Finset.mem_univ, if_true,
    Finset.sum_const_zero]

end Sums

end Idealize.ShloMosaic.GatherScatter

end
-- ==== Proof.PreFacts.lean ====
import proofs.«161050_j60275571032433_1_alg».proof.Pre_finite_inputs
import Idealize.ShloMosaic.Lib.ReduceAll
import Idealize.ShloMosaic.Lib.StableHlo.Predicate
import Idealize.ShloMosaic.PureOps.Ideal.Laws

noncomputable section

namespace Cert.PreFacts

open Idealize.ShloMosaic
open Cert.Pre_finite_inputs

instance : Subsingleton S_.Idx := ⟨fun a b => funext fun d => d.elim0⟩

abbrev j0 : S_.Idx := fun a => a.elim0

theorem inf_eq : Ideal.ofBits .f32 0x7F800000#32 = ⊤ := by
  simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_eq] at h
  simp only [Ideal.cmp, StableHlo.Predicate.ofBool_eq_one_iff, decide_eq_true_eq] at h
  induction x using EReal.rec with
  | bot => simp at h
  | top => simp at h
  | coe r => exact ⟨r, rfl⟩

section All
variable {s : Shape} {axes : List (Fin s.rank)}

theorem finite_of_all (a : FVec Ideal s .f32) (hb : S_.BroadcastsInDim s ![]) (hr : s.ReducesTo axes S_) (h0 : 0 < S_.numel)
    (init : IVec S_ 1) (j : S_.Idx)
    (e : Host.reduce IntOp.andi (cmpf .olt (Host.absf a) (broadcastInDim s ![] hb (constant S_ .f32 0x7F800000#32))) init hr h0 j = 1#1)
    (i : s.Idx) : ∃ r : ℝ, a i = (r : EReal) :=
  real_of_abs_lt (a i) (Host.reduce_andi_all _ init hr h0 j e i)

theorem nonneg_of_all (c : IVec s 32) (hb : S_.BroadcastsInDim s ![]) (hr : s.ReducesTo axes S_) (h0 : 0 < S_.numel)
    (init : IVec S_ 1) (j : S_.Idx)
    (e : Host.reduce IntOp.andi (cmpi .sge c (broadcastInDim s ![] hb (constantI S_ 32 0#32))) init hr h0 j = 1#1)
    (i : s.Idx) : 0 ≤ (c i).toInt := by
  have h : IntOp.cmpi .sge (c i) 0#32 = 1#1 := Host.reduce_andi_all _ init hr h0 j e i
  simp only [IntOp.cmpi, StableHlo.Predicate.ofBool_eq_one_iff, BitVec.sle, decide_eq_true_eq] at h
  simpa using h

theorem lt_of_all (c : IVec s 32) (n : BitVec 32) (N : Int) (hn : n.toInt = N) (hb : S_.BroadcastsInDim s ![]) (hr : s.ReducesTo axes S_)
    (h0 : 0 < S_.numel) (init : IVec S_ 1) (j : S_.Idx)
    (e : Host.reduce IntOp.andi (cmpi .slt c (broadcastInDim s ![] hb (constantI S_ 32 n))) init hr h0 j = 1#1)
    (i : s.Idx) : (c i).toInt < N := by
  have h : IntOp.cmpi .slt (c i) n = 1#1 := Host.reduce_andi_all _ init hr h0 j e i
  simp only [IntOp.cmpi, StableHlo.Predicate.ofBool_eq_one_iff, BitVec.slt, decide_eq_true_eq] at h
  rw [← hn]; exact h

end All

theorem select_wrap_eq {s : Shape} (c z nv : IVec s 32) (hz : ∀ i, z i = 0#32) (hc : ∀ i, 0 ≤ (c i).toInt) :
    select (cmpi .slt c z) (addi c nv) c = c := by
  funext i
  have h : IntOp.cmpi .slt (c i) (z i) ≠ 1 := by
    rw [hz i]
    intro h1
    have h : IntOp.cmpi .slt (c i) 0#32 = 1#1 := h1
    simp only [IntOp.cmpi, StableHlo.Predicate.ofBool_eq_one_iff, BitVec.slt, decide_eq_true_eq] at h
    have h0 : (0#32 : BitVec 32).toInt = 0 := by decide
    rw [h0] at h
    exact absurd (hc i) (not_le.mpr h)
  show Scalar.select (IntOp.cmpi .slt (c i) (z i)) (IntOp.addi (c i) (nv i)) (c i) = c i
  rw [Scalar.select, if_neg h]

variable [Cert.Pre_finite_inputs.Facts]

structure Decoded (a0 : FVec Ideal S256x8048 .f32) (a1 : IVec S180000 32) (a2 : IVec S180000 32) (a3 : FVec Ideal S180000 .f32) (a4 : FVec Ideal S12000 .f32) (a5 : FVec Ideal S12000 .f32) (a6 : FVec Ideal S12000 .f32) (a7 : IVec S144000 32) (a8 : IVec S144000 32) (a9 : FVec Ideal S144000 .f32) (a10 : FVec Ideal S3000 .f32) (a11 : FVec Ideal S3000 .f32) (a12 : FVec Ideal S3000 .f32) (a13 : IVec S18000 32) (a14 : IVec S18000 32) (a15 : FVec Ideal S18000 .f32) (a16 : FVec Ideal S6 .f32) (a17 : FVec Ideal S6 .f32) (a18 : FVec Ideal S6 .f32) : Prop where
  fin0 : ∀ i, ∃ r : ℝ, a0 i = (r : EReal)
  fin3 : ∀ i, ∃ r : ℝ, a3 i = (r : EReal)
  fin4 : ∀ i, ∃ r : ℝ, a4 i = (r : EReal)
  fin5 : ∀ i, ∃ r : ℝ, a5 i = (r : EReal)
  fin6 : ∀ i, ∃ r : ℝ, a6 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin15 : ∀ i, ∃ r : ℝ, a15 i = (r : EReal)
  fin16 : ∀ i, ∃ r : ℝ, a16 i = (r : EReal)
  fin17 : ∀ i, ∃ r : ℝ, a17 i = (r : EReal)
  fin18 : ∀ i, ∃ r : ℝ, a18 i = (r : EReal)
  rng1 : ∀ i, 0 ≤ (a1 i).toInt ∧ (a1 i).toInt < 12000
  rng2 : ∀ i, 0 ≤ (a2 i).toInt ∧ (a2 i).toInt < 6000
  rng7 : ∀ i, 0 ≤ (a7 i).toInt ∧ (a7 i).toInt < 3000
  rng8 : ∀ i, 0 ≤ (a8 i).toInt ∧ (a8 i).toInt < 12000
  rng13 : ∀ i, 0 ≤ (a13 i).toInt ∧ (a13 i).toInt < 6
  rng14 : ∀ i, 0 ≤ (a14 i).toInt ∧ (a14 i).toInt < 3000

theorem decoded_of_fn {a0 a1 a2 a3 a4 a5 a6 a7 a8 a9 a10 a11 a12 a13 a14 a15 a16 a17 a18 a19 a20 a21 a22 a23 a24 a25 a26 a27 a28 a29 a30 a31 a32 a33 a34 a35 a36 a37 a38}
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 = (fun _ => 1#1)) :
    Decoded a0 a1 a2 a3 a4 a5 a6 a7 a8 a9 a10 a11 a12 a13 a14 a15 a16 a17 a18 := by
  have e := congrFun h j0
  simp only [fn, fn_part1, fn_part2, fn_part3, fn_part4, fn_part5, fn_part6, fn_part7, fn_part8, fn_part9, fn_part10, fn_part11, fn_part12, andi, IntOp.andi_eq_one] at e
  obtain ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨f0, f3⟩, f4⟩, f5⟩, f6⟩, f9⟩, f10⟩, f11⟩, f12⟩, f15⟩, f16⟩, f17⟩, f18⟩, f19⟩, f20⟩, f21⟩, f22⟩, f23⟩, f24⟩, f25⟩, f26⟩, f27⟩, f28⟩, f29⟩, f30⟩, f31⟩, f32⟩, f33⟩, f34⟩, f35⟩, f36⟩, f37⟩, f38⟩, g1⟩, l1⟩, g2⟩, l2⟩, g7⟩, l7⟩, g8⟩, l8⟩, g13⟩, l13⟩, g14⟩, l14⟩ := e
  exact {
    fin0 := finite_of_all _ _ _ _ _ _ f0
    fin3 := finite_of_all _ _ _ _ _ _ f3
    fin4 := finite_of_all _ _ _ _ _ _ f4
    fin5 := finite_of_all _ _ _ _ _ _ f5
    fin6 := finite_of_all _ _ _ _ _ _ f6
    fin9 := finite_of_all _ _ _ _ _ _ f9
    fin10 := finite_of_all _ _ _ _ _ _ f10
    fin11 := finite_of_all _ _ _ _ _ _ f11
    fin12 := finite_of_all _ _ _ _ _ _ f12
    fin15 := finite_of_all _ _ _ _ _ _ f15
    fin16 := finite_of_all _ _ _ _ _ _ f16
    fin17 := finite_of_all _ _ _ _ _ _ f17
    fin18 := finite_of_all _ _ _ _ _ _ f18
    rng1 := fun i => ⟨nonneg_of_all _ _ _ _ _ _ g1 i, lt_of_all _ 12000#32 12000 (by decide) _ _ _ _ _ l1 i⟩
    rng2 := fun i => ⟨nonneg_of_all _ _ _ _ _ _ g2 i, lt_of_all _ 6000#32 6000 (by decide) _ _ _ _ _ l2 i⟩
    rng7 := fun i => ⟨nonneg_of_all _ _ _ _ _ _ g7 i, lt_of_all _ 3000#32 3000 (by decide) _ _ _ _ _ l7 i⟩
    rng8 := fun i => ⟨nonneg_of_all _ _ _ _ _ _ g8 i, lt_of_all _ 12000#32 12000 (by decide) _ _ _ _ _ l8 i⟩
    rng13 := fun i => ⟨nonneg_of_all _ _ _ _ _ _ g13 i, lt_of_all _ 6#32 6 (by decide) _ _ _ _ _ l13 i⟩
    rng14 := fun i => ⟨nonneg_of_all _ _ _ _ _ _ g14 i, lt_of_all _ 3000#32 3000 (by decide) _ _ _ _ _ l14 i⟩ }

end Cert.PreFacts

end
-- ==== Proof.IValue.lean ====
import proofs.«161050_j60275571032433_1_alg».proof.Proof.IKeep
import proofs.«161050_j60275571032433_1_alg».proof.Proof.Net
import proofs.«161050_j60275571032433_1_alg».proof.Proof.LibGatherScatter
import proofs.«161050_j60275571032433_1_alg».proof.Proof.PreFacts
import Idealize.ShloMosaic.Lib.ValueLayout

noncomputable section

namespace Cert.KernelIdeal.Hand

open Cert.KernelIdeal Cert.KernelIdeal.Gen
open Idealize.ShloMosaic
open Idealize.ShloMosaic.ValueIdx Idealize.ShloMosaic.GatherScatter
open Cert.Net Cert.Spec

section Glue

variable {nin nout E : Nat}

/-- A word vector with `n` added to its negative entries. -/
abbrev wrap (hs : S_.BroadcastsInDim ⟨1, ![E]⟩ ![]) (n : BitVec 32) (a : IVec ⟨1, ![E]⟩ 32) : IVec ⟨1, ![E]⟩ 32 :=
  select (cmpi .slt a (broadcastInDim ⟨1, ![E]⟩ ![] hs (constantI S_ 32 0#32)))
    (addi a (broadcastInDim ⟨1, ![E]⟩ ![] hs (constantI S_ 32 n))) a

theorem wrap_eq (hs : S_.BroadcastsInDim ⟨1, ![E]⟩ ![]) (n : BitVec 32) (a : IVec ⟨1, ![E]⟩ 32) (ha : ∀ i, 0 ≤ (a i).toInt) :
    wrap hs n a = a :=
  Cert.PreFacts.select_wrap_eq a _ _ (fun _ => rfl) ha

/-- Two one-column matrices side by side. -/
def pairCols {α : Type} (hc : Shape.Concatenates [(⟨2, ![E, 1]⟩ : Shape), ⟨2, ![E, 1]⟩] ⟨2, ![E, 2]⟩ 1)
    (x y : (⟨2, ![E, 1]⟩ : Shape).Idx → α) : (⟨2, ![E, 2]⟩ : Shape).Idx → α :=
  concatenate ⟨2, ![E, 2]⟩ 1 [⟨⟨2, ![E, 1]⟩, x⟩, ⟨⟨2, ![E, 1]⟩, y⟩] hc

theorem col_apply {α : Type} (v : (⟨1, ![E]⟩ : Shape).Idx → α)
    (h : (⟨1, ![E]⟩ : Shape).BroadcastsInDim ⟨2, ![E, 1]⟩ (![0] : Fin 1 → Fin 2)) (e : Fin E) :
    broadcastInDim ⟨2, ![E, 1]⟩ ![0] h v (ix2 e 0) = v (ix1 e) :=
  broadcastInDim_apply ![0] h v (ix2 e 0) (ix1 e) fun a => by
    match a with
    | ⟨0, _⟩ =>
      show e.val = if E = 1 then 0 else e.val
      exact (ite_eq_right_iff.2 fun h1 => by have := e.isLt; omega).symm

variable {wf : ScatterDims.WF ⟨2, ![nin, nout]⟩ ⟨2, ![E, 2]⟩ ⟨1, ![E]⟩ [] [0, 1] [0, 1] 1}
  {hz : S_.BroadcastsInDim ⟨2, ![nin, nout]⟩ ![]} {hs : S_.BroadcastsInDim ⟨1, ![E]⟩ ![]}
  {hb : (⟨1, ![E]⟩ : Shape).BroadcastsInDim ⟨2, ![E, 1]⟩ (![0] : Fin 1 → Fin 2)}
  {hc : Shape.Concatenates [(⟨2, ![E, 1]⟩ : Shape), ⟨2, ![E, 1]⟩] ⟨2, ![E, 2]⟩ 1} {n n' : BitVec 32}
  {ci ri : IVec ⟨1, ![E]⟩ 32} (hci : InRange nin ci) (hri : InRange nout ri) {w : (⟨1, ![E]⟩ : Shape).Idx → EReal}

/-- In-range edges accumulated into zeros at the pairs (column, row): the dense matrix of the edge list. -/
theorem scat_apply (k : Fin nin) (j : Fin nout) :
    Host.scatterAdd (F := Ideal) (φ := .f32) (pairScatterDims nin nout E wf)
        (broadcastInDim ⟨2, ![nin, nout]⟩ ![] hz (constant (F := Ideal) S_ .f32 0x00000000#32))
        (pairCols hc (broadcastInDim ⟨2, ![E, 1]⟩ ![0] hb (wrap hs n ci)) (broadcastInDim ⟨2, ![E, 1]⟩ ![0] hb (wrap hs n' ri)))
        w (ix2 k j)
      = scatW (idxFn ci hci) (idxFn ri hri) (v1 w) k j := by
  rw [wrap_eq hs n ci fun i => (hci i).1, wrap_eq hs n' ri fun i => (hri i).1, pairScatterAdd_apply]
  refine (congrArg (· + _) Ideal.ofBits_zero_f32).trans ((zero_add _).trans (Finset.sum_congr ?_ fun _ _ => rfl))
  ext e
  rw [Finset.mem_filter, Finset.mem_filter,
    show pairCols hc _ _ (ix2 e 0) = _ from concatenate_pair_apply_left 1 _ _ hc (ix2 e 0) rfl (ix2 e 0) fun d => by
      match d with | ⟨0, _⟩ => rfl | ⟨1, _⟩ => rfl,
    show pairCols hc _ _ (ix2 e 1) = _ from concatenate_pair_apply_right 1 _ _ hc (ix2 e 1) rfl rfl (ix2 e 0) (fun d hd => by
      match d with | ⟨0, _⟩ => rfl | ⟨1, _⟩ => exact absurd rfl hd) rfl,
    col_apply, col_apply, idxFn_toInt ci hci e, idxFn_toInt ri hri e, Int.natCast_inj, Int.natCast_inj, Fin.val_inj, Fin.val_inj]

/-- With finite activations and weights the dense product with the edge matrix, biased, squashed and normalised, is the layer. -/
theorem layer_eq {hr : (⟨1, ![nout]⟩ : Shape).ShapeCasts ⟨2, ![1, nout]⟩} {b g bb : (⟨1, ![nout]⟩ : Shape).Idx → EReal}
    {x : (⟨2, ![256, nin]⟩ : Shape).Idx → EReal} {X : Fin 256 → Fin nin → EReal} (hX : ∀ p k, x (ix2 p k) = X p k)
    (hXr : IsReal₂ X) (hw : IsReal₁ w) (p : Fin 256) (j : Fin nout) :
    bn (act (denseLin (fun p k => truncf (F := Ideal) .bf16 x bitsLt_bf16_f32 (ix2 p k))
          (fun k j => truncf (F := Ideal) .bf16
            (Host.scatterAdd (F := Ideal) (φ := .f32) (pairScatterDims nin nout E wf)
              (broadcastInDim ⟨2, ![nin, nout]⟩ ![] hz (constant (F := Ideal) S_ .f32 0x00000000#32))
              (pairCols hc (broadcastInDim ⟨2, ![E, 1]⟩ ![0] hb (wrap hs n ci)) (broadcastInDim ⟨2, ![E, 1]⟩ ![0] hb (wrap hs n' ri)))
              w) bitsLt_bf16_f32 (ix2 k j)))
        (fun j => shapeCast ⟨2, ![1, nout]⟩ b hr (ix2 0 j)))
      (fun j => shapeCast ⟨2, ![1, nout]⟩ g hr (ix2 0 j)) (fun j => shapeCast ⟨2, ![1, nout]⟩ bb hr (ix2 0 j)) p j
      = layer X (idxFn ci hci) (idxFn ri hri) (v1 w) (v1 b) (v1 g) (v1 bb) p j := by
  simp only [truncf_apply, scat_apply hci hri, shapeCast_a_1a_apply, hX]
  rw [dense_eq_sparse X _ _ _ hXr fun e => hw _]
  rfl

end Glue

section Layers

variable (m : (ℓ : Loc nD τ sig) → Buf (Elt Ideal) ℓ) (ρ : Dev nD → PrngReg) (c : Dev nD)

theorem W2_arg (r : Ref sig .tc) (h : Untouched2 r) : W2 m ρ c (no_index (Proc.devRef .tc r)) = m (c.tc.loc r) :=
  W2_of_untouched m ρ c r h

theorem W4_arg (r : Ref sig .tc) (h : Untouched4 r) : W4 m ρ c (no_index (Proc.devRef .tc r)) = m (c.tc.loc r) :=
  W4_of_untouched m ρ c r h

/-- The first region's result is layer 1 of the arguments. -/
theorem region0 (hr1 : InRange 12000 (m (c.tc.loc main_arg1))) (hc1 : InRange 6000 (m (c.tc.loc main_arg2)))
    (hx : IsReal₁ (m (c.tc.loc main_arg0) : S256x8048.Idx → EReal)) (hw1 : IsReal₁ (m (c.tc.loc main_arg3) : S180000.Idx → EReal))
    (p : Fin 256) (j : Fin 12000) :
    (W2 m ρ c (Proc.devRef .tc main_v22) : S256x12000.Idx → EReal) (ix2 p j)
      = H1 (m (c.tc.loc main_arg0)) (m (c.tc.loc main_arg1)) (m (c.tc.loc main_arg2)) (m (c.tc.loc main_arg3)) (m (c.tc.loc main_arg4)) (m (c.tc.loc main_arg5)) (m (c.tc.loc main_arg6)) hr1 hc1 p j := by
  rw [show W2 m ρ c (Proc.devRef .tc main_v22) = _ from W2_arr m ρ c 5, out0_apply]
  simp only [V1, W1, main_part0_ops0, ← pairCols.eq_1]
  after_results_simp
  exact layer_eq hc1 hr1 (X := gene _) (fun p k => slice2_axis1_apply 0 _ _ p k _ (Nat.zero_add _).symm) (fun p k => hx _) hw1 p j

/-- The second region's result is a layer over the first's, when that is finite. -/
theorem region1 {X : Fin 256 → Fin 12000 → EReal}
    (hX : ∀ p k, (W2 m ρ c (Proc.devRef .tc main_v22) : S256x12000.Idx → EReal) (ix2 p k) = X p k) (hXr : IsReal₂ X)
    (hr2 : InRange 3000 (m (c.tc.loc main_arg7))) (hc2 : InRange 12000 (m (c.tc.loc main_arg8))) (hw2 : IsReal₁ (m (c.tc.loc main_arg9) : S144000.Idx → EReal))
    (p : Fin 256) (j : Fin 3000) :
    (W4 m ρ c (Proc.devRef .tc main_v43) : S256x3000.Idx → EReal) (ix2 p j)
      = layer X (idxFn _ hc2) (idxFn _ hr2) (v1 (m (c.tc.loc main_arg9))) (v1 (m (c.tc.loc main_arg10))) (v1 (m (c.tc.loc main_arg11))) (v1 (m (c.tc.loc main_arg12))) p j := by
  rw [W4_main_v43_eq, out1_apply]
  simp only [V3, W3, main_part0_ops1, ← pairCols.eq_1]
  after_results_simp
  simp (disch := decide) only [W2_arg]
  exact layer_eq hc2 hr2 hX hXr hw2 p j

end Layers

end Cert.KernelIdeal.Hand

end
-- ==== Proof.IValue23.lean ====
import proofs.«161050_j60275571032433_1_alg».proof.Proof.IValue

noncomputable section

namespace Cert.KernelIdeal.Hand

open Cert.KernelIdeal Cert.KernelIdeal.Gen
open Idealize.ShloMosaic Idealize.ShloMosaic.ValueIdx
open Cert.Net Cert.Spec

section Stack

variable (m : (ℓ : Loc nD τ sig) → Buf (Elt Ideal) ℓ) (ρ : Dev nD → PrngReg) (c : Dev nD)

/-- The third region's result is a layer over the second's, when that is finite. -/
theorem region2 {X : Fin 256 → Fin 3000 → EReal}
    (hX : ∀ p k, (W4 m ρ c (Proc.devRef .tc main_v43) : S256x3000.Idx → EReal) (ix2 p k) = X p k) (hXr : IsReal₂ X)
    (hr3 : InRange 6 (m (c.tc.loc main_arg13))) (hc3 : InRange 3000 (m (c.tc.loc main_arg14))) (hw3 : IsReal₁ (m (c.tc.loc main_arg15) : S18000.Idx → EReal))
    (p : Fin 256) (j : Fin 6) :
    (W7 m ρ c (Proc.devRef .tc main_v64) : S256x6.Idx → EReal) (ix2 p j)
      = layer X (idxFn _ hc3) (idxFn _ hr3) (v1 (m (c.tc.loc main_arg15))) (v1 (m (c.tc.loc main_arg16))) (v1 (m (c.tc.loc main_arg17))) (v1 (m (c.tc.loc main_arg18))) p j := by
  rw [W7_main_v64_eq, out2_apply]
  simp only [V6, W6, W5, main_part1_ops0, main_part0_ops2, ← pairCols.eq_1]
  after_results_simp
  simp (disch := decide) only [W4_arg]
  exact layer_eq hc3 hr3 hX hXr hw3 p j

/-- The three layers stacked: a layer of finite data is finite, so each region's result feeds the next. -/
theorem kernel_h3 (hr1 : InRange 12000 (m ((c.tc : Thread nD τ).loc main_arg1))) (hc1 : InRange 6000 (m ((c.tc : Thread nD τ).loc main_arg2)))
    (hr2 : InRange 3000 (m ((c.tc : Thread nD τ).loc main_arg7))) (hc2 : InRange 12000 (m ((c.tc : Thread nD τ).loc main_arg8)))
    (hr3 : InRange 6 (m ((c.tc : Thread nD τ).loc main_arg13))) (hc3 : InRange 3000 (m ((c.tc : Thread nD τ).loc main_arg14)))
    (hx : Cert.Spec.IsReal₁ ((m ((c.tc : Thread nD τ).loc main_arg0)) : S256x8048.Idx → EReal))
    (hw1 : Cert.Spec.IsReal₁ ((m ((c.tc : Thread nD τ).loc main_arg3)) : S180000.Idx → EReal))
    (hb1 : Cert.Spec.IsReal₁ ((m ((c.tc : Thread nD τ).loc main_arg4)) : S12000.Idx → EReal))
    (hg1 : Cert.Spec.IsReal₁ ((m ((c.tc : Thread nD τ).loc main_arg5)) : S12000.Idx → EReal))
    (hbb1 : Cert.Spec.IsReal₁ ((m ((c.tc : Thread nD τ).loc main_arg6)) : S12000.Idx → EReal))
    (hw2 : Cert.Spec.IsReal₁ ((m ((c.tc : Thread nD τ).loc main_arg9)) : S144000.Idx → EReal))
    (hb2 : Cert.Spec.IsReal₁ ((m ((c.tc : Thread nD τ).loc main_arg10)) : S3000.Idx → EReal))
    (hg2 : Cert.Spec.IsReal₁ ((m ((c.tc : Thread nD τ).loc main_arg11)) : S3000.Idx → EReal))
    (hbb2 : Cert.Spec.IsReal₁ ((m ((c.tc : Thread nD τ).loc main_arg12)) : S3000.Idx → EReal))
    (hw3 : Cert.Spec.IsReal₁ ((m ((c.tc : Thread nD τ).loc main_arg15)) : S18000.Idx → EReal))
    (p : Fin 256) (j : Fin 6) :
    (W7 m ρ c (Proc.devRef .tc main_v64) : S256x6.Idx → EReal) (ix2 p j)
      = H3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) hr1 hc1 hr2 hc2 hr3 hc3 p j := by
  have r1 : IsReal₂ (H1 _ _ _ _ _ _ _ hr1 hc1) :=
    layer_real _ _ _ _ _ _ _ (fun _ _ => hx _) (fun _ => hw1 _) (fun _ => hb1 _) (fun _ => hg1 _) (fun _ => hbb1 _)
  exact region2 m ρ c (region1 m ρ c (region0 m ρ c hr1 hc1 hx hw1) r1 hr2 hc2 hw2)
    (layer_real _ _ _ _ _ _ _ r1 (fun _ => hw2 _) (fun _ => hb2 _) (fun _ => hg2 _) (fun _ => hbb2 _)) hr3 hc3 hw3 p j

end Stack

end Cert.KernelIdeal.Hand

end
-- ==== Proof.RefTerms.lean ====
import proofs.«161050_j60275571032433_1_alg».proof.Proof.Gen.ReferenceIdeal.Run
import Idealize.ShloMosaic.PureOps.Ideal
import Idealize.ShloMosaic.PureOps.Ideal.Laws

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

section AnyValues

variable {F : FTy → Type} [FloatOps F]

def h3termF (V0 : Valuation τ sig (Elt F)) : (Proc.devRef .tc main_v133 : DevRef τ sig).ty.Contents (Elt F) :=
  addf (mulf (mulf (broadcastInDim S256x6 ![0, 1] bcast_S1x6_S256x6_0_1 (broadcastInDim S1x6 ![1] bcast_S6_S1x6_1 (V0 (Proc.devRef .tc main_arg17)))) (subf (res_main_v108 V0) (broadcastInDim S256x6 ![0, 1] bcast_S1x6_S256x6_0_1 (broadcastInDim S1x6 ![1] bcast_S6_S1x6_1 (res_main_v111 V0))))) (broadcastInDim S256x6 ![0, 1] bcast_S1x6_S256x6_0_1 (broadcastInDim S1x6 ![1] bcast_S6_S1x6_1 (Host.rsqrt (addf (Host.divf (Host.reduceAdd (mulf (res_main_v114 V0) (res_main_v114 V0)) (constant S_ .f32 0x00000000#32) reducesTo_S256x6_S6_d0 h_S_) (broadcastInDim S6 ![] bcast_S_S6 (constant S_ .f32 0x43800000#32))) (broadcastInDim S6 ![] bcast_S_S6 (constant S_ .f32 0x3727C5AC#32))))))) (broadcastInDim S256x6 ![0, 1] bcast_S1x6_S256x6_0_1 (broadcastInDim S1x6 ![1] bcast_S6_S1x6_1 (V0 (Proc.devRef .tc main_arg18))))

def dtermF (V0 : Valuation τ sig (Elt F)) : (Proc.devRef .tc main_v226 : DevRef τ sig).ty.Contents (Elt F) :=
  addf (mulf (mulf (broadcastInDim S256x6 ![0, 1] bcast_S1x6_S256x6_0_1 (broadcastInDim S1x6 ![1] bcast_S6_S1x6_1 (V0 (Proc.devRef .tc main_arg29)))) (subf (res_main_v201 V0) (broadcastInDim S256x6 ![0, 1] bcast_S1x6_S256x6_0_1 (broadcastInDim S1x6 ![1] bcast_S6_S1x6_1 (res_main_v204 V0))))) (broadcastInDim S256x6 ![0, 1] bcast_S1x6_S256x6_0_1 (broadcastInDim S1x6 ![1] bcast_S6_S1x6_1 (Host.rsqrt (addf (Host.divf (Host.reduceAdd (mulf (res_main_v207 V0) (res_main_v207 V0)) (constant S_ .f32 0x00000000#32) reducesTo_S256x6_S6_d0 h_S_) (broadcastInDim S6 ![] bcast_S_S6 (constant S_ .f32 0x43800000#32))) (broadcastInDim S6 ![] bcast_S_S6 (constant S_ .f32 0x3727C5AC#32))))))) (broadcastInDim S256x6 ![0, 1] bcast_S1x6_S256x6_0_1 (broadcastInDim S1x6 ![1] bcast_S6_S1x6_1 (V0 (Proc.devRef .tc main_arg30))))

def refOutF (V0 : Valuation τ sig (Elt F)) : (Proc.devRef .tc main_v269 : DevRef τ sig).ty.Contents (Elt F) :=
  addf (Host.dotGeneral dot_S256x1_S1x1_S256x1_1_0_0_1_n_n none (Host.tanh (addf (Host.dotGeneral dot_S256x6_S6x1_S256x1_1_0_0_1_n_n none (addf (mulf (mulf (broadcastInDim S256x6 ![0, 1] bcast_S1x6_S256x6_0_1 (broadcastInDim S1x6 ![1] bcast_S6_S1x6_1 (V0 (Proc.devRef .tc main_arg33)))) (subf (res_main_v233 V0) (broadcastInDim S256x6 ![0, 1] bcast_S1x6_S256x6_0_1 (broadcastInDim S1x6 ![1] bcast_S6_S1x6_1 (res_main_v236 V0))))) (broadcastInDim S256x6 ![0, 1] bcast_S1x6_S256x6_0_1 (broadcastInDim S1x6 ![1] bcast_S6_S1x6_1 (Host.rsqrt (addf (Host.divf (Host.reduceAdd (mulf (res_main_v239 V0) (res_main_v239 V0)) (constant S_ .f32 0x00000000#32) reducesTo_S256x6_S6_d0 h_S_) (broadcastInDim S6 ![] bcast_S_S6 (constant S_ .f32 0x43800000#32))) (broadcastInDim S6 ![] bcast_S_S6 (constant S_ .f32 0x3727C5AC#32))))))) (broadcastInDim S256x6 ![0, 1] bcast_S1x6_S256x6_0_1 (broadcastInDim S1x6 ![1] bcast_S6_S1x6_1 (V0 (Proc.devRef .tc main_arg34))))) (transpose S6x1 [1, 0] (V0 (Proc.devRef .tc main_arg35)) transposes_S1x6_S6x1_1_0)) (broadcastInDim S256x1 ![0, 1] bcast_S1x1_S256x1_0_1 (broadcastInDim S1x1 ![1] bcast_S1_S1x1_1 (V0 (Proc.devRef .tc main_arg36)))))) (transpose S1x1 [1, 0] (V0 (Proc.devRef .tc main_arg37)) transposes_S1x1_S1x1_1_0)) (broadcastInDim S256x1 ![0, 1] bcast_S1x1_S256x1_0_1 (broadcastInDim S1x1 ![1] bcast_S1_S1x1_1 (V0 (Proc.devRef .tc main_arg38))))

end AnyValues

def h3term (V0 : Valuation τ sig (Elt Ideal)) : S256x6.Idx → EReal := h3termF V0

def dterm (V0 : Valuation τ sig (Elt Ideal)) : S256x6.Idx → EReal := dtermF V0

def refOut (V0 : Valuation τ sig (Elt Ideal)) : S256x1.Idx → EReal := refOutF V0

end Cert.ReferenceIdeal.Hand

end
-- ==== Proof.TailTerms.lean ====
import proofs.«161050_j60275571032433_1_alg».proof.Proof.RefTerms

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

section AnyValues

variable {F : FTy → Type} [FloatOps F]

def t97F (V0 : Valuation τ sig (Elt F)) : (⟨S256x50, .f32⟩ : BufTy).Contents (Elt F) :=
  Host.dotGeneral dot_S256x100_S100x50_S256x50_1_0_0_1_n_n none (addf (mulf (mulf (broadcastInDim S256x100 ![0, 1] bcast_S1x100_S256x100_0_1 (broadcastInDim S1x100 ![1] bcast_S100_S1x100_1 (V0 (Proc.devRef .tc main_arg21)))) (subf (res_main_v139 V0) (broadcastInDim S256x100 ![0, 1] bcast_S1x100_S256x100_0_1 (broadcastInDim S1x100 ![1] bcast_S100_S1x100_1 (res_main_v142 V0))))) (broadcastInDim S256x100 ![0, 1] bcast_S1x100_S256x100_0_1 (broadcastInDim S1x100 ![1] bcast_S100_S1x100_1 (Host.rsqrt (addf (Host.divf (Host.reduceAdd (mulf (res_main_v145 V0) (res_main_v145 V0)) (constant S_ .f32 0x00000000#32) reducesTo_S256x100_S100_d0 h_S_) (broadcastInDim S100 ![] bcast_S_S100 (constant S_ .f32 0x43800000#32))) (broadcastInDim S100 ![] bcast_S_S100 (constant S_ .f32 0x3727C5AC#32))))))) (broadcastInDim S256x100 ![0, 1] bcast_S1x100_S256x100_0_1 (broadcastInDim S1x100 ![1] bcast_S100_S1x100_1 (V0 (Proc.devRef .tc main_arg22))))) (transpose S100x50 [1, 0] (V0 (Proc.devRef .tc main_arg23)) transposes_S50x100_S100x50_1_0)

def t99F (V0 : Valuation τ sig (Elt F)) : (⟨S256x50, .f32⟩ : BufTy).Contents (Elt F) :=
  broadcastInDim S256x50 ![0, 1] bcast_S1x50_S256x50_0_1 (broadcastInDim S1x50 ![1] bcast_S50_S1x50_1 (V0 (Proc.devRef .tc main_arg24)))

def t142F (V0 : Valuation τ sig (Elt F)) : (⟨S6, .f32⟩ : BufTy).Contents (Elt F) :=
  Host.divf (Host.reduceAdd (mulf (res_main_v207 V0) (res_main_v207 V0)) (constant S_ .f32 0x00000000#32) reducesTo_S256x6_S6_d0 h_S_) (broadcastInDim S6 ![] bcast_S_S6 (constant S_ .f32 0x43800000#32))

def t148F (V0 : Valuation τ sig (Elt F)) : (⟨S256x6, .f32⟩ : BufTy).Contents (Elt F) :=
  mulf (broadcastInDim S256x6 ![0, 1] bcast_S1x6_S256x6_0_1 (broadcastInDim S1x6 ![1] bcast_S6_S1x6_1 (V0 (Proc.devRef .tc main_arg29)))) (subf (res_main_v201 V0) (broadcastInDim S256x6 ![0, 1] bcast_S1x6_S256x6_0_1 (broadcastInDim S1x6 ![1] bcast_S6_S1x6_1 (res_main_v204 V0))))

def t149F : (⟨S6, .f32⟩ : BufTy).Contents (Elt F) :=
  broadcastInDim S6 ![] bcast_S_S6 (constant S_ .f32 0x3727C5AC#32)

end AnyValues

def t97 (V0 : Valuation τ sig (Elt Ideal)) : S256x50.Idx → EReal := t97F V0

def t99 (V0 : Valuation τ sig (Elt Ideal)) : S256x50.Idx → EReal := t99F V0

def t142 (V0 : Valuation τ sig (Elt Ideal)) : S6.Idx → EReal := t142F V0

def t148 (V0 : Valuation τ sig (Elt Ideal)) : S256x6.Idx → EReal := t148F V0

def t149 : S6.Idx → EReal := t149F (F := Ideal)

end Cert.ReferenceIdeal.Hand

end
-- ==== Proof.Tail1.lean ====
import proofs.«161050_j60275571032433_1_alg».proof.Proof.Gen.KernelIdeal.Launch
import proofs.«161050_j60275571032433_1_alg».proof.Proof.TailTerms

set_option maxRecDepth 16384

noncomputable section

namespace Cert.KernelIdeal.Hand

open Cert.KernelIdeal Cert.KernelIdeal.Gen
open Idealize.ShloMosaic Idealize.ShloMosaic.TcCoe
open Idealize.SL Idealize.SL.Sem Idealize.ShloMosaic.StableHlo

variable (V : Valuation τ sig (Elt Ideal)) (V0' : Valuation Cert.ReferenceIdeal.τ Cert.ReferenceIdeal.sig (Elt Ideal))

set_option maxHeartbeats 2000000 in
theorem after1 (v1 : (V (Proc.devRef .tc main_v1) : S256x2048.Idx → EReal) = extractStridedSlice Cert.ReferenceIdeal.S256x2048 ![0, 6000] (V0' (Proc.devRef .tc Cert.ReferenceIdeal.main_arg0)) Cert.ReferenceIdeal.Gen.slices_S256x8048_S256x2048_0_6000)
    (a19 : V (Proc.devRef .tc main_arg19) = V0' (Proc.devRef .tc Cert.ReferenceIdeal.main_arg19))
    (a20 : V (Proc.devRef .tc main_arg20) = V0' (Proc.devRef .tc Cert.ReferenceIdeal.main_arg20))
    (a21 : V (Proc.devRef .tc main_arg21) = V0' (Proc.devRef .tc Cert.ReferenceIdeal.main_arg21))
    (a22 : V (Proc.devRef .tc main_arg22) = V0' (Proc.devRef .tc Cert.ReferenceIdeal.main_arg22))
    (a23 : V (Proc.devRef .tc main_arg23) = V0' (Proc.devRef .tc Cert.ReferenceIdeal.main_arg23))
    (a24 : V (Proc.devRef .tc main_arg24) = V0' (Proc.devRef .tc Cert.ReferenceIdeal.main_arg24)) :
    (StableHlo.after main_part1_ops1 V (Proc.devRef .tc main_v97) : S256x50.Idx → EReal) = Cert.ReferenceIdeal.Hand.t97 V0'
      ∧ (StableHlo.after main_part1_ops1 V (Proc.devRef .tc main_v99) : S256x50.Idx → EReal) = Cert.ReferenceIdeal.Hand.t99 V0' := by
  simp only [main_part1_ops1]
  after_results_simp
  rw [v1, a19, a20, a21, a22, a23, a24]
  exact ⟨rfl, rfl⟩

end Cert.KernelIdeal.Hand

end
-- ==== Proof.Tail2.lean ====
import proofs.«161050_j60275571032433_1_alg».proof.Proof.Gen.KernelIdeal.Launch
import proofs.«161050_j60275571032433_1_alg».proof.Proof.TailTerms

set_option maxRecDepth 16384

noncomputable section

namespace Cert.KernelIdeal.Hand

open Cert.KernelIdeal Cert.KernelIdeal.Gen
open Idealize.ShloMosaic Idealize.ShloMosaic.TcCoe
open Idealize.SL Idealize.SL.Sem Idealize.ShloMosaic.StableHlo

variable (V : Valuation τ sig (Elt Ideal)) (V0' : Valuation Cert.ReferenceIdeal.τ Cert.ReferenceIdeal.sig (Elt Ideal))

set_option maxHeartbeats 2000000 in
theorem after2 (e97 : (V (Proc.devRef .tc main_v97) : S256x50.Idx → EReal) = Cert.ReferenceIdeal.Hand.t97 V0')
    (e99 : (V (Proc.devRef .tc main_v99) : S256x50.Idx → EReal) = Cert.ReferenceIdeal.Hand.t99 V0')
    (a25 : V (Proc.devRef .tc main_arg25) = V0' (Proc.devRef .tc Cert.ReferenceIdeal.main_arg25))
    (a26 : V (Proc.devRef .tc main_arg26) = V0' (Proc.devRef .tc Cert.ReferenceIdeal.main_arg26))
    (a27 : V (Proc.devRef .tc main_arg27) = V0' (Proc.devRef .tc Cert.ReferenceIdeal.main_arg27))
    (a28 : V (Proc.devRef .tc main_arg28) = V0' (Proc.devRef .tc Cert.ReferenceIdeal.main_arg28))
    (a29 : V (Proc.devRef .tc main_arg29) = V0' (Proc.devRef .tc Cert.ReferenceIdeal.main_arg29)) :
    (StableHlo.after main_part2_ops0 V (Proc.devRef .tc main_v142) : S6.Idx → EReal) = Cert.ReferenceIdeal.Hand.t142 V0'
      ∧ (StableHlo.after main_part2_ops0 V (Proc.devRef .tc main_v148) : S256x6.Idx → EReal) = Cert.ReferenceIdeal.Hand.t148 V0'
      ∧ (StableHlo.after main_part2_ops0 V (Proc.devRef .tc main_v149) : S6.Idx → EReal) = Cert.ReferenceIdeal.Hand.t149 := by
  simp only [main_part2_ops0]
  after_results_simp
  rw [e97, e99, a25, a26, a27, a28, a29]
  exact ⟨rfl, rfl, rfl⟩

end Cert.KernelIdeal.Hand

end
-- ==== Proof.Tail3.lean ====
import proofs.«161050_j60275571032433_1_alg».proof.Proof.IKeep
import proofs.«161050_j60275571032433_1_alg».proof.Proof.TailTerms

set_option maxRecDepth 16384

noncomputable section

namespace Cert.KernelIdeal.Hand

open Cert.KernelIdeal Cert.KernelIdeal.Gen
open Idealize.ShloMosaic Idealize.ShloMosaic.TcCoe
open Idealize.SL Idealize.SL.Sem Idealize.ShloMosaic.StableHlo

variable (V : Valuation τ sig (Elt Ideal)) (V0' : Valuation Cert.ReferenceIdeal.τ Cert.ReferenceIdeal.sig (Elt Ideal))

set_option maxHeartbeats 2000000 in
theorem after3a_v157 (e142 : (V (Proc.devRef .tc main_v142) : S6.Idx → EReal) = Cert.ReferenceIdeal.Hand.t142 V0')
    (e148 : (V (Proc.devRef .tc main_v148) : S256x6.Idx → EReal) = Cert.ReferenceIdeal.Hand.t148 V0')
    (e149 : (V (Proc.devRef .tc main_v149) : S6.Idx → EReal) = Cert.ReferenceIdeal.Hand.t149)
    (a30 : V (Proc.devRef .tc main_arg30) = V0' (Proc.devRef .tc Cert.ReferenceIdeal.main_arg30)) :
    (StableHlo.after (List.take 8 main_part3_ops0) V (Proc.devRef .tc main_v157) : S256x6.Idx → EReal) = Cert.ReferenceIdeal.Hand.dterm V0' := by
  simp only [main_part3_ops0, List.take_succ_cons, List.take_zero]
  after_results_simp
  rw [e142, e148, e149, a30]
  rfl

-- The first eight operations of the last stretch write none of the buffers its later operations still read.
theorem after3a_keep (r : Ref sig .tc)
    (h : r ∉ [main_v150, main_v151, main_v152, main_v153, main_v154, main_v155, main_v156, main_v157]) :
    StableHlo.after (List.take 8 main_part3_ops0) V (Proc.devRef .tc r) = V (Proc.devRef .tc r) :=
  StableHlo.after_of_writes_sub _ V (writes_of_eq rfl) h

set_option maxHeartbeats 2000000 in
theorem after3b_v200 (e64 : (V (Proc.devRef .tc main_v64) : S256x6.Idx → EReal) = Cert.ReferenceIdeal.Hand.h3term V0')
    (e157 : (V (Proc.devRef .tc main_v157) : S256x6.Idx → EReal) = Cert.ReferenceIdeal.Hand.dterm V0')
    (a31 : V (Proc.devRef .tc main_arg31) = V0' (Proc.devRef .tc Cert.ReferenceIdeal.main_arg31))
    (a32 : V (Proc.devRef .tc main_arg32) = V0' (Proc.devRef .tc Cert.ReferenceIdeal.main_arg32))
    (a33 : V (Proc.devRef .tc main_arg33) = V0' (Proc.devRef .tc Cert.ReferenceIdeal.main_arg33))
    (a34 : V (Proc.devRef .tc main_arg34) = V0' (Proc.devRef .tc Cert.ReferenceIdeal.main_arg34))
    (a35 : V (Proc.devRef .tc main_arg35) = V0' (Proc.devRef .tc Cert.ReferenceIdeal.main_arg35))
    (a36 : V (Proc.devRef .tc main_arg36) = V0' (Proc.devRef .tc Cert.ReferenceIdeal.main_arg36))
    (a37 : V (Proc.devRef .tc main_arg37) = V0' (Proc.devRef .tc Cert.ReferenceIdeal.main_arg37))
    (a38 : V (Proc.devRef .tc main_arg38) = V0' (Proc.devRef .tc Cert.ReferenceIdeal.main_arg38)) :
    (StableHlo.after (List.drop 8 main_part3_ops0) V (Proc.devRef .tc main_v200) : S256x1.Idx → EReal) = Cert.ReferenceIdeal.Hand.refOut V0' := by
  simp only [main_part3_ops0, List.drop_succ_cons, List.drop_zero]
  after_results_simp
  rw [e64, e157, a31, a32, a33, a34, a35, a36, a37, a38]
  rfl

theorem after3_v200 (e64 : (V (Proc.devRef .tc main_v64) : S256x6.Idx → EReal) = Cert.ReferenceIdeal.Hand.h3term V0')
    (e142 : (V (Proc.devRef .tc main_v142) : S6.Idx → EReal) = Cert.ReferenceIdeal.Hand.t142 V0')
    (e148 : (V (Proc.devRef .tc main_v148) : S256x6.Idx → EReal) = Cert.ReferenceIdeal.Hand.t148 V0')
    (e149 : (V (Proc.devRef .tc main_v149) : S6.Idx → EReal) = Cert.ReferenceIdeal.Hand.t149)
    (a30 : V (Proc.devRef .tc main_arg30) = V0' (Proc.devRef .tc Cert.ReferenceIdeal.main_arg30))
    (a31 : V (Proc.devRef .tc main_arg31) = V0' (Proc.devRef .tc Cert.ReferenceIdeal.main_arg31))
    (a32 : V (Proc.devRef .tc main_arg32) = V0' (Proc.devRef .tc Cert.ReferenceIdeal.main_arg32))
    (a33 : V (Proc.devRef .tc main_arg33) = V0' (Proc.devRef .tc Cert.ReferenceIdeal.main_arg33))
    (a34 : V (Proc.devRef .tc main_arg34) = V0' (Proc.devRef .tc Cert.ReferenceIdeal.main_arg34))
    (a35 : V (Proc.devRef .tc main_arg35) = V0' (Proc.devRef .tc Cert.ReferenceIdeal.main_arg35))
    (a36 : V (Proc.devRef .tc main_arg36) = V0' (Proc.devRef .tc Cert.ReferenceIdeal.main_arg36))
    (a37 : V (Proc.devRef .tc main_arg37) = V0' (Proc.devRef .tc Cert.ReferenceIdeal.main_arg37))
    (a38 : V (Proc.devRef .tc main_arg38) = V0' (Proc.devRef .tc Cert.ReferenceIdeal.main_arg38)) :
    (StableHlo.after main_part3_ops0 V (Proc.devRef .tc main_v200) : S256x1.Idx → EReal) = Cert.ReferenceIdeal.Hand.refOut V0' := by
  rw [← List.take_append_drop 8 (main_part3_ops0 (F := Ideal)), StableHlo.after_append]
  exact after3b_v200 _ V0' ((after3a_keep V main_v64 (by decide)).trans e64) (after3a_v157 V V0' e142 e148 e149 a30)
    ((after3a_keep V main_arg31 (by decide)).trans a31) ((after3a_keep V main_arg32 (by decide)).trans a32) ((after3a_keep V main_arg33 (by decide)).trans a33) ((after3a_keep V main_arg34 (by decide)).trans a34) ((after3a_keep V main_arg35 (by decide)).trans a35) ((after3a_keep V main_arg36 (by decide)).trans a36) ((after3a_keep V main_arg37 (by decide)).trans a37) ((after3a_keep V main_arg38 (by decide)).trans a38)

end Cert.KernelIdeal.Hand

end
-- ==== Proof.Tail.lean ====
import proofs.«161050_j60275571032433_1_alg».proof.Proof.IKeep
import proofs.«161050_j60275571032433_1_alg».proof.Proof.Tail1
import proofs.«161050_j60275571032433_1_alg».proof.Proof.Tail2
import proofs.«161050_j60275571032433_1_alg».proof.Proof.Tail3

set_option maxRecDepth 16384

noncomputable section

namespace Cert.KernelIdeal.Hand

open Cert.KernelIdeal Cert.KernelIdeal.Gen
open Idealize.ShloMosaic Idealize.ShloMosaic.TcCoe
open Idealize.SL Idealize.SL.Sem Idealize.ShloMosaic.StableHlo

-- The dense tail is one computation in both programs: equal arguments and equal third-layer outputs give equal results.
theorem tail_eq (m : (ℓ : Loc nD τ sig) → Buf (Elt Ideal) ℓ) (ρ : Dev nD → PrngReg) (c : Dev nD)
    (V0' : Valuation Cert.ReferenceIdeal.τ Cert.ReferenceIdeal.sig (Elt Ideal))
    (hg0 : V0' (Proc.devRef .tc Cert.ReferenceIdeal.main_arg0) = m ((c.tc : Thread nD τ).loc main_arg0))
    (hg19 : V0' (Proc.devRef .tc Cert.ReferenceIdeal.main_arg19) = m ((c.tc : Thread nD τ).loc main_arg19))
    (hg20 : V0' (Proc.devRef .tc Cert.ReferenceIdeal.main_arg20) = m ((c.tc : Thread nD τ).loc main_arg20))
    (hg21 : V0' (Proc.devRef .tc Cert.ReferenceIdeal.main_arg21) = m ((c.tc : Thread nD τ).loc main_arg21))
    (hg22 : V0' (Proc.devRef .tc Cert.ReferenceIdeal.main_arg22) = m ((c.tc : Thread nD τ).loc main_arg22))
    (hg23 : V0' (Proc.devRef .tc Cert.ReferenceIdeal.main_arg23) = m ((c.tc : Thread nD τ).loc main_arg23))
    (hg24 : V0' (Proc.devRef .tc Cert.ReferenceIdeal.main_arg24) = m ((c.tc : Thread nD τ).loc main_arg24))
    (hg25 : V0' (Proc.devRef .tc Cert.ReferenceIdeal.main_arg25) = m ((c.tc : Thread nD τ).loc main_arg25))
    (hg26 : V0' (Proc.devRef .tc Cert.ReferenceIdeal.main_arg26) = m ((c.tc : Thread nD τ).loc main_arg26))
    (hg27 : V0' (Proc.devRef .tc Cert.ReferenceIdeal.main_arg27) = m ((c.tc : Thread nD τ).loc main_arg27))
    (hg28 : V0' (Proc.devRef .tc Cert.ReferenceIdeal.main_arg28) = m ((c.tc : Thread nD τ).loc main_arg28))
    (hg29 : V0' (Proc.devRef .tc Cert.ReferenceIdeal.main_arg29) = m ((c.tc : Thread nD τ).loc main_arg29))
    (hg30 : V0' (Proc.devRef .tc Cert.ReferenceIdeal.main_arg30) = m ((c.tc : Thread nD τ).loc main_arg30))
    (hg31 : V0' (Proc.devRef .tc Cert.ReferenceIdeal.main_arg31) = m ((c.tc : Thread nD τ).loc main_arg31))
    (hg32 : V0' (Proc.devRef .tc Cert.ReferenceIdeal.main_arg32) = m ((c.tc : Thread nD τ).loc main_arg32))
    (hg33 : V0' (Proc.devRef .tc Cert.ReferenceIdeal.main_arg33) = m ((c.tc : Thread nD τ).loc main_arg33))
    (hg34 : V0' (Proc.devRef .tc Cert.ReferenceIdeal.main_arg34) = m ((c.tc : Thread nD τ).loc main_arg34))
    (hg35 : V0' (Proc.devRef .tc Cert.ReferenceIdeal.main_arg35) = m ((c.tc : Thread nD τ).loc main_arg35))
    (hg36 : V0' (Proc.devRef .tc Cert.ReferenceIdeal.main_arg36) = m ((c.tc : Thread nD τ).loc main_arg36))
    (hg37 : V0' (Proc.devRef .tc Cert.ReferenceIdeal.main_arg37) = m ((c.tc : Thread nD τ).loc main_arg37))
    (hg38 : V0' (Proc.devRef .tc Cert.ReferenceIdeal.main_arg38) = m ((c.tc : Thread nD τ).loc main_arg38))
    (hH : (W7 m ρ c (Proc.devRef .tc main_v64) : S256x6.Idx → EReal) = Cert.ReferenceIdeal.Hand.h3term V0') :
    (W10 m ρ c (Proc.devRef .tc main_v200) : S256x1.Idx → EReal) = Cert.ReferenceIdeal.Hand.refOut V0' := by
  have a := fun (r : Ref sig .tc) (h : Untouched7 r) {x : Buf (Elt Ideal) ((c.tc : Thread nD τ).loc r)}
    (hg : x = m ((c.tc : Thread nD τ).loc r)) => (W7_of_untouched m ρ c r h).trans hg.symm
  have b := fun (r : Ref sig .tc) (h8 : r ∉ main_part1_ops1_W) (h : Untouched7 r) {x : Buf (Elt Ideal) ((c.tc : Thread nD τ).loc r)}
    (hg : x = m ((c.tc : Thread nD τ).loc r)) => (W8_keep m ρ c r h8).trans (a r h hg)
  have d := fun (r : Ref sig .tc) (h9 : r ∉ main_part2_ops0_W) (h8 : r ∉ main_part1_ops1_W) (h : Untouched7 r)
    {x : Buf (Elt Ideal) ((c.tc : Thread nD τ).loc r)} (hg : x = m ((c.tc : Thread nD τ).loc r)) =>
    (W9_keep m ρ c r h9).trans (b r h8 h hg)
  obtain ⟨e97, e99⟩ := after1 (W7 m ρ c) V0' (by rw [hg0]; exact W7_main_v1 m ρ c) (a main_arg19 (by decide) hg19) (a main_arg20 (by decide) hg20) (a main_arg21 (by decide) hg21) (a main_arg22 (by decide) hg22) (a main_arg23 (by decide) hg23) (a main_arg24 (by decide) hg24)
  obtain ⟨e142, e148, e149⟩ := after2 (W8 m ρ c) V0' e97 e99 (b main_arg25 (by decide) (by decide) hg25) (b main_arg26 (by decide) (by decide) hg26) (b main_arg27 (by decide) (by decide) hg27) (b main_arg28 (by decide) (by decide) hg28) (b main_arg29 (by decide) (by decide) hg29)
  exact after3_v200 (W9 m ρ c) V0' ((W9_keep m ρ c main_v64 (by decide)).trans ((W8_keep m ρ c main_v64 (by decide)).trans hH)) e142 e148 e149
    (d main_arg30 (by decide) (by decide) (by decide) hg30) (d main_arg31 (by decide) (by decide) (by decide) hg31) (d main_arg32 (by decide) (by decide) (by decide) hg32) (d main_arg33 (by decide) (by decide) (by decide) hg33) (d main_arg34 (by decide) (by decide) (by decide) hg34) (d main_arg35 (by decide) (by decide) (by decide) hg35) (d main_arg36 (by decide) (by decide) (by decide) hg36) (d main_arg37 (by decide) (by decide) (by decide) hg37) (d main_arg38 (by decide) (by decide) (by decide) hg38)

end Cert.KernelIdeal.Hand

end
-- ==== Proof.LibColGather.lean ====
import proofs.«161050_j60275571032433_1_alg».proof.Proof.LibGatherScatter

noncomputable section

namespace Idealize.ShloMosaic.GatherScatter

open Idealize.ShloMosaic Idealize.ShloMosaic.ValueIdx

section ColGather
variable {α : Type}

abbrev colGatherDims (B N E : Nat)
    (wf : GatherDims.WF ⟨2, ![B, N]⟩ ⟨2, ![E, 1]⟩ ⟨2, ![B, E]⟩ [0] [1] [] [1] [] 1 ![B, 1]) :
    GatherDims ⟨2, ![B, N]⟩ ⟨2, ![E, 1]⟩ ⟨2, ![B, E]⟩ where
  offsetDims := [0]
  collapsedSliceDims := [1]
  operandBatchingDims := []
  startIndicesBatchingDims := []
  startIndexMap := [1]
  indexVectorDim := 1
  sliceSizes := ![B, 1]
  wf := wf

-- The row is kept as the offset; the column is the index, which the clamp leaves alone when it is in range.
theorem colGather_apply_inRange {B N E w : Nat}
    (wf : GatherDims.WF ⟨2, ![B, N]⟩ ⟨2, ![E, 1]⟩ ⟨2, ![B, E]⟩ [0] [1] [] [1] [] 1 ![B, 1])
    (x : (⟨2, ![B, N]⟩ : Shape).Idx → α) (idx : IVec ⟨2, ![E, 1]⟩ w) (p : Fin B) (e : Fin E) (k : Fin N)
    (hk : (idx (ix2 e 0)).toInt = (k.val : Int)) :
    Host.gather (colGatherDims B N E wf) x idx (ix2 p e) = x (ix2 p k) := by
  have h0 : (colGatherDims B N E wf).start (ix2 p e) idx 0 + (colGatherDims B N E wf).offCoord (ix2 p e) 0 = p.val := by
    unfold GatherDims.start GatherDims.offCoord
    rw [dif_neg (by decide : (0 : Fin 2) ∉ ([1] : List (Fin 2))),
      dif_pos (mem_kept (by decide : (0 : Fin 2) ∉ ([1] ++ [] : List (Fin 2)))), Nat.zero_add]
    rfl
  have h1 : (colGatherDims B N E wf).start (ix2 p e) idx 1 + (colGatherDims B N E wf).offCoord (ix2 p e) 1 = k.val := by
    have hmem : (1 : Fin 2) ∈ ([1] : List (Fin 2)) := List.mem_singleton.mpr rfl
    have hsi : (colGatherDims B N E wf).siIdx (ix2 p e) ⟨List.idxOf (1 : Fin 2) [1], List.idxOf_lt_length_iff.2 hmem⟩
        = ix2 e 0 := by funext b; fin_cases b <;> rfl
    rw [GatherDims.offCoord_eq_zero _ _ _ (not_mem_kept (by decide : (1 : Fin 2) ∈ ([1] ++ [] : List (Fin 2)))), Nat.add_zero]
    unfold GatherDims.start
    rw [dif_pos hmem, hsi, hk, Int.toNat_natCast]
    show min k.val (N - 1) = k.val
    have := k.isLt
    omega
  refine congrArg x (funext fun a => Fin.ext ?_)
  show (colGatherDims B N E wf).start _ idx a + (colGatherDims B N E wf).batchCoord _ a
    + (colGatherDims B N E wf).offCoord _ a = _
  rw [GatherDims.batchCoord_eq_zero _ _ _ List.not_mem_nil, Nat.add_zero]
  match a with
  | ⟨0, _⟩ => exact h0
  | ⟨1, _⟩ => exact h1

end ColGather

end Idealize.ShloMosaic.GatherScatter

end
-- ==== Proof.RefValue.lean ====
import proofs.«161050_j60275571032433_1_alg».proof.Proof.Net
import proofs.«161050_j60275571032433_1_alg».proof.Proof.LibColGather
import proofs.«161050_j60275571032433_1_alg».proof.Proof.PreFacts
import proofs.«161050_j60275571032433_1_alg».proof.Proof.RefTerms
import Idealize.ShloMosaic.Lib.ValueLayout
import Idealize.ShloMosaic.Lib.IdealHost
import Idealize.ShloMosaic.Lib.Pipeline.Value

noncomputable section

namespace Cert.ReferenceIdeal.Hand

open Idealize.ShloMosaic Idealize.ShloMosaic.ValueIdx Cert.Net
open scoped BigOperators

-- A coordinate is what a broadcast reads on its axis, also when that axis has size one.
theorem val_eq_ite {n : Nat} (j : Fin n) : j.val = if n = 1 then 0 else j.val := by
  have := j.isLt
  split <;> omega

theorem rowBcast_apply {α : Type} {a n : Nat} (v : (⟨1, ![n]⟩ : Shape).Idx → α)
    (b1 : (⟨1, ![n]⟩ : Shape).BroadcastsInDim ⟨2, ![1, n]⟩ ![1])
    (b2 : (⟨2, ![1, n]⟩ : Shape).BroadcastsInDim ⟨2, ![a, n]⟩ ![0, 1]) (p : Fin a) (j : Fin n) :
    broadcastInDim ⟨2, ![a, n]⟩ ![0, 1] b2 (broadcastInDim ⟨2, ![1, n]⟩ ![1] b1 v) (ix2 p j) = v (ix1 j) := by
  refine (broadcastInDim_apply _ b2 _ (ix2 p j) (ix2 0 j) fun c => ?_).trans
    (broadcastInDim_apply _ b1 v (ix2 0 j) (ix1 j) fun c => ?_)
  · match c with
    | ⟨0, _⟩ => exact (if_pos rfl).symm
    | ⟨1, _⟩ => exact val_eq_ite j
  · match c with
    | ⟨0, _⟩ => exact val_eq_ite j

theorem colBcast_apply {α : Type} {E : Nat} (v : (⟨1, ![E]⟩ : Shape).Idx → α)
    (b : (⟨1, ![E]⟩ : Shape).BroadcastsInDim ⟨2, ![E, 1]⟩ ![0]) (e : Fin E) (z : Fin 1) :
    broadcastInDim ⟨2, ![E, 1]⟩ ![0] b v (ix2 e z) = v (ix1 e) :=
  broadcastInDim_apply _ b v (ix2 e z) (ix1 e) fun c => match c with | ⟨0, _⟩ => val_eq_ite e

-- A reduction from zero over the rows is the column's sum.
theorem colSum_apply {m n : Nat} (h : FVec Ideal ⟨2, ![m, n]⟩ .f32)
    (red : (⟨2, ![m, n]⟩ : Shape).ReducesTo [0] ⟨1, ![n]⟩) (hS : 0 < (⟨0, ![]⟩ : Shape).numel) (j : Fin n) :
    Host.reduceAdd h (constant (⟨0, ![]⟩ : Shape) .f32 0x00000000#32) red hS (ix1 j) = ∑ p : Fin m, h (ix2 p j) := by
  rw [hostReduceAdd_apply, Ideal.hostReduceAdd_single red ⟨red.1, Nat.one_pos, red.2⟩, constant_apply,
    Ideal.ofBits_zero_f32, zero_add]
  exact Finset.sum_congr rfl fun k _ => congrArg h (funext fun c => Fin.ext (by fin_cases c <;> rfl))

section BN
variable {n : Nat} (h : FVec Ideal ⟨2, ![256, n]⟩ .f32) (g bb : FVec Ideal ⟨1, ![n]⟩ .f32)
  (red : (⟨2, ![256, n]⟩ : Shape).ReducesTo [0] ⟨1, ![n]⟩)
  (hS : 0 < (⟨0, ![]⟩ : Shape).numel)
  (b0 : (⟨0, ![]⟩ : Shape).BroadcastsInDim ⟨1, ![n]⟩ ![])
  (b1 : (⟨1, ![n]⟩ : Shape).BroadcastsInDim ⟨2, ![1, n]⟩ ![1])
  (b2 : (⟨2, ![1, n]⟩ : Shape).BroadcastsInDim ⟨2, ![256, n]⟩ ![0, 1])

abbrev meanT : FVec Ideal ⟨1, ![n]⟩ .f32 :=
  Host.divf (Host.reduceAdd h (constant (⟨0, ![]⟩ : Shape) .f32 0x00000000#32) red hS)
    (broadcastInDim ⟨1, ![n]⟩ ![] b0 (constant (⟨0, ![]⟩ : Shape) .f32 0x43800000#32))

abbrev centT : FVec Ideal ⟨2, ![256, n]⟩ .f32 :=
  subf h (broadcastInDim ⟨2, ![256, n]⟩ ![0, 1] b2 (broadcastInDim ⟨2, ![1, n]⟩ ![1] b1 (meanT h red hS b0)))

abbrev bnT : FVec Ideal ⟨2, ![256, n]⟩ .f32 :=
  addf (mulf (mulf (broadcastInDim ⟨2, ![256, n]⟩ ![0, 1] b2 (broadcastInDim ⟨2, ![1, n]⟩ ![1] b1 g))
      (subf h (broadcastInDim ⟨2, ![256, n]⟩ ![0, 1] b2 (broadcastInDim ⟨2, ![1, n]⟩ ![1] b1 (meanT h red hS b0)))))
      (broadcastInDim ⟨2, ![256, n]⟩ ![0, 1] b2 (broadcastInDim ⟨2, ![1, n]⟩ ![1] b1
        (Host.rsqrt (addf (Host.divf (Host.reduceAdd (mulf (centT h red hS b0 b1 b2) (centT h red hS b0 b1 b2))
            (constant (⟨0, ![]⟩ : Shape) .f32 0x00000000#32) red hS)
          (broadcastInDim ⟨1, ![n]⟩ ![] b0 (constant (⟨0, ![]⟩ : Shape) .f32 0x43800000#32)))
          (broadcastInDim ⟨1, ![n]⟩ ![] b0 (constant (⟨0, ![]⟩ : Shape) .f32 0x3727C5AC#32)))))))
    (broadcastInDim ⟨2, ![256, n]⟩ ![0, 1] b2 (broadcastInDim ⟨2, ![1, n]⟩ ![1] b1 bb))

variable {h g bb red hS b0 b1 b2}

theorem centT_apply (p : Fin 256) (j : Fin n) :
    centT h red hS b0 b1 b2 (ix2 p j) = h (ix2 p j) - Cert.Spec.mean (v2 h) j := by
  unfold centT meanT
  rw [subf_apply, rowBcast_apply, hostDivf_apply, colSum_apply, broadcastInDim_scalar_apply, constant_apply]
  rfl

-- The normalisation as the program spells it is the specification's, column by column.
theorem bnT_apply {h' : Fin 256 → Fin n → EReal} (hh : v2 h = h') (p : Fin 256) (j : Fin n) :
    bnT h g bb red hS b0 b1 b2 (ix2 p j) = Cert.Spec.bn h' (v1 g) (v1 bb) p j := by
  subst hh
  unfold bnT
  rw [addf_apply, mulf_apply, mulf_apply, rowBcast_apply, rowBcast_apply, rowBcast_apply, ← centT, centT_apply]
  show _ * _ * Ideal.rsqrt (Ideal.div _ _ + _) + _ = _
  rw [colSum_apply, broadcastInDim_scalar_apply, broadcastInDim_scalar_apply, constant_apply, constant_apply]
  unfold Cert.Spec.bn Cert.Spec.var
  simp only [mulf_apply, centT_apply]

end BN

section Lin
variable {nin nout E : Nat} (X : FVec Ideal ⟨2, ![256, nin]⟩ .f32) (r c z nv : IVec ⟨1, ![E]⟩ 32)
  (w : FVec Ideal ⟨1, ![E]⟩ .f32) (b : FVec Ideal ⟨1, ![nout]⟩ .f32)
  (gwf : GatherDims.WF ⟨2, ![256, nin]⟩ ⟨2, ![E, 1]⟩ ⟨2, ![256, E]⟩ [0] [1] [] [1] [] 1 ![256, 1])
  (swf : ScatterDims.WF ⟨2, ![nout, 256]⟩ ⟨2, ![E, 1]⟩ ⟨2, ![E, 256]⟩ [1] [0] [0] 1)
  (bz : (⟨0, ![]⟩ : Shape).BroadcastsInDim ⟨2, ![nout, 256]⟩ ![])
  (bE : (⟨1, ![E]⟩ : Shape).BroadcastsInDim ⟨2, ![E, 1]⟩ ![0])
  (bw1 : (⟨1, ![E]⟩ : Shape).BroadcastsInDim ⟨2, ![1, E]⟩ ![1])
  (bw2 : (⟨2, ![1, E]⟩ : Shape).BroadcastsInDim ⟨2, ![256, E]⟩ ![0, 1])
  (bb1 : (⟨1, ![nout]⟩ : Shape).BroadcastsInDim ⟨2, ![1, nout]⟩ ![1])
  (bb2 : (⟨2, ![1, nout]⟩ : Shape).BroadcastsInDim ⟨2, ![256, nout]⟩ ![0, 1])
  (tr1 : (⟨2, ![256, E]⟩ : Shape).Transposes [1, 0] ⟨2, ![E, 256]⟩)
  (tr2 : (⟨2, ![nout, 256]⟩ : Shape).Transposes [1, 0] ⟨2, ![256, nout]⟩)

abbrev actT : FVec Ideal ⟨2, ![256, nout]⟩ .f32 :=
  Host.tanh (addf (transpose ⟨2, ![256, nout]⟩ [1, 0]
      (Host.scatterAdd (GatherScatter.rowScatterDims nout 256 E swf)
        (broadcastInDim ⟨2, ![nout, 256]⟩ ![] bz (constant (⟨0, ![]⟩ : Shape) .f32 0x00000000#32))
        (broadcastInDim ⟨2, ![E, 1]⟩ ![0] bE r)
        (transpose ⟨2, ![E, 256]⟩ [1, 0]
          (mulf (Host.gather (GatherScatter.colGatherDims 256 nin E gwf) X (broadcastInDim ⟨2, ![E, 1]⟩ ![0] bE (select (cmpi .slt c z) (addi c nv) c)))
            (broadcastInDim ⟨2, ![256, E]⟩ ![0, 1] bw2 (broadcastInDim ⟨2, ![1, E]⟩ ![1] bw1 w))) tr1)) tr2)
    (broadcastInDim ⟨2, ![256, nout]⟩ ![0, 1] bb2 (broadcastInDim ⟨2, ![1, nout]⟩ ![1] bb1 b)))

variable {X r c z nv w b gwf swf bz bE bw1 bw2 bb1 bb2 tr1 tr2}

-- The scatter from zero sums the edges by target; an in-range source index survives both the wrap-around and the clamp.
theorem actT_apply (hz : ∀ i, z i = 0#32) (hr : InRange nout r) (hc : InRange nin c)
    {X' : Fin 256 → Fin nin → EReal} (hX : v2 X = X') (p : Fin 256) (j : Fin nout) :
    actT X r c z nv w b gwf swf bz bE bw1 bw2 bb1 bb2 tr1 tr2 (ix2 p j)
      = Cert.Spec.act (Cert.Spec.sparseLin X' (idxFn c hc) (idxFn r hr) (v1 w)) (v1 b) p j := by
  subst hX
  unfold actT
  rw [Cert.PreFacts.select_wrap_eq c z nv hz fun i => (hc i).1]
  show Ideal.tanh (_ + _) = _
  rw [rowBcast_apply, transpose_ix2_apply, GatherScatter.rowScatterAdd_apply, broadcastInDim_scalar_apply,
    constant_apply, Ideal.ofBits_zero_f32, zero_add]
  unfold Cert.Spec.act Cert.Spec.sparseLin
  congr 2
  refine Finset.sum_congr ?_ fun e _ => ?_
  · ext e
    simp only [Finset.mem_filter, Finset.mem_univ, true_and]
    rw [colBcast_apply, idxFn_toInt r hr e]
    exact ⟨fun h => Fin.ext (Int.ofNat_inj.mp h), fun h => by rw [h]⟩
  · rw [transpose_ix2_apply, mulf_apply, rowBcast_apply,
      GatherScatter.colGather_apply_inRange gwf X _ p e (idxFn c hc e) (by rw [colBcast_apply]; exact idxFn_toInt c hc e)]

variable {g bb : FVec Ideal ⟨1, ![nout]⟩ .f32} {red : (⟨2, ![256, nout]⟩ : Shape).ReducesTo [0] ⟨1, ![nout]⟩}
  {hS : 0 < (⟨0, ![]⟩ : Shape).numel} {b0 : (⟨0, ![]⟩ : Shape).BroadcastsInDim ⟨1, ![nout]⟩ ![]}

-- One sparse layer of the program is one layer of the specification.
theorem layerT_apply (hz : ∀ i, z i = 0#32) (hr : InRange nout r) (hc : InRange nin c)
    {X' : Fin 256 → Fin nin → EReal} (hX : v2 X = X') (p : Fin 256) (j : Fin nout) :
    bnT (actT X r c z nv w b gwf swf bz bE bw1 bw2 bb1 bb2 tr1 tr2) g bb red hS b0 bb1 bb2 (ix2 p j)
      = Cert.Spec.layer X' (idxFn c hc) (idxFn r hr) (v1 w) (v1 b) (v1 g) (v1 bb) p j :=
  bnT_apply (funext₂ (actT_apply hz hr hc hX)) p j

end Lin

section Layers
open Cert.ReferenceIdeal Cert.ReferenceIdeal.Gen Cert.ReferenceIdeal.Value
open Idealize.ShloMosaic.TcCoe Idealize.SL.Sem Idealize.ShloMosaic.StableHlo

variable (V0 : Valuation τ sig (Elt Ideal))

theorem slice_gene (x : S256x8048.Idx → EReal) (h : S256x8048.Slices ![0, 0] S256x6000) :
    v2 (extractStridedSlice S256x6000 ![0, 0] x h) = gene x := by
  funext p k
  show extractStridedSlice S256x6000 ![0, 0] x h (ix2 p k) = _
  rw [slice2_axis1_eq]
  unfold gene
  exact congrArg x (congrArg (ix2 p) (Fin.ext (by simp)))

-- Each layer reads the one before it; the first reads the cut-out columns.
theorem ref_h3 (hr1 : InRange 12000 (V0 (Proc.devRef .tc main_arg1))) (hc1 : InRange 6000 (V0 (Proc.devRef .tc main_arg2)))
    (hr2 : InRange 3000 (V0 (Proc.devRef .tc main_arg7))) (hc2 : InRange 12000 (V0 (Proc.devRef .tc main_arg8)))
    (hr3 : InRange 6 (V0 (Proc.devRef .tc main_arg13))) (hc3 : InRange 3000 (V0 (Proc.devRef .tc main_arg14)))
    (p : Fin 256) (j : Fin 6) :
    h3term V0 (ix2 p j)
      = H3 (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14))
          (V0 (Proc.devRef .tc main_arg15)) (V0 (Proc.devRef .tc main_arg16)) (V0 (Proc.devRef .tc main_arg17))
          (V0 (Proc.devRef .tc main_arg18)) hr1 hc1 hr2 hc2 hr3 hc3 p j := by
  refine layerT_apply (fun _ => rfl) hr3 hc3 (funext₂ fun p k => ?_) p j
  refine layerT_apply (fun _ => rfl) hr2 hc2 (funext₂ fun p k => ?_) p k
  exact layerT_apply (fun _ => rfl) hr1 hc1 (slice_gene _ _) p k

end Layers

end Cert.ReferenceIdeal.Hand

end
-- ==== Proof.Assemble.lean ====
import proofs.«161050_j60275571032433_1_alg».proof.Defs
import proofs.«161050_j60275571032433_1_alg».proof.Proof.IValue23
import proofs.«161050_j60275571032433_1_alg».proof.Proof.Tail
import proofs.«161050_j60275571032433_1_alg».proof.Proof.RefValue
import proofs.«161050_j60275571032433_1_alg».proof.Proof.Gen.Pre_finite_inputs

set_option maxRecDepth 16384

noncomputable section

namespace Cert.Assemble

open Cert.KernelIdeal Cert.KernelIdeal.Gen Cert.KernelIdeal.Hand
open Idealize.ShloMosaic Idealize.ShloMosaic.TcCoe Idealize.ShloMosaic.ValueIdx
open Idealize.SL Idealize.SL.Sem

theorem frame_ki : Cert.frame_KernelIdeal (hKernelIdeal := Cert.KernelIdeal.Gen.facts) (hPre_finite_inputs := Cert.Pre_finite_inputs.Gen.facts) :=
  fun m ρ _ => (θ_run (defs (F := Ideal)) _ _).mono (fun r h c =>
    have k : ∀ a : Ref sig .tc, ¬ (Proc.devRef .tc a : DevRef τ sig).isScoped → Untouched a →
        r.2.mem ((c.tc : Thread nD τ).loc a) = m ((c.tc : Thread nD τ).loc a) :=
      fun a hs hu => (h c _ (mem_uc a hs)).trans (W10_of_untouched m ρ c a hu)
    ⟨k main_arg0 (by decide) (by decide),
      k main_arg1 (by decide) (by decide),
      k main_arg2 (by decide) (by decide),
      k main_arg3 (by decide) (by decide),
      k main_arg4 (by decide) (by decide),
      k main_arg5 (by decide) (by decide),
      k main_arg6 (by decide) (by decide),
      k main_arg7 (by decide) (by decide),
      k main_arg8 (by decide) (by decide),
      k main_arg9 (by decide) (by decide),
      k main_arg10 (by decide) (by decide),
      k main_arg11 (by decide) (by decide),
      k main_arg12 (by decide) (by decide),
      k main_arg13 (by decide) (by decide),
      k main_arg14 (by decide) (by decide),
      k main_arg15 (by decide) (by decide),
      k main_arg16 (by decide) (by decide),
      k main_arg17 (by decide) (by decide),
      k main_arg18 (by decide) (by decide),
      k main_arg19 (by decide) (by decide),
      k main_arg20 (by decide) (by decide),
      k main_arg21 (by decide) (by decide),
      k main_arg22 (by decide) (by decide),
      k main_arg23 (by decide) (by decide),
      k main_arg24 (by decide) (by decide),
      k main_arg25 (by decide) (by decide),
      k main_arg26 (by decide) (by decide),
      k main_arg27 (by decide) (by decide),
      k main_arg28 (by decide) (by decide),
      k main_arg29 (by decide) (by decide),
      k main_arg30 (by decide) (by decide),
      k main_arg31 (by decide) (by decide),
      k main_arg32 (by decide) (by decide),
      k main_arg33 (by decide) (by decide),
      k main_arg34 (by decide) (by decide),
      k main_arg35 (by decide) (by decide),
      k main_arg36 (by decide) (by decide),
      k main_arg37 (by decide) (by decide),
      k main_arg38 (by decide) (by decide)⟩) (run_all m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

-- The three layers' output depends on the nineteen arrays alone, not on the proofs that the index words are in range.
theorem H3_congr {x x' r1 r1' c1 c1' w1 w1' b1 b1' g1 g1' bb1 bb1' r2 r2' c2 c2' w2 w2' b2 b2' g2 g2' bb2 bb2' r3 r3' c3 c3' w3 w3' b3 b3' g3 g3' bb3 bb3'}
    (e_x : x = x') (e_r1 : r1 = r1') (e_c1 : c1 = c1') (e_w1 : w1 = w1') (e_b1 : b1 = b1') (e_g1 : g1 = g1') (e_bb1 : bb1 = bb1') (e_r2 : r2 = r2') (e_c2 : c2 = c2') (e_w2 : w2 = w2') (e_b2 : b2 = b2') (e_g2 : g2 = g2') (e_bb2 : bb2 = bb2') (e_r3 : r3 = r3') (e_c3 : c3 = c3') (e_w3 : w3 = w3') (e_b3 : b3 = b3') (e_g3 : g3 = g3') (e_bb3 : bb3 = bb3')
    (hr1 : Cert.Net.InRange 12000 r1) (hr1' : Cert.Net.InRange 12000 r1') (hc1 : Cert.Net.InRange 6000 c1) (hc1' : Cert.Net.InRange 6000 c1')
    (hr2 : Cert.Net.InRange 3000 r2) (hr2' : Cert.Net.InRange 3000 r2') (hc2 : Cert.Net.InRange 12000 c2) (hc2' : Cert.Net.InRange 12000 c2')
    (hr3 : Cert.Net.InRange 6 r3) (hr3' : Cert.Net.InRange 6 r3') (hc3 : Cert.Net.InRange 3000 c3) (hc3' : Cert.Net.InRange 3000 c3') :
    Cert.Net.H3 x r1 c1 w1 b1 g1 bb1 r2 c2 w2 b2 g2 bb2 r3 c3 w3 b3 g3 bb3 hr1 hc1 hr2 hc2 hr3 hc3
      = Cert.Net.H3 x' r1' c1' w1' b1' g1' bb1' r2' c2' w2' b2' g2' bb2' r3' c3' w3' b3' g3' bb3' hr1' hc1' hr2' hc2' hr3' hc3' := by
  subst e_x; subst e_r1; subst e_c1; subst e_w1; subst e_b1; subst e_g1; subst e_bb1; subst e_r2; subst e_c2; subst e_w2; subst e_b2; subst e_g2; subst e_bb2; subst e_r3; subst e_c3; subst e_w3; subst e_b3; subst e_g3; subst e_bb3
  rfl

-- Both programs compute the three sparse layers as the same function of the arguments, and the same dense layers after them.
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W10 m ρ c (Proc.devRef .tc main_v200), ?_, ?_⟩
  · have h1 := run_all m ρ
    have h2 := frame_ki m ρ hpre
    exact ⟨fun t ht hf c => ⟨h1.post t ht hf c _ (mem_uc main_v200 (by decide)), h2.post t ht hf c⟩, h1.progress, h1.fair⟩
  · refine (θ_run Cert.ReferenceIdeal.defs _ _).mono (fun r h c => ⟨(h c).1.trans ?_, (h c).2⟩) (Cert.ReferenceIdeal.Value.run (F := Ideal) m' ρ')
    show Cert.ReferenceIdeal.Hand.refOut (StableHlo.launchContents m' c) = _
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38⟩ := hagree c
    have D := Cert.PreFacts.decoded_of_fn (hpre c)
    have hr1' : Cert.Net.InRange (E := 180000) 12000 (m' ((c.tc : Thread Cert.ReferenceIdeal.nD Cert.ReferenceIdeal.τ).loc Cert.ReferenceIdeal.main_arg1)) := by rw [e1]; exact D.rng1
    have hc1' : Cert.Net.InRange (E := 180000) 6000 (m' ((c.tc : Thread Cert.ReferenceIdeal.nD Cert.ReferenceIdeal.τ).loc Cert.ReferenceIdeal.main_arg2)) := by rw [e2]; exact D.rng2
    have hr2' : Cert.Net.InRange (E := 144000) 3000 (m' ((c.tc : Thread Cert.ReferenceIdeal.nD Cert.ReferenceIdeal.τ).loc Cert.ReferenceIdeal.main_arg7)) := by rw [e7]; exact D.rng7
    have hc2' : Cert.Net.InRange (E := 144000) 12000 (m' ((c.tc : Thread Cert.ReferenceIdeal.nD Cert.ReferenceIdeal.τ).loc Cert.ReferenceIdeal.main_arg8)) := by rw [e8]; exact D.rng8
    have hr3' : Cert.Net.InRange (E := 18000) 6 (m' ((c.tc : Thread Cert.ReferenceIdeal.nD Cert.ReferenceIdeal.τ).loc Cert.ReferenceIdeal.main_arg13)) := by rw [e13]; exact D.rng13
    have hc3' : Cert.Net.InRange (E := 18000) 3000 (m' ((c.tc : Thread Cert.ReferenceIdeal.nD Cert.ReferenceIdeal.τ).loc Cert.ReferenceIdeal.main_arg14)) := by rw [e14]; exact D.rng14
    symm
    refine tail_eq m ρ c (StableHlo.launchContents m' c) e0 e19 e20 e21 e22 e23 e24 e25 e26 e27 e28 e29 e30 e31 e32 e33 e34 e35 e36 e37 e38 ?_
    funext i
    obtain ⟨p, j, rfl⟩ : ∃ p j, i = ix2 p j := ⟨i 0, i 1, eq_ix2 i⟩
    rw [kernel_h3 m ρ c D.rng1 D.rng2 D.rng7 D.rng8 D.rng13 D.rng14 D.fin0 D.fin3 D.fin4 D.fin5 D.fin6 D.fin9 D.fin10 D.fin11 D.fin12 D.fin15 p j,
      Cert.ReferenceIdeal.Hand.ref_h3 (StableHlo.launchContents m' c) hr1' hc1' hr2' hc2' hr3' hc3' p j]
    exact congrFun (congrFun (H3_congr e0.symm e1.symm e2.symm e3.symm e4.symm e5.symm e6.symm e7.symm e8.symm e9.symm e10.symm e11.symm e12.symm e13.symm e14.symm e15.symm e16.symm e17.symm e18.symm _ _ _ _ _ _ _ _ _ _ _ _) p) j

end Cert.Assemble

end
-- ==== Proof.lean ====
import proofs.«161050_j60275571032433_1_alg».proof.Defs
import proofs.«161050_j60275571032433_1_alg».proof.Proof.Gen.Kernel
import proofs.«161050_j60275571032433_1_alg».proof.Proof.Gen.KernelIdeal
import proofs.«161050_j60275571032433_1_alg».proof.Proof.Gen.ReferenceIdeal
import proofs.«161050_j60275571032433_1_alg».proof.Proof.Gen.Pre_finite_inputs
import proofs.«161050_j60275571032433_1_alg».proof.Proof.KRun
import proofs.«161050_j60275571032433_1_alg».proof.Proof.Assemble

noncomputable section

namespace Cert.Proof

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ, Cert.Assemble.frame_ki, Cert.Assemble.frame_ri, trivial, Cert.Assemble.algebraic⟩

end Cert.Proof

end
